-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v51)) (v1 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_v30) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v211) = v0 c
          ∧ r.2.mem ((c.tc : Thread Cert.ReferenceIdeal.nD Cert.ReferenceIdeal.τ).loc Cert.ReferenceIdeal.main_v190) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64 : Shape := ⟨1, ![64]⟩
abbrev S64x3x48 : Shape := ⟨3, ![64, 3, 48]⟩
abbrev S300000 : Shape := ⟨1, ![300000]⟩
abbrev S_ : Shape := ⟨0, ![]⟩

class Facts : Prop where
  bcast_S_S64x3x48 : S_.BroadcastsInDim S64x3x48 (![] : Fin 0 → Fin S64x3x48.rank)
  reducesTo_S64x3x48_S_d0_1_2 : S64x3x48.ReducesTo [0, 1, 2] S_
  h_S_ : 0 < S_.numel
  bcast_S_S300000 : S_.BroadcastsInDim S300000 (![] : Fin 0 → Fin S300000.rank)
  reducesTo_S300000_S_d0 : S300000.ReducesTo [0] S_

variable [Facts]

def fn_part1 {F : FTy → Type} [FloatOps F] (main_arg5 : IVec S300000 32) (main_arg6 : IVec S300000 32) (main_v15 : IVec S_ 1) (main_c_5 : IVec S_ 32) : IVec S_ 1 :=
  let main_v16 : IVec S300000 32 := broadcastInDim S300000 ![] bcast_S_S300000 main_c_5
  let main_v17 : IVec S300000 1 := cmpi .sge main_arg5 main_v16
  let main_c_6 : IVec S_ 32 := constantI S_ 32 40000#32
  let main_v18 : IVec S300000 32 := broadcastInDim S300000 ![] bcast_S_S300000 main_c_6
  let main_v19 : IVec S300000 1 := cmpi .slt main_arg5 main_v18
  let main_v20 : IVec S300000 1 := andi main_v17 main_v19
  let main_c_7 : IVec S_ 1 := constantI S_ 1 1#1
  let main_v21 : IVec S_ 1 := (fun x v => Host.reduce IntOp.andi x v reducesTo_S300000_S_d0 h_S_) main_v20 main_c_7
  let main_v22 : IVec S_ 1 := andi main_v15 main_v21
  let main_c_8 : IVec S_ 32 := constantI S_ 32 0#32
  let main_v23 : IVec S300000 32 := broadcastInDim S300000 ![] bcast_S_S300000 main_c_8
  let main_v24 : IVec S300000 1 := cmpi .sge main_arg6 main_v23
  let main_c_9 : IVec S_ 32 := constantI S_ 32 24#32
  let main_v25 : IVec S300000 32 := broadcastInDim S300000 ![] bcast_S_S300000 main_c_9
  let main_v26 : IVec S300000 1 := cmpi .slt main_arg6 main_v25
  let main_v27 : IVec S300000 1 := andi main_v24 main_v26
  let main_c_10 : IVec S_ 1 := constantI S_ 1 1#1
  let main_v28 : IVec S_ 1 := (fun x v => Host.reduce IntOp.andi x v reducesTo_S300000_S_d0 h_S_) main_v27 main_c_10
  let main_v29 : IVec S_ 1 := andi main_v22 main_v28
  main_v29

def fn {F : FTy → Type} [FloatOps F] (main_arg0 : IVec S64 32) (main_arg1 : IVec S64 32) (main_arg2 : IVec S64 32) (main_arg3 : FVec F S64x3x48 .f32) (main_arg4 : IVec S300000 32) (main_arg5 : IVec S300000 32) (main_arg6 : IVec S300000 32) (main_arg7 : FVec F S300000 .f32) : IVec S_ 1 :=
  let main_v0 : FVec F S64x3x48 .f32 := Host.absf main_arg3
  let main_cst : FVec F S_ .f32 := constant S_ .f32 0x7F800000#32
  let main_v1 : FVec F S64x3x48 .f32 := broadcastInDim S64x3x48 ![] bcast_S_S64x3x48 main_cst
  let main_v2 : IVec S64x3x48 1 := cmpf .olt main_v0 main_v1
  let main_c : IVec S_ 1 := constantI S_ 1 1#1
  let main_v3 : IVec S_ 1 := (fun x v => Host.reduce IntOp.andi x v reducesTo_S64x3x48_S_d0_1_2 h_S_) main_v2 main_c
  let main_v4 : FVec F S300000 .f32 := Host.absf main_arg7
  let main_cst_0 : FVec F S_ .f32 := constant S_ .f32 0x7F800000#32
  let main_v5 : FVec F S300000 .f32 := broadcastInDim S300000 ![] bcast_S_S300000 main_cst_0
  let main_v6 : IVec S300000 1 := cmpf .olt main_v4 main_v5
  let main_c_1 : IVec S_ 1 := constantI S_ 1 1#1
  let main_v7 : IVec S_ 1 := (fun x v => Host.reduce IntOp.andi x v reducesTo_S300000_S_d0 h_S_) main_v6 main_c_1
  let main_v8 : IVec S_ 1 := andi main_v3 main_v7
  let main_c_2 : IVec S_ 32 := constantI S_ 32 0#32
  let main_v9 : IVec S300000 32 := broadcastInDim S300000 ![] bcast_S_S300000 main_c_2
  let main_v10 : IVec S300000 1 := cmpi .sge main_arg4 main_v9
  let main_c_3 : IVec S_ 32 := constantI S_ 32 40000#32
  let main_v11 : IVec S300000 32 := broadcastInDim S300000 ![] bcast_S_S300000 main_c_3
  let main_v12 : IVec S300000 1 := cmpi .slt main_arg4 main_v11
  let main_v13 : IVec S300000 1 := andi main_v10 main_v12
  let main_c_4 : IVec S_ 1 := constantI S_ 1 1#1
  let main_v14 : IVec S_ 1 := (fun x v => Host.reduce IntOp.andi x v reducesTo_S300000_S_d0 h_S_) main_v13 main_c_4
  let main_v15 : IVec S_ 1 := andi main_v8 main_v14
  let main_c_5 : IVec S_ 32 := constantI S_ 32 0#32
  fn_part1 (F := F) main_arg5 main_arg6 main_v15 main_c_5
-- ==== Kernel.lean ====
abbrev S64 : Shape := ⟨1, ![64]⟩
abbrev S64x3x48 : Shape := ⟨3, ![64, 3, 48]⟩
abbrev S300000 : Shape := ⟨1, ![300000]⟩
abbrev S_ : Shape := ⟨0, ![]⟩
abbrev S300032 : Shape := ⟨1, ![300032]⟩
abbrev S1024 : Shape := ⟨1, ![1024]⟩
abbrev S1x1024 : Shape := ⟨2, ![1, 1024]⟩
abbrev S64x1 : Shape := ⟨2, ![64, 1]⟩
abbrev S64x1024 : Shape := ⟨2, ![64, 1024]⟩
abbrev S1x40960 : Shape := ⟨2, ![1, 40960]⟩
abbrev S64x40960 : Shape := ⟨2, ![64, 40960]⟩
abbrev S64x1x48 : Shape := ⟨3, ![64, 1, 48]⟩
abbrev S64x48 : Shape := ⟨2, ![64, 48]⟩
abbrev S64x24 : Shape := ⟨2, ![64, 24]⟩
abbrev S2048 : Shape := ⟨1, ![2048]⟩
abbrev S1024x1 : Shape := ⟨2, ![1024, 1]⟩
abbrev S1x2048 : Shape := ⟨2, ![1, 2048]⟩
abbrev S1024x2048 : Shape := ⟨2, ![1024, 2048]⟩
abbrev S64x2048 : Shape := ⟨2, ![64, 2048]⟩
abbrev S24x1024 : Shape := ⟨2, ![24, 1024]⟩
abbrev S64x40000 : Shape := ⟨2, ![64, 40000]⟩
abbrev S64x2 : Shape := ⟨2, ![64, 2]⟩

abbrev nBuf : Space → Nat
  | .hbm => 82
  | .vmem => 52
  | .smem => 0
  | _ => 0

abbrev bufTy : (tb : Table) → Fin (tcTables nBuf tb) → BufTy
  | .hbm, ⟨0, _⟩ => ⟨S64, .i32⟩
  | .hbm, ⟨1, _⟩ => ⟨S64, .i32⟩
  | .hbm, ⟨2, _⟩ => ⟨S64, .i32⟩
  | .hbm, ⟨3, _⟩ => ⟨S64x3x48, .f32⟩
  | .hbm, ⟨4, _⟩ => ⟨S300000, .i32⟩
  | .hbm, ⟨5, _⟩ => ⟨S300000, .i32⟩
  | .hbm, ⟨6, _⟩ => ⟨S300000, .i32⟩
  | .hbm, ⟨7, _⟩ => ⟨S300000, .f32⟩
  | .hbm, ⟨8, _⟩ => ⟨S_, .i32⟩
  | .hbm, ⟨9, _⟩ => ⟨S_, .i32⟩
  | .hbm, ⟨10, _⟩ => ⟨S300032, .i32⟩
  | .hbm, ⟨11, _⟩ => ⟨S_, .i32⟩
  | .hbm, ⟨12, _⟩ => ⟨S_, .i32⟩
  | .hbm, ⟨13, _⟩ => ⟨S300032, .i32⟩
  | .hbm, ⟨14, _⟩ => ⟨S_, .i32⟩
  | .hbm, ⟨15, _⟩ => ⟨S_, .i32⟩
  | .hbm, ⟨16, _⟩ => ⟨S300032, .i32⟩
  | .hbm, ⟨17, _⟩ => ⟨S_, .f32⟩
  | .hbm, ⟨18, _⟩ => ⟨S_, .f32⟩
  | .hbm, ⟨19, _⟩ => ⟨S300032, .f32⟩
  | .hbm, ⟨20, _⟩ => ⟨S300032, .f32⟩
  | .hbm, ⟨21, _⟩ => ⟨S64x1, .i32⟩
  | .hbm, ⟨22, _⟩ => ⟨S1x40960, .i32⟩
  | .hbm, ⟨23, _⟩ => ⟨S64x40960, .i32⟩
  | .hbm, ⟨24, _⟩ => ⟨S64x40960, .i32⟩
  | .hbm, ⟨25, _⟩ => ⟨S64x40960, .i1⟩
  | .hbm, ⟨26, _⟩ => ⟨S64x40960, .f32⟩
  | .hbm, ⟨27, _⟩ => ⟨S64x1x48, .f32⟩
  | .hbm, ⟨28, _⟩ => ⟨S64x48, .f32⟩
  | .hbm, ⟨29, _⟩ => ⟨S64x24, .f32⟩
  | .hbm, ⟨30, _⟩ => ⟨S64x24, .f32⟩
  | .hbm, ⟨31, _⟩ => ⟨S64x1, .f32⟩
  | .hbm, ⟨32, _⟩ => ⟨S64x40960, .f32⟩
  | .hbm, ⟨33, _⟩ => ⟨S64x1x48, .f32⟩
  | .hbm, ⟨34, _⟩ => ⟨S64x48, .f32⟩
  | .hbm, ⟨35, _⟩ => ⟨S64x24, .f32⟩
  | .hbm, ⟨36, _⟩ => ⟨S64x24, .f32⟩
  | .hbm, ⟨37, _⟩ => ⟨S64x1, .f32⟩
  | .hbm, ⟨38, _⟩ => ⟨S64x40960, .f32⟩
  | .hbm, ⟨39, _⟩ => ⟨S64x1x48, .f32⟩
  | .hbm, ⟨40, _⟩ => ⟨S64x48, .f32⟩
  | .hbm, ⟨41, _⟩ => ⟨S64x24, .f32⟩
  | .hbm, ⟨42, _⟩ => ⟨S64x24, .f32⟩
  | .hbm, ⟨43, _⟩ => ⟨S64x1, .f32⟩
  | .hbm, ⟨44, _⟩ => ⟨S64x40960, .f32⟩
  | .hbm, ⟨45, _⟩ => ⟨S64x40000, .f32⟩
  | .hbm, ⟨46, _⟩ => ⟨S_, .f32⟩
  | .hbm, ⟨47, _⟩ => ⟨S64, .f32⟩
  | .hbm, ⟨48, _⟩ => ⟨S64x1, .f32⟩
  | .hbm, ⟨49, _⟩ => ⟨S_, .f32⟩
  | .hbm, ⟨50, _⟩ => ⟨S64x1, .f32⟩
  | .hbm, ⟨51, _⟩ => ⟨S64x1, .f32⟩
  | .hbm, ⟨52, _⟩ => ⟨S64x40000, .f32⟩
  | .hbm, ⟨53, _⟩ => ⟨S64x40000, .f32⟩
  | .hbm, ⟨54, _⟩ => ⟨S64, .i32⟩
  | .hbm, ⟨55, _⟩ => ⟨S_, .i32⟩
  | .hbm, ⟨56, _⟩ => ⟨S64, .i32⟩
  | .hbm, ⟨57, _⟩ => ⟨S64, .i1⟩
  | .hbm, ⟨58, _⟩ => ⟨S_, .i32⟩
  | .hbm, ⟨59, _⟩ => ⟨S64, .i32⟩
  | .hbm, ⟨60, _⟩ => ⟨S64, .i32⟩
  | .hbm, ⟨61, _⟩ => ⟨S64, .i32⟩
  | .hbm, ⟨62, _⟩ => ⟨S_, .i32⟩
  | .hbm, ⟨63, _⟩ => ⟨S64, .i32⟩
  | .hbm, ⟨64, _⟩ => ⟨S64, .i1⟩
  | .hbm, ⟨65, _⟩ => ⟨S_, .i32⟩
  | .hbm, ⟨66, _⟩ => ⟨S64, .i32⟩
  | .hbm, ⟨67, _⟩ => ⟨S64, .i32⟩
  | .hbm, ⟨68, _⟩ => ⟨S64, .i32⟩
  | .hbm, ⟨69, _⟩ => ⟨S64x1, .i32⟩
  | .hbm, ⟨70, _⟩ => ⟨S64x1, .i32⟩
  | .hbm, ⟨71, _⟩ => ⟨S64x2, .i32⟩
  | .hbm, ⟨72, _⟩ => ⟨S64, .f32⟩
  | .hbm, ⟨73, _⟩ => ⟨S_, .f32⟩
  | .hbm, ⟨74, _⟩ => ⟨S64, .f32⟩
  | .hbm, ⟨75, _⟩ => ⟨S64, .f32⟩
  | .hbm, ⟨76, _⟩ => ⟨S64, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .local _ .vmem, ⟨0, _⟩ => ⟨S64, .i32⟩
  | .local _ .vmem, ⟨1, _⟩ => ⟨S64, .i32⟩
  | .local _ .vmem, ⟨2, _⟩ => ⟨S64, .i32⟩
  | .local _ .vmem, ⟨3, _⟩ => ⟨S1024, .i32⟩
  | .local _ .vmem, ⟨4, _⟩ => ⟨S1024, .i32⟩
  | .local _ .vmem, ⟨5, _⟩ => ⟨S1024, .i32⟩
  | .local _ .vmem, ⟨6, _⟩ => ⟨S1024, .i32⟩
  | .local _ .vmem, ⟨7, _⟩ => ⟨S1024, .i32⟩
  | .local _ .vmem, ⟨8, _⟩ => ⟨S1024, .i32⟩
  | .local _ .vmem, ⟨9, _⟩ => ⟨S1024, .f32⟩
  | .local _ .vmem, ⟨10, _⟩ => ⟨S1024, .f32⟩
  | .local _ .vmem, ⟨11, _⟩ => ⟨S1024, .f32⟩
  | .local _ .vmem, ⟨12, _⟩ => ⟨S1024, .f32⟩
  | .local _ .vmem, ⟨13, _⟩ => ⟨S1024, .i32⟩
  | .local _ .vmem, ⟨14, _⟩ => ⟨S1024, .i32⟩
  | .local _ .vmem, ⟨15, _⟩ => ⟨S1024, .i32⟩
  | .local _ .vmem, ⟨16, _⟩ => ⟨S1024, .i32⟩
  | .local _ .vmem, ⟨17, _⟩ => ⟨S1024, .i32⟩
  | .local _ .vmem, ⟨18, _⟩ => ⟨S1024, .i32⟩
  | .local _ .vmem, ⟨19, _⟩ => ⟨S1024, .f32⟩
  | .local _ .vmem, ⟨20, _⟩ => ⟨S1024, .f32⟩
  | .local _ .vmem, ⟨21, _⟩ => ⟨S64x24, .f32⟩
  | .local _ .vmem, ⟨22, _⟩ => ⟨S64x24, .f32⟩
  | .local _ .vmem, ⟨23, _⟩ => ⟨S64x1, .f32⟩
  | .local _ .vmem, ⟨24, _⟩ => ⟨S64x40960, .f32⟩
  | .local _ .vmem, ⟨25, _⟩ => ⟨S64x40960, .f32⟩
  | .local _ .vmem, ⟨26, _⟩ => ⟨S1024, .i32⟩
  | .local _ .vmem, ⟨27, _⟩ => ⟨S1024, .i32⟩
  | .local _ .vmem, ⟨28, _⟩ => ⟨S1024, .i32⟩
  | .local _ .vmem, ⟨29, _⟩ => ⟨S1024, .i32⟩
  | .local _ .vmem, ⟨30, _⟩ => ⟨S1024, .i32⟩
  | .local _ .vmem, ⟨31, _⟩ => ⟨S1024, .i32⟩
  | .local _ .vmem, ⟨32, _⟩ => ⟨S1024, .f32⟩
  | .local _ .vmem, ⟨33, _⟩ => ⟨S1024, .f32⟩
  | .local _ .vmem, ⟨34, _⟩ => ⟨S64x24, .f32⟩
  | .local _ .vmem, ⟨35, _⟩ => ⟨S64x24, .f32⟩
  | .local _ .vmem, ⟨36, _⟩ => ⟨S64x1, .f32⟩
  | .local _ .vmem, ⟨37, _⟩ => ⟨S64x40960, .f32⟩
  | .local _ .vmem, ⟨38, _⟩ => ⟨S64x40960, .f32⟩
  | .local _ .vmem, ⟨39, _⟩ => ⟨S1024, .i32⟩
  | .local _ .vmem, ⟨40, _⟩ => ⟨S1024, .i32⟩
  | .local _ .vmem, ⟨41, _⟩ => ⟨S1024, .i32⟩
  | .local _ .vmem, ⟨42, _⟩ => ⟨S1024, .i32⟩
  | .local _ .vmem, ⟨43, _⟩ => ⟨S1024, .i32⟩
  | .local _ .vmem, ⟨44, _⟩ => ⟨S1024, .i32⟩
  | .local _ .vmem, ⟨45, _⟩ => ⟨S1024, .f32⟩
  | .local _ .vmem, ⟨46, _⟩ => ⟨S1024, .f32⟩
  | .local _ .vmem, ⟨47, _⟩ => ⟨S64x24, .f32⟩
  | .local _ .vmem, ⟨48, _⟩ => ⟨S64x24, .f32⟩
  | .local _ .vmem, ⟨49, _⟩ => ⟨S64x1, .f32⟩
  | .local _ .vmem, ⟨50, _⟩ => ⟨S64x40960, .f32⟩
  | .local _ .vmem, ⟨51, _⟩ => ⟨S64x40960, .f32⟩
  | _, _ => ⟨S64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_c_0 : Ref sig .tc := ⟨.hbm, 11, rfl⟩
abbrev main_call1_v0 : Ref sig .tc := ⟨.hbm, 12, rfl⟩
abbrev main_v1 : Ref sig .tc := ⟨.hbm, 13, rfl⟩
abbrev main_c_1 : Ref sig .tc := ⟨.hbm, 14, rfl⟩
abbrev main_call2_v0 : Ref sig .tc := ⟨.hbm, 15, rfl⟩
abbrev main_v2 : Ref sig .tc := ⟨.hbm, 16, rfl⟩
abbrev main_cst : Ref sig .tc := ⟨.hbm, 17, rfl⟩
abbrev main_call3_v0 : Ref sig .tc := ⟨.hbm, 18, rfl⟩
abbrev main_v3 : Ref sig .tc := ⟨.hbm, 19, rfl⟩
abbrev main_v4 : Ref sig .tc := ⟨.hbm, 20, rfl⟩
abbrev main_call4_v0 : Ref sig .tc := ⟨.hbm, 21, rfl⟩
abbrev main_call4_v1 : Ref sig .tc := ⟨.hbm, 22, rfl⟩
abbrev main_call4_v2 : Ref sig .tc := ⟨.hbm, 23, rfl⟩
abbrev main_call4_v3 : Ref sig .tc := ⟨.hbm, 24, rfl⟩
abbrev main_call4_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_2 : Ref sig .tc := ⟨.hbm, 46, rfl⟩
abbrev main_v25 : Ref sig .tc := ⟨.hbm, 47, rfl⟩
abbrev main_v26 : Ref sig .tc := ⟨.hbm, 48, rfl⟩
abbrev main_cst_3 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_4 : Ref sig .tc := ⟨.hbm, 55, rfl⟩
abbrev main_v32 : Ref sig .tc := ⟨.hbm, 56, rfl⟩
abbrev main_v33 : Ref sig .tc := ⟨.hbm, 57, rfl⟩
abbrev main_c_5 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_6 : Ref sig .tc := ⟨.hbm, 62, rfl⟩
abbrev main_v37 : Ref sig .tc := ⟨.hbm, 63, rfl⟩
abbrev main_v38 : Ref sig .tc := ⟨.hbm, 64, rfl⟩
abbrev main_c_7 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_8 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_9 : Ref sig .tc := ⟨.hbm, 77, rfl⟩
abbrev main_v49 : Ref sig .tc := ⟨.hbm, 78, rfl⟩
abbrev main_cst_10 : Ref sig .tc := ⟨.hbm, 79, rfl⟩
abbrev main_v50 : Ref sig .tc := ⟨.hbm, 80, rfl⟩
abbrev main_v51 : Ref sig .tc := ⟨.hbm, 81, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg3_1 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg8_0 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg1_1 : Ref sig .tc := ⟨.vmem, 42, rfl⟩
abbrev cc3_stg2_0 : Ref sig .tc := ⟨.vmem, 43, rfl⟩
abbrev cc3_stg2_1 : Ref sig .tc := ⟨.vmem, 44, rfl⟩
abbrev cc3_stg3_0 : Ref sig .tc := ⟨.vmem, 45, rfl⟩
abbrev cc3_stg3_1 : Ref sig .tc := ⟨.vmem, 46, rfl⟩
abbrev cc3_stg4_0 : Ref sig .tc := ⟨.vmem, 47, rfl⟩
abbrev cc3_stg5_0 : Ref sig .tc := ⟨.vmem, 48, rfl⟩
abbrev cc3_stg6_0 : Ref sig .tc := ⟨.vmem, 49, rfl⟩
abbrev cc3_stg7_0 : Ref sig .tc := ⟨.vmem, 50, rfl⟩
abbrev cc3_stg8_0 : Ref sig .tc := ⟨.vmem, 51, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem3_1 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem8_0 : DmaSem sig := 38
abbrev cc3_sem0_0 : DmaSem sig := 39
abbrev cc3_sem0_1 : DmaSem sig := 40
abbrev cc3_sem1_0 : DmaSem sig := 41
abbrev cc3_sem1_1 : DmaSem sig := 42
abbrev cc3_sem2_0 : DmaSem sig := 43
abbrev cc3_sem2_1 : DmaSem sig := 44
abbrev cc3_sem3_0 : DmaSem sig := 45
abbrev cc3_sem3_1 : DmaSem sig := 46
abbrev cc3_sem4_0 : DmaSem sig := 47
abbrev cc3_sem5_0 : DmaSem sig := 48
abbrev cc3_sem6_0 : DmaSem sig := 49
abbrev cc3_sem7_0 : DmaSem sig := 50
abbrev cc3_sem8_0 : DmaSem sig := 51

abbrev nD : Nat := 1
abbrev τ : Topo := Topo.v7x

variable {F : FTy → Type} [FloatOps F]

abbrev grid0 : Pipeline.Grid := ⟨1, ![293], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 1 → Nat :=
  let arg0 : BitVec 32 := BitVec.ofNat 32 (i 0).val
  let c0_i32 : BitVec 32 := 0#32
  ![arg0.toNat]

def cc0_transform_6 (i : grid0.Coords) : Fin 1 → Nat :=
  let arg0 : BitVec 32 := BitVec.ofNat 32 (i 0).val
  let c0_i32 : BitVec 32 := 0#32
  ![arg0.toNat]

def cc0_transform_7 (i : grid0.Coords) : Fin 1 → Nat :=
  let arg0 : BitVec 32 := BitVec.ofNat 32 (i 0).val
  let c0_i32 : BitVec 32 := 0#32
  ![arg0.toNat]

abbrev stage0_0 : Fin 1 → Memref sig .tc .vmem S64 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![293], ![false]⟩

@[reducible] def k1_t1_loop : Scf.Loop 32 :=
  let c0_i32_5 : BitVec 32 := 0#32
  let c40_i32 : BitVec 32 := 40#32
  let v14 : BitVec 32 := Scalar.addi c0_i32_5 c40_i32
  let c1_i32 : BitVec 32 := 1#32
  ⟨c0_i32_5, v14, c1_i32⟩
def k1_mult1 (k1_t1 : Fin k1_t1_loop.trips) : BitVec 32 :=
  let c0_i32_5 : BitVec 32 := 0#32
  let c1_i32 : BitVec 32 := 1#32
  let arg10 : BitVec 32 := Scf.iv c0_i32_5 c1_i32 k1_t1
  let c1024_i32 : BitVec 32 := 1024#32
  let v43 : BitVec 32 := Scalar.muli arg10 c1024_i32
  v43
def k1_off1 (k1_t1 : Fin k1_t1_loop.trips) : Fin 2 → Nat :=
  let c0_18 : Index := 0#32
  let c0_i32_5 : BitVec 32 := 0#32
  let c1_i32 : BitVec 32 := 1#32
  let arg10 : BitVec 32 := Scf.iv c0_i32_5 c1_i32 k1_t1
  let c1024_i32 : BitVec 32 := 1024#32
  let v43 : BitVec 32 := Scalar.muli arg10 c1024_i32
  let v44 : BitVec 32 := v43
  let v55 : Index := Scalar.indexCast v44
  ![0, v55.toNat]
@[reducible] def k1_t2_loop : Scf.Loop 32 :=
  let c0_i32_13 : BitVec 32 := 0#32
  let c40_i32_14 : BitVec 32 := 40#32
  let v39 : BitVec 32 := Scalar.addi c0_i32_13 c40_i32_14
  let c1_i32_15 : BitVec 32 := 1#32
  ⟨c0_i32_13, v39, c1_i32_15⟩
def k1_mult2 (k1_t2 : Fin k1_t2_loop.trips) : BitVec 32 :=
  let c0_i32_19 : BitVec 32 := 0#32
  let c0_i32_13 : BitVec 32 := 0#32
  let c1_i32_15 : BitVec 32 := 1#32
  let arg10 : BitVec 32 := Scf.iv c0_i32_13 c1_i32_15 k1_t2
  let c1_i32_18 : BitVec 32 := 1#32
  let v43 : BitVec 32 := Scalar.muli arg10 c1_i32_18
  let v44 : BitVec 32 := Scalar.addi c0_i32_19 v43
  let c1024_i32 : BitVec 32 := 1024#32
  let v45 : BitVec 32 := Scalar.muli v44 c1024_i32
  v45
def k1_off2 (k1_t2 : Fin k1_t2_loop.trips) : Fin 2 → Nat :=
  let c0_21 : Index := 0#32
  let c0_i32_19 : BitVec 32 := 0#32
  let c0_i32_13 : BitVec 32 := 0#32
  let c1_i32_15 : BitVec 32 := 1#32
  let arg10 : BitVec 32 := Scf.iv c0_i32_13 c1_i32_15 k1_t2
  let c1_i32_18 : BitVec 32 := 1#32
  let v43 : BitVec 32 := Scalar.muli arg10 c1_i32_18
  let v44 : BitVec 32 := Scalar.addi c0_i32_19 v43
  let c1024_i32 : BitVec 32 := 1024#32
  let v45 : BitVec 32 := Scalar.muli v44 c1024_i32
  let v46 : BitVec 32 := v45
  let v58 : Index := Scalar.indexCast v46
  ![0, v58.toNat]
def cc1_transform_0 (i : grid1.Coords) : Fin 1 → Nat :=
  let arg0 : BitVec 32 := BitVec.ofNat 32 (i 0).val
  let c0_i32 : BitVec 32 := 0#32
  ![arg0.toNat]

def cc1_transform_1 (i : grid1.Coords) : Fin 1 → Nat :=
  let arg0 : BitVec 32 := BitVec.ofNat 32 (i 0).val
  let c0_i32 : BitVec 32 := 0#32
  ![arg0.toNat]

def cc1_transform_2 (i : grid1.Coords) : Fin 1 → Nat :=
  let arg0 : BitVec 32 := BitVec.ofNat 32 (i 0).val
  let c0_i32 : BitVec 32 := 0#32
  ![arg0.toNat]

def cc1_transform_3 (i : grid1.Coords) : Fin 1 → Nat :=
  let arg0 : BitVec 32 := BitVec.ofNat 32 (i 0).val
  let c0_i32 : BitVec 32 := 0#32
  ![arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x24 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x24 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x40960 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x40960 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev grid2 : Pipeline.Grid := ⟨1, ![293], ![false]⟩

@[reducible] def k2_t1_loop : Scf.Loop 32 :=
  let c0_i32_5 : BitVec 32 := 0#32
  let c40_i32 : BitVec 32 := 40#32
  let v14 : BitVec 32 := Scalar.addi c0_i32_5 c40_i32
  let c1_i32 : BitVec 32 := 1#32
  ⟨c0_i32_5, v14, c1_i32⟩
def k2_mult1 (k2_t1 : Fin k2_t1_loop.trips) : BitVec 32 :=
  let c0_i32_5 : BitVec 32 := 0#32
  let c1_i32 : BitVec 32 := 1#32
  let arg10 : BitVec 32 := Scf.iv c0_i32_5 c1_i32 k2_t1
  let c1024_i32 : BitVec 32 := 1024#32
  let v43 : BitVec 32 := Scalar.muli arg10 c1024_i32
  v43
def k2_off1 (k2_t1 : Fin k2_t1_loop.trips) : Fin 2 → Nat :=
  let c0_18 : Index := 0#32
  let c0_i32_5 : BitVec 32 := 0#32
  let c1_i32 : BitVec 32 := 1#32
  let arg10 : BitVec 32 := Scf.iv c0_i32_5 c1_i32 k2_t1
  let c1024_i32 : BitVec 32 := 1024#32
  let v43 : BitVec 32 := Scalar.muli arg10 c1024_i32
  let v44 : BitVec 32 := v43
  let v55 : Index := Scalar.indexCast v44
  ![0, v55.toNat]
@[reducible] def k2_t2_loop : Scf.Loop 32 :=
  let c0_i32_13 : BitVec 32 := 0#32
  let c40_i32_14 : BitVec 32 := 40#32
  let v39 : BitVec 32 := Scalar.addi c0_i32_13 c40_i32_14
  let c1_i32_15 : BitVec 32 := 1#32
  ⟨c0_i32_13, v39, c1_i32_15⟩
def k2_mult2 (k2_t2 : Fin k2_t2_loop.trips) : BitVec 32 :=
  let c0_i32_19 : BitVec 32 := 0#32
  let c0_i32_13 : BitVec 32 := 0#32
  let c1_i32_15 : BitVec 32 := 1#32
  let arg10 : BitVec 32 := Scf.iv c0_i32_13 c1_i32_15 k2_t2
  let c1_i32_18 : BitVec 32 := 1#32
  let v43 : BitVec 32 := Scalar.muli arg10 c1_i32_18
  let v44 : BitVec 32 := Scalar.addi c0_i32_19 v43
  let c1024_i32 : BitVec 32 := 1024#32
  let v45 : BitVec 32 := Scalar.muli v44 c1024_i32
  v45
def k2_off2 (k2_t2 : Fin k2_t2_loop.trips) : Fin 2 → Nat :=
  let c0_21 : Index := 0#32
  let c0_i32_19 : BitVec 32 := 0#32
  let c0_i32_13 : BitVec 32 := 0#32
  let c1_i32_15 : BitVec 32 := 1#32
  let arg10 : BitVec 32 := Scf.iv c0_i32_13 c1_i32_15 k2_t2
  let c1_i32_18 : BitVec 32 := 1#32
  let v43 : BitVec 32 := Scalar.muli arg10 c1_i32_18
  let v44 : BitVec 32 := Scalar.addi c0_i32_19 v43
  let c1024_i32 : BitVec 32 := 1024#32
  let v45 : BitVec 32 := Scalar.muli v44 c1024_i32
  let v46 : BitVec 32 := v45
  let v58 : Index := Scalar.indexCast v46
  ![0, v58.toNat]
def cc2_transform_0 (i : grid2.Coords) : Fin 1 → Nat :=
  let arg0 : BitVec 32 := BitVec.ofNat 32 (i 0).val
  let c0_i32 : BitVec 32 := 0#32
  ![arg0.toNat]

def cc2_transform_1 (i : grid2.Coords) : Fin 1 → Nat :=
  let arg0 : BitVec 32 := BitVec.ofNat 32 (i 0).val
  let c0_i32 : BitVec 32 := 0#32
  ![arg0.toNat]

def cc2_transform_2 (i : grid2.Coords) : Fin 1 → Nat :=
  let arg0 : BitVec 32 := BitVec.ofNat 32 (i 0).val
  let c0_i32 : BitVec 32 := 0#32
  ![arg0.toNat]

def cc2_transform_3 (i : grid2.Coords) : Fin 1 → Nat :=
  let arg0 : BitVec 32 := BitVec.ofNat 32 (i 0).val
  let c0_i32 : BitVec 32 := 0#32
  ![arg0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1024 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x24 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x24 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x40960 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64x40960 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![293], ![false]⟩

@[reducible] def k3_t1_loop : Scf.Loop 32 :=
  let c0_i32_5 : BitVec 32 := 0#32
  let c40_i32 : BitVec 32 := 40#32
  let v14 : BitVec 32 := Scalar.addi c0_i32_5 c40_i32
  let c1_i32 : BitVec 32 := 1#32
  ⟨c0_i32_5, v14, c1_i32⟩
def k3_mult1 (k3_t1 : Fin k3_t1_loop.trips) : BitVec 32 :=
  let c0_i32_5 : BitVec 32 := 0#32
  let c1_i32 : BitVec 32 := 1#32
  let arg10 : BitVec 32 := Scf.iv c0_i32_5 c1_i32 k3_t1
  let c1024_i32 : BitVec 32 := 1024#32
  let v43 : BitVec 32 := Scalar.muli arg10 c1024_i32
  v43
def k3_off1 (k3_t1 : Fin k3_t1_loop.trips) : Fin 2 → Nat :=
  let c0_18 : Index := 0#32
  let c0_i32_5 : BitVec 32 := 0#32
  let c1_i32 : BitVec 32 := 1#32
  let arg10 : BitVec 32 := Scf.iv c0_i32_5 c1_i32 k3_t1
  let c1024_i32 : BitVec 32 := 1024#32
  let v43 : BitVec 32 := Scalar.muli arg10 c1024_i32
  let v44 : BitVec 32 := v43
  let v55 : Index := Scalar.indexCast v44
  ![0, v55.toNat]
@[reducible] def k3_t2_loop : Scf.Loop 32 :=
  let c0_i32_13 : BitVec 32 := 0#32
  let c40_i32_14 : BitVec 32 := 40#32
  let v39 : BitVec 32 := Scalar.addi c0_i32_13 c40_i32_14
  let c1_i32_15 : BitVec 32 := 1#32
  ⟨c0_i32_13, v39, c1_i32_15⟩
def k3_mult2 (k3_t2 : Fin k3_t2_loop.trips) : BitVec 32 :=
  let c0_i32_19 : BitVec 32 := 0#32
  let c0_i32_13 : BitVec 32 := 0#32
  let c1_i32_15 : BitVec 32 := 1#32
  let arg10 : BitVec 32 := Scf.iv c0_i32_13 c1_i32_15 k3_t2
  let c1_i32_18 : BitVec 32 := 1#32
  let v43 : BitVec 32 := Scalar.muli arg10 c1_i32_18
  let v44 : BitVec 32 := Scalar.addi c0_i32_19 v43
  let c1024_i32 : BitVec 32 := 1024#32
  let v45 : BitVec 32 := Scalar.muli v44 c1024_i32
  v45
def k3_off2 (k3_t2 : Fin k3_t2_loop.trips) : Fin 2 → Nat :=
  let c0_21 : Index := 0#32
  let c0_i32_19 : BitVec 32 := 0#32
  let c0_i32_13 : BitVec 32 := 0#32
  let c1_i32_15 : BitVec 32 := 1#32
  let arg10 : BitVec 32 := Scf.iv c0_i32_13 c1_i32_15 k3_t2
  let c1_i32_18 : BitVec 32 := 1#32
  let v43 : BitVec 32 := Scalar.muli arg10 c1_i32_18
  let v44 : BitVec 32 := Scalar.addi c0_i32_19 v43
  let c1024_i32 : BitVec 32 := 1024#32
  let v45 : BitVec 32 := Scalar.muli v44 c1024_i32
  let v46 : BitVec 32 := v45
  let v58 : Index := Scalar.indexCast v46
  ![0, v58.toNat]
def cc3_transform_0 (i : grid3.Coords) : Fin 1 → Nat :=
  let arg0 : BitVec 32 := BitVec.ofNat 32 (i 0).val
  let c0_i32 : BitVec 32 := 0#32
  ![arg0.toNat]

def cc3_transform_1 (i : grid3.Coords) : Fin 1 → Nat :=
  let arg0 : BitVec 32 := BitVec.ofNat 32 (i 0).val
  let c0_i32 : BitVec 32 := 0#32
  ![arg0.toNat]

def cc3_transform_2 (i : grid3.Coords) : Fin 1 → Nat :=
  let arg0 : BitVec 32 := BitVec.ofNat 32 (i 0).val
  let c0_i32 : BitVec 32 := 0#32
  ![arg0.toNat]

def cc3_transform_3 (i : grid3.Coords) : Fin 1 → Nat :=
  let arg0 : BitVec 32 := BitVec.ofNat 32 (i 0).val
  let c0_i32 : BitVec 32 := 0#32
  ![arg0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1024 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1024 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S64x24 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x24 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64x40960 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S64x40960 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

class Facts₀ : Prop where
  pads_S300000_S300032_0320 : S300000.Pads (![0] : Fin 1 → Nat) ![32] ![0] S300032
  h_S_ : 0 < S_.numel
  inb_S64_S64_0 : ∀ a, (![0] : Fin 1 → Nat) a + S64.size a ≤ S64.size a
  h_S64 : 0 < S64.numel
  inb_S1024_S1024_0 : ∀ a, (![0] : Fin 1 → Nat) a + S1024.size a ≤ S1024.size a
  h_S1024 : 0 < S1024.numel
  shapeCasts_S1024_S1024 : S1024.ShapeCasts S1024
  shapeCasts_S1024_S1x1024 : S1024.ShapeCasts S1x1024
  shapeCasts_S64_S64x1 : S64.ShapeCasts S64x1
  broadcasts_S1x1024_S64x1024 : S1x1024.Broadcasts S64x1024
  broadcasts_S64x1_S64x1024 : S64x1.Broadcasts S64x1024
  reduces_S64x1024_S1024 : S64x1024.Reduces [0] S1024
  bcast_S64_S64x1_0 : S64.BroadcastsInDim S64x1 (![0] : Fin 1 → Fin S64x1.rank)
  bcast_S64x1_S64x40960_0_1 : S64x1.BroadcastsInDim S64x40960 (![0, 1] : Fin 2 → Fin S64x40960.rank)
  bcast_S1x40960_S64x40960_0_1 : S1x40960.BroadcastsInDim S64x40960 (![0, 1] : Fin 2 → Fin S64x40960.rank)
  slices_S64x3x48_S64x1x48_0_0_0 : S64x3x48.Slices ![0, 0, 0] S64x1x48
  shapeCasts_S64x1x48_S64x48 : S64x1x48.ShapeCasts S64x48
  slices_S64x48_S64x24_0_0 : S64x48.Slices ![0, 0] S64x24
  slices_S64x48_S64x24_0_24 : S64x48.Slices ![0, 24] S64x24
  slices_S64x48_S64x1_0_47 : S64x48.Slices ![0, 47] S64x1
  inb_S64x40960_S64x40960_0_0 : ∀ a, (![0, 0] : Fin 2 → Nat) a + S64x40960.size a ≤ S64x40960.size a
  h_S64x40960 : 0 < S64x40960.numel
  concatenates_S1024_S1024_S2048_d0 : Shape.Concatenates [S1024, S1024] S2048 0
  iota_S1024x1_d0_w32 : S1024x1.Iotas .tc 32 [0]
  shapeCasts_S2048_S1x2048 : S2048.ShapeCasts S1x2048
  broadcasts_S1024x1_S1024x2048 : S1024x1.Broadcasts S1024x2048
  broadcasts_S1x2048_S1024x2048 : S1x2048.Broadcasts S1024x2048
  natLt_1_32 : 1 < 32
  bitsLt_bf16_f32 : FTy.bits .bf16 < FTy.bits .f32
  h_S64x1024 : 0 < S64x1024.numel
  shapeCasts_S64x1024_S64x1024 : S64x1024.ShapeCasts S64x1024
  slices_S64x2048_o0_0_S64x1024 : S64x2048.Slices ![0, 0] S64x1024
  slices_S64x2048_o0_1024_S64x1024 : S64x2048.Slices ![0, 1024] S64x1024
  iota_S24x1024_d0_w32 : S24x1024.Iotas .tc 32 [0]
  broadcasts_S1x1024_S24x1024 : S1x1024.Broadcasts S24x1024
  inb_S64x24_S64x24_0_0 : ∀ a, (![0, 0] : Fin 2 → Nat) a + S64x24.size a ≤ S64x24.size a
  h_S64x24 : 0 < S64x24.numel
  shapeCasts_S64x24_S64x24 : S64x24.ShapeCasts S64x24
  concatenates_S64x1024_S64x1024_S64x2048_d1 : Shape.Concatenates [S64x1024, S64x1024] S64x2048 1
  shapeCasts_S64x40960_S64x40960 : S64x40960.ShapeCasts S64x40960
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x40960 : S64x1.Broadcasts S64x40960
  slices_S64x3x48_S64x1x48_0_1_0 : S64x3x48.Slices ![0, 1, 0] S64x1x48
  slices_S64x3x48_S64x1x48_0_2_0 : S64x3x48.Slices ![0, 2, 0] S64x1x48
  slices_S64x40960_S64x40000_0_0 : S64x40960.Slices ![0, 0] S64x40000
  reducesTo_S64x40000_S64_d1 : S64x40000.ReducesTo [1] S64
  bcast_S_S64x1 : S_.BroadcastsInDim S64x1 (![] : Fin 0 → Fin S64x1.rank)
  bcast_S64x1_S64x40000_0_1 : S64x1.BroadcastsInDim S64x40000 (![0, 1] : Fin 2 → Fin S64x40000.rank)
  bcast_S_S64 : S_.BroadcastsInDim S64 (![] : Fin 0 → Fin S64.rank)
  concatenates_S64x1_S64x1_S64x2_d1 : Shape.Concatenates [S64x1, S64x1] S64x2 1
  reducesTo_S64_S_d0 : S64.ReducesTo [0] S_
  dot_S64x1024_S1024x2048_S64x2048_1_0_0_1_n_n_wf : DotDims.WF S64x1024 S1024x2048 S64x2048 [1] [0] [0] [1] [] []
  dot_S64x24_S24x1024_S64x1024_1_0_0_1_n_n_wf : DotDims.WF S64x24 S24x1024 S64x1024 [1] [0] [0] [1] [] []
  dot_S64x2048_S1024x2048_S64x1024_1_1_0_0_n_n_wf : DotDims.WF S64x2048 S1024x2048 S64x1024 [1] [1] [0] [0] [] []
  gather_S64x40000_S64x2_S64_n_01_n_n_01_1_11_wf : GatherDims.WF S64x40000 S64x2 S64 [] [0, 1] [] [0, 1] [] 1 ![1, 1]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64.size a ≤ S64.size a
  hwx0_0 : ∀ i : grid0.Coords, EltTy.bits .i32 = 32 ∨ (Rect.block (s := S64) S64.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64.size a ≤ S64.size a
  hwx0_1 : ∀ i : grid0.Coords, EltTy.bits .i32 = 32 ∨ (Rect.block (s := S64) S64.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .i32 = 32 ∨ (Rect.block (s := S64) S64.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S300032.size a
  hwx0_3 : ∀ i : grid0.Coords, EltTy.bits .i32 = 32 ∨ (Rect.block (s := S300032) S1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S300032.size a
  hwx0_4 : ∀ i : grid0.Coords, EltTy.bits .i32 = 32 ∨ (Rect.block (s := S300032) S1024.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S300032.size a
  hwx0_5 : ∀ i : grid0.Coords, EltTy.bits .i32 = 32 ∨ (Rect.block (s := S300032) S1024.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S300032.size a
  hwx0_6 : ∀ i : grid0.Coords, EltTy.bits .f32 = 32 ∨ (Rect.block (s := S300032) S1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024.size a ≤ S300032.size a
  hwx0_7 : ∀ i : grid0.Coords, EltTy.bits .f32 = 32 ∨ (Rect.block (s := S300032) S1024.size (cc0_transform_7 i) (hinb0_7 i)).WholeWords (EltTy.packing .f32)
  hrank1 : 0 < grid1.rank
  k1_t1_ok : k1_t1_loop.OK
  k1_mult1_dvd : ∀ k1_t1 : Fin k1_t1_loop.trips, 1024 ∣ (k1_mult1 k1_t1).toNat
  k1_off1_inb : ∀ k1_t1 : Fin k1_t1_loop.trips, ∀ a, (k1_off1 k1_t1) a + S64x1024.size a ≤ S64x40960.size a
  k1_t2_ok : k1_t2_loop.OK
  k1_mult2_dvd : ∀ k1_t2 : Fin k1_t2_loop.trips, 1024 ∣ (k1_mult2 k1_t2).toNat
  k1_off2_inb : ∀ k1_t2 : Fin k1_t2_loop.trips, ∀ a, (k1_off2 k1_t2) a + S64x1024.size a ≤ S64x40960.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024.size a ≤ S300032.size a
  hwx1_0 : ∀ i : grid1.Coords, EltTy.bits .i32 = 32 ∨ (Rect.block (s := S300032) S1024.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024.size a ≤ S300032.size a
  hwx1_1 : ∀ i : grid1.Coords, EltTy.bits .i32 = 32 ∨ (Rect.block (s := S300032) S1024.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S300032.size a
  hwx1_2 : ∀ i : grid1.Coords, EltTy.bits .i32 = 32 ∨ (Rect.block (s := S300032) S1024.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024.size a ≤ S300032.size a
  hwx1_3 : ∀ i : grid1.Coords, EltTy.bits .f32 = 32 ∨ (Rect.block (s := S300032) S1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x24.size a ≤ S64x24.size a
  hwx1_4 : ∀ i : grid1.Coords, EltTy.bits .f32 = 32 ∨ (Rect.block (s := S64x24) S64x24.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x24.size a ≤ S64x24.size a
  hwx1_5 : ∀ i : grid1.Coords, EltTy.bits .f32 = 32 ∨ (Rect.block (s := S64x24) S64x24.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x1.size a ≤ S64x1.size a
  hwx1_6 : ∀ i : grid1.Coords, EltTy.bits .f32 = 32 ∨ (Rect.block (s := S64x1) S64x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x40960.size a ≤ S64x40960.size a
  hwx1_7 : ∀ i : grid1.Coords, EltTy.bits .f32 = 32 ∨ (Rect.block (s := S64x40960) S64x40960.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x40960.size a ≤ S64x40960.size a
  hwx1_8 : ∀ i : grid1.Coords, EltTy.bits .f32 = 32 ∨ (Rect.block (s := S64x40960) S64x40960.size (cc1_transform_8 i) (hinb1_8 i)).WholeWords (EltTy.packing .f32)
  hrank2 : 0 < grid2.rank
  k2_t1_ok : k2_t1_loop.OK
  k2_mult1_dvd : ∀ k2_t1 : Fin k2_t1_loop.trips, 1024 ∣ (k2_mult1 k2_t1).toNat
  k2_off1_inb : ∀ k2_t1 : Fin k2_t1_loop.trips, ∀ a, (k2_off1 k2_t1) a + S64x1024.size a ≤ S64x40960.size a
  k2_t2_ok : k2_t2_loop.OK
  k2_mult2_dvd : ∀ k2_t2 : Fin k2_t2_loop.trips, 1024 ∣ (k2_mult2 k2_t2).toNat
  k2_off2_inb : ∀ k2_t2 : Fin k2_t2_loop.trips, ∀ a, (k2_off2 k2_t2) a + S64x1024.size a ≤ S64x40960.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024.size a ≤ S300032.size a
  hwx2_0 : ∀ i : grid2.Coords, EltTy.bits .i32 = 32 ∨ (Rect.block (s := S300032) S1024.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024.size a ≤ S300032.size a
  hwx2_1 : ∀ i : grid2.Coords, EltTy.bits .i32 = 32 ∨ (Rect.block (s := S300032) S1024.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S300032.size a
  hwx2_2 : ∀ i : grid2.Coords, EltTy.bits .i32 = 32 ∨ (Rect.block (s := S300032) S1024.size (cc2_transform_2 i) (hinb2_2 i)).WholeWords (EltTy.packing .i32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024.size a ≤ S300032.size a
  hwx2_3 : ∀ i : grid2.Coords, EltTy.bits .f32 = 32 ∨ (Rect.block (s := S300032) S1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x24.size a ≤ S64x24.size a
  hwx2_4 : ∀ i : grid2.Coords, EltTy.bits .f32 = 32 ∨ (Rect.block (s := S64x24) S64x24.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x24.size a ≤ S64x24.size a
  hwx2_5 : ∀ i : grid2.Coords, EltTy.bits .f32 = 32 ∨ (Rect.block (s := S64x24) S64x24.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x1.size a ≤ S64x1.size a
  hwx2_6 : ∀ i : grid2.Coords, EltTy.bits .f32 = 32 ∨ (Rect.block (s := S64x1) S64x1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x40960.size a ≤ S64x40960.size a
  hwx2_7 : ∀ i : grid2.Coords, EltTy.bits .f32 = 32 ∨ (Rect.block (s := S64x40960) S64x40960.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64x40960.size a ≤ S64x40960.size a
  hwx2_8 : ∀ i : grid2.Coords, EltTy.bits .f32 = 32 ∨ (Rect.block (s := S64x40960) S64x40960.size (cc2_transform_8 i) (hinb2_8 i)).WholeWords (EltTy.packing .f32)
  hrank3 : 0 < grid3.rank
  k3_t1_ok : k3_t1_loop.OK
  k3_mult1_dvd : ∀ k3_t1 : Fin k3_t1_loop.trips, 1024 ∣ (k3_mult1 k3_t1).toNat
  k3_off1_inb : ∀ k3_t1 : Fin k3_t1_loop.trips, ∀ a, (k3_off1 k3_t1) a + S64x1024.size a ≤ S64x40960.size a
  k3_t2_ok : k3_t2_loop.OK
  k3_mult2_dvd : ∀ k3_t2 : Fin k3_t2_loop.trips, 1024 ∣ (k3_mult2 k3_t2).toNat
  k3_off2_inb : ∀ k3_t2 : Fin k3_t2_loop.trips, ∀ a, (k3_off2 k3_t2) a + S64x1024.size a ≤ S64x40960.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024.size a ≤ S300032.size a
  hwx3_0 : ∀ i : grid3.Coords, EltTy.bits .i32 = 32 ∨ (Rect.block (s := S300032) S1024.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024.size a ≤ S300032.size a
  hwx3_1 : ∀ i : grid3.Coords, EltTy.bits .i32 = 32 ∨ (Rect.block (s := S300032) S1024.size (cc3_transform_1 i) (hinb3_1 i)).WholeWords (EltTy.packing .i32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024.size a ≤ S300032.size a
  hwx3_2 : ∀ i : grid3.Coords, EltTy.bits .i32 = 32 ∨ (Rect.block (s := S300032) S1024.size (cc3_transform_2 i) (hinb3_2 i)).WholeWords (EltTy.packing .i32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024.size a ≤ S300032.size a
  hwx3_3 : ∀ i : grid3.Coords, EltTy.bits .f32 = 32 ∨ (Rect.block (s := S300032) S1024.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x24.size a ≤ S64x24.size a
  hwx3_4 : ∀ i : grid3.Coords, EltTy.bits .f32 = 32 ∨ (Rect.block (s := S64x24) S64x24.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x24.size a ≤ S64x24.size a
  hwx3_5 : ∀ i : grid3.Coords, EltTy.bits .f32 = 32 ∨ (Rect.block (s := S64x24) S64x24.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64x1.size a ≤ S64x1.size a
  hwx3_6 : ∀ i : grid3.Coords, EltTy.bits .f32 = 32 ∨ (Rect.block (s := S64x1) S64x1.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64x40960.size a ≤ S64x40960.size a
  hwx3_7 : ∀ i : grid3.Coords, EltTy.bits .f32 = 32 ∨ (Rect.block (s := S64x40960) S64x40960.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S64x40960.size a ≤ S64x40960.size a
  hwx3_8 : ∀ i : grid3.Coords, EltTy.bits .f32 = 32 ∨ (Rect.block (s := S64x40960) S64x40960.size (cc3_transform_8 i) (hinb3_8 i)).WholeWords (EltTy.packing .f32)

variable [Facts₀]

def dot_S64x1024_S1024x2048_S64x2048_1_0_0_1_n_n : DotDims S64x1024 S1024x2048 S64x2048 where
  lhsContracting := [1]
  rhsContracting := [0]
  lhsNonContracting := [0]
  rhsNonContracting := [1]
  lhsBatch := []
  rhsBatch := []
  wf := dot_S64x1024_S1024x2048_S64x2048_1_0_0_1_n_n_wf
def dot_S64x24_S24x1024_S64x1024_1_0_0_1_n_n : DotDims S64x24 S24x1024 S64x1024 where
  lhsContracting := [1]
  rhsContracting := [0]
  lhsNonContracting := [0]
  rhsNonContracting := [1]
  lhsBatch := []
  rhsBatch := []
  wf := dot_S64x24_S24x1024_S64x1024_1_0_0_1_n_n_wf
def dot_S64x2048_S1024x2048_S64x1024_1_1_0_0_n_n : DotDims S64x2048 S1024x2048 S64x1024 where
  lhsContracting := [1]
  rhsContracting := [1]
  lhsNonContracting := [0]
  rhsNonContracting := [0]
  lhsBatch := []
  rhsBatch := []
  wf := dot_S64x2048_S1024x2048_S64x1024_1_1_0_0_n_n_wf
def gather_S64x40000_S64x2_S64_n_01_n_n_01_1_11 : GatherDims S64x40000 S64x2 S64 where
  offsetDims := []
  collapsedSliceDims := [0, 1]
  operandBatchingDims := []
  startIndicesBatchingDims := []
  startIndexMap := [0, 1]
  indexVectorDim := 1
  sliceSizes := ![1, 1]
  wf := gather_S64x40000_S64x2_S64_n_01_n_n_01_1_11_wf

abbrev win0_0 : Pipeline.Window sig grid0 :=
  Pipeline.Window.ofSpec (Memref.whole main_arg0) S64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v0) S1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8) S64x24.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S64x24.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S64x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v5) S64x40960.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v11) S64x40960.size cc1_transform_8 reads1_8 true true 1 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v0) S1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v4) S1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v14) S64x24.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v15) S64x24.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v16) S64x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v11) S64x40960.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v17) S64x40960.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v0) S1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v1) S1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v2) S1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v4) S1024.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v20) S64x24.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v21) S64x24.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v22) S64x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v17) S64x40960.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v23) S64x40960.size cc3_transform_8 reads3_8 true true 1 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S64 : Shape := ⟨1, ![64]⟩
abbrev S64x3x48 : Shape := ⟨3, ![64, 3, 48]⟩
abbrev S300000 : Shape := ⟨1, ![300000]⟩
abbrev S1x300000 : Shape := ⟨2, ![1, 300000]⟩
abbrev S64x1 : Shape := ⟨2, ![64, 1]⟩
abbrev S64x300000 : Shape := ⟨2, ![64, 300000]⟩
abbrev S_ : Shape := ⟨0, ![]⟩
abbrev S1x40000 : Shape := ⟨2, ![1, 40000]⟩
abbrev S64x40000 : Shape := ⟨2, ![64, 40000]⟩
abbrev S64x1x48 : Shape := ⟨3, ![64, 1, 48]⟩
abbrev S64x48 : Shape := ⟨2, ![64, 48]⟩
abbrev S300000x1 : Shape := ⟨2, ![300000, 1]⟩
abbrev S300000x64 : Shape := ⟨2, ![300000, 64]⟩
abbrev S40000x64 : Shape := ⟨2, ![40000, 64]⟩
abbrev S64x2 : Shape := ⟨2, ![64, 2]⟩

abbrev nBuf : Space → Nat
  | .hbm => 271
  | .vmem => 0
  | .smem => 0
  | _ => 0

abbrev hbmTy0_0 (i : Nat) : BufTy := match i % 128 with
  | 0 => ⟨S64, .i32⟩
  | 1 => ⟨S64, .i32⟩
  | 2 => ⟨S64, .i32⟩
  | 3 => ⟨S64x3x48, .f32⟩
  | 4 => ⟨S300000, .i32⟩
  | 5 => ⟨S300000, .i32⟩
  | 6 => ⟨S300000, .i32⟩
  | 7 => ⟨S300000, .f32⟩
  | 8 => ⟨S1x300000, .i32⟩
  | 9 => ⟨S64x1, .i32⟩
  | 10 => ⟨S64x300000, .i32⟩
  | 11 => ⟨S64x300000, .i32⟩
  | 12 => ⟨S64x300000, .i1⟩
  | 13 => ⟨S1x300000, .i32⟩
  | 14 => ⟨S64x1, .i32⟩
  | 15 => ⟨S64x300000, .i32⟩
  | 16 => ⟨S64x300000, .i32⟩
  | 17 => ⟨S64x300000, .i1⟩
  | 18 => ⟨S64x300000, .i1⟩
  | 19 => ⟨S1x300000, .i32⟩
  | 20 => ⟨S64x1, .i32⟩
  | 21 => ⟨S64x300000, .i32⟩
  | 22 => ⟨S64x300000, .i32⟩
  | 23 => ⟨S64x300000, .i1⟩
  | 24 => ⟨S64x300000, .i1⟩
  | 25 => ⟨S_, .i1⟩
  | 26 => ⟨S300000, .i1⟩
  | 27 => ⟨S_, .f32⟩
  | 28 => ⟨S_, .f32⟩
  | 29 => ⟨S300000, .f32⟩
  | 30 => ⟨S300000, .f32⟩
  | 31 => ⟨S64x1, .i32⟩
  | 32 => ⟨S1x40000, .i32⟩
  | 33 => ⟨S64x40000, .i32⟩
  | 34 => ⟨S64x40000, .i32⟩
  | 35 => ⟨S64x40000, .i1⟩
  | 36 => ⟨S64x40000, .f32⟩
  | 37 => ⟨S64x1x48, .f32⟩
  | 38 => ⟨S64x48, .f32⟩
  | 39 => ⟨S_, .i32⟩
  | 40 => ⟨S300000, .i32⟩
  | 41 => ⟨S300000, .i1⟩
  | 42 => ⟨S_, .i32⟩
  | 43 => ⟨S300000, .i32⟩
  | 44 => ⟨S300000, .i32⟩
  | 45 => ⟨S300000, .i32⟩
  | 46 => ⟨S300000x1, .i32⟩
  | 47 => ⟨S64x300000, .f32⟩
  | 48 => ⟨S_, .i32⟩
  | 49 => ⟨S300000, .i32⟩
  | 50 => ⟨S300000, .i32⟩
  | 51 => ⟨S_, .i32⟩
  | 52 => ⟨S300000, .i32⟩
  | 53 => ⟨S300000, .i1⟩
  | 54 => ⟨S_, .i32⟩
  | 55 => ⟨S300000, .i32⟩
  | 56 => ⟨S300000, .i32⟩
  | 57 => ⟨S300000, .i32⟩
  | 58 => ⟨S300000x1, .i32⟩
  | 59 => ⟨S64x300000, .f32⟩
  | 60 => ⟨S_, .i32⟩
  | 61 => ⟨S300000, .i32⟩
  | 62 => ⟨S300000, .i1⟩
  | 63 => ⟨S_, .i32⟩
  | 64 => ⟨S300000, .i32⟩
  | 65 => ⟨S300000, .i32⟩
  | 66 => ⟨S300000, .i32⟩
  | 67 => ⟨S300000x1, .i32⟩
  | 68 => ⟨S64x300000, .f32⟩
  | 69 => ⟨S1x300000, .f32⟩
  | 70 => ⟨S64x300000, .f32⟩
  | 71 => ⟨S64x300000, .f32⟩
  | 72 => ⟨S_, .i32⟩
  | 73 => ⟨S300000, .i32⟩
  | 74 => ⟨S300000, .i1⟩
  | 75 => ⟨S_, .i32⟩
  | 76 => ⟨S300000, .i32⟩
  | 77 => ⟨S300000, .i32⟩
  | 78 => ⟨S300000, .i32⟩
  | 79 => ⟨S300000x1, .i32⟩
  | 80 => ⟨S64x300000, .f32⟩
  | 81 => ⟨S1x300000, .f32⟩
  | 82 => ⟨S64x300000, .f32⟩
  | 83 => ⟨S64x300000, .f32⟩
  | 84 => ⟨S64x300000, .f32⟩
  | 85 => ⟨S300000x64, .f32⟩
  | 86 => ⟨S_, .f32⟩
  | 87 => ⟨S40000x64, .f32⟩
  | 88 => ⟨S300000x1, .i32⟩
  | 89 => ⟨S40000x64, .f32⟩
  | 90 => ⟨S64x40000, .f32⟩
  | 91 => ⟨S64x300000, .f32⟩
  | 92 => ⟨S300000x64, .f32⟩
  | 93 => ⟨S_, .f32⟩
  | 94 => ⟨S40000x64, .f32⟩
  | 95 => ⟨S300000x1, .i32⟩
  | 96 => ⟨S40000x64, .f32⟩
  | 97 => ⟨S64x40000, .f32⟩
  | 98 => ⟨S64x40000, .f32⟩
  | 99 => ⟨S64x1, .f32⟩
  | 100 => ⟨S64x40000, .f32⟩
  | 101 => ⟨S64x40000, .f32⟩
  | 102 => ⟨S64x40000, .f32⟩
  | 103 => ⟨S64x1x48, .f32⟩
  | 104 => ⟨S64x48, .f32⟩
  | 105 => ⟨S_, .i32⟩
  | 106 => ⟨S300000, .i32⟩
  | 107 => ⟨S300000, .i1⟩
  | 108 => ⟨S_, .i32⟩
  | 109 => ⟨S300000, .i32⟩
  | 110 => ⟨S300000, .i32⟩
  | 111 => ⟨S300000, .i32⟩
  | 112 => ⟨S300000x1, .i32⟩
  | 113 => ⟨S64x300000, .f32⟩
  | 114 => ⟨S_, .i32⟩
  | 115 => ⟨S300000, .i32⟩
  | 116 => ⟨S300000, .i32⟩
  | 117 => ⟨S_, .i32⟩
  | 118 => ⟨S300000, .i32⟩
  | 119 => ⟨S300000, .i1⟩
  | 120 => ⟨S_, .i32⟩
  | 121 => ⟨S300000, .i32⟩
  | 122 => ⟨S300000, .i32⟩
  | 123 => ⟨S300000, .i32⟩
  | 124 => ⟨S300000x1, .i32⟩
  | 125 => ⟨S64x300000, .f32⟩
  | 126 => ⟨S_, .i32⟩
  | 127 => ⟨S300000, .i32⟩
  | _ => ⟨S64, .i32⟩

abbrev hbmTy0_1 (i : Nat) : BufTy := match i % 128 with
  | 0 => ⟨S300000, .i1⟩
  | 1 => ⟨S_, .i32⟩
  | 2 => ⟨S300000, .i32⟩
  | 3 => ⟨S300000, .i32⟩
  | 4 => ⟨S300000, .i32⟩
  | 5 => ⟨S300000x1, .i32⟩
  | 6 => ⟨S64x300000, .f32⟩
  | 7 => ⟨S1x300000, .f32⟩
  | 8 => ⟨S64x300000, .f32⟩
  | 9 => ⟨S64x300000, .f32⟩
  | 10 => ⟨S_, .i32⟩
  | 11 => ⟨S300000, .i32⟩
  | 12 => ⟨S300000, .i1⟩
  | 13 => ⟨S_, .i32⟩
  | 14 => ⟨S300000, .i32⟩
  | 15 => ⟨S300000, .i32⟩
  | 16 => ⟨S300000, .i32⟩
  | 17 => ⟨S300000x1, .i32⟩
  | 18 => ⟨S64x300000, .f32⟩
  | 19 => ⟨S1x300000, .f32⟩
  | 20 => ⟨S64x300000, .f32⟩
  | 21 => ⟨S64x300000, .f32⟩
  | 22 => ⟨S64x300000, .f32⟩
  | 23 => ⟨S300000x64, .f32⟩
  | 24 => ⟨S_, .f32⟩
  | 25 => ⟨S40000x64, .f32⟩
  | 26 => ⟨S300000x1, .i32⟩
  | 27 => ⟨S40000x64, .f32⟩
  | 28 => ⟨S64x40000, .f32⟩
  | 29 => ⟨S64x300000, .f32⟩
  | 30 => ⟨S300000x64, .f32⟩
  | 31 => ⟨S_, .f32⟩
  | 32 => ⟨S40000x64, .f32⟩
  | 33 => ⟨S300000x1, .i32⟩
  | 34 => ⟨S40000x64, .f32⟩
  | 35 => ⟨S64x40000, .f32⟩
  | 36 => ⟨S64x40000, .f32⟩
  | 37 => ⟨S64x1, .f32⟩
  | 38 => ⟨S64x40000, .f32⟩
  | 39 => ⟨S64x40000, .f32⟩
  | 40 => ⟨S64x40000, .f32⟩
  | 41 => ⟨S64x1x48, .f32⟩
  | 42 => ⟨S64x48, .f32⟩
  | 43 => ⟨S_, .i32⟩
  | 44 => ⟨S300000, .i32⟩
  | 45 => ⟨S300000, .i1⟩
  | 46 => ⟨S_, .i32⟩
  | 47 => ⟨S300000, .i32⟩
  | 48 => ⟨S300000, .i32⟩
  | 49 => ⟨S300000, .i32⟩
  | 50 => ⟨S300000x1, .i32⟩
  | 51 => ⟨S64x300000, .f32⟩
  | 52 => ⟨S_, .i32⟩
  | 53 => ⟨S300000, .i32⟩
  | 54 => ⟨S300000, .i32⟩
  | 55 => ⟨S_, .i32⟩
  | 56 => ⟨S300000, .i32⟩
  | 57 => ⟨S300000, .i1⟩
  | 58 => ⟨S_, .i32⟩
  | 59 => ⟨S300000, .i32⟩
  | 60 => ⟨S300000, .i32⟩
  | 61 => ⟨S300000, .i32⟩
  | 62 => ⟨S300000x1, .i32⟩
  | 63 => ⟨S64x300000, .f32⟩
  | 64 => ⟨S_, .i32⟩
  | 65 => ⟨S300000, .i32⟩
  | 66 => ⟨S300000, .i1⟩
  | 67 => ⟨S_, .i32⟩
  | 68 => ⟨S300000, .i32⟩
  | 69 => ⟨S300000, .i32⟩
  | 70 => ⟨S300000, .i32⟩
  | 71 => ⟨S300000x1, .i32⟩
  | 72 => ⟨S64x300000, .f32⟩
  | 73 => ⟨S1x300000, .f32⟩
  | 74 => ⟨S64x300000, .f32⟩
  | 75 => ⟨S64x300000, .f32⟩
  | 76 => ⟨S_, .i32⟩
  | 77 => ⟨S300000, .i32⟩
  | 78 => ⟨S300000, .i1⟩
  | 79 => ⟨S_, .i32⟩
  | 80 => ⟨S300000, .i32⟩
  | 81 => ⟨S300000, .i32⟩
  | 82 => ⟨S300000, .i32⟩
  | 83 => ⟨S300000x1, .i32⟩
  | 84 => ⟨S64x300000, .f32⟩
  | 85 => ⟨S1x300000, .f32⟩
  | 86 => ⟨S64x300000, .f32⟩
  | 87 => ⟨S64x300000, .f32⟩
  | 88 => ⟨S64x300000, .f32⟩
  | 89 => ⟨S300000x64, .f32⟩
  | 90 => ⟨S_, .f32⟩
  | 91 => ⟨S40000x64, .f32⟩
  | 92 => ⟨S300000x1, .i32⟩
  | 93 => ⟨S40000x64, .f32⟩
  | 94 => ⟨S64x40000, .f32⟩
  | 95 => ⟨S64x300000, .f32⟩
  | 96 => ⟨S300000x64, .f32⟩
  | 97 => ⟨S_, .f32⟩
  | 98 => ⟨S40000x64, .f32⟩
  | 99 => ⟨S300000x1, .i32⟩
  | 100 => ⟨S40000x64, .f32⟩
  | 101 => ⟨S64x40000, .f32⟩
  | 102 => ⟨S64x40000, .f32⟩
  | 103 => ⟨S64x1, .f32⟩
  | 104 => ⟨S64x40000, .f32⟩
  | 105 => ⟨S64x40000, .f32⟩
  | 106 => ⟨S64x40000, .f32⟩
  | 107 => ⟨S_, .f32⟩
  | 108 => ⟨S64, .f32⟩
  | 109 => ⟨S64x1, .f32⟩
  | 110 => ⟨S_, .f32⟩
  | 111 => ⟨S64x1, .f32⟩
  | 112 => ⟨S64x1, .f32⟩
  | 113 => ⟨S64x40000, .f32⟩
  | 114 => ⟨S64x40000, .f32⟩
  | 115 => ⟨S64, .i32⟩
  | 116 => ⟨S_, .i32⟩
  | 117 => ⟨S64, .i32⟩
  | 118 => ⟨S64, .i1⟩
  | 119 => ⟨S_, .i32⟩
  | 120 => ⟨S64, .i32⟩
  | 121 => ⟨S64, .i32⟩
  | 122 => ⟨S64, .i32⟩
  | 123 => ⟨S_, .i32⟩
  | 124 => ⟨S64, .i32⟩
  | 125 => ⟨S64, .i1⟩
  | 126 => ⟨S_, .i32⟩
  | 127 => ⟨S64, .i32⟩
  | _ => ⟨S64, .i32⟩

abbrev hbmTy0_2 (i : Nat) : BufTy := match i % 128 with
  | 0 => ⟨S64, .i32⟩
  | 1 => ⟨S64, .i32⟩
  | 2 => ⟨S64x1, .i32⟩
  | 3 => ⟨S64x1, .i32⟩
  | 4 => ⟨S64x2, .i32⟩
  | 5 => ⟨S64, .f32⟩
  | 6 => ⟨S_, .f32⟩
  | 7 => ⟨S64, .f32⟩
  | 8 => ⟨S64, .f32⟩
  | 9 => ⟨S64, .f32⟩
  | 10 => ⟨S_, .f32⟩
  | 11 => ⟨S_, .f32⟩
  | 12 => ⟨S_, .f32⟩
  | 13 => ⟨S_, .f32⟩
  | 14 => ⟨S_, .f32⟩
  | _ => ⟨S64, .i32⟩

abbrev hbmTy (i : Nat) : BufTy := match i / 128 with
  | 0 => hbmTy0_0 i
  | 1 => hbmTy0_1 i
  | 2 => hbmTy0_2 i
  | _ => ⟨S64, .i32⟩

abbrev bufTy : (tb : Table) → Fin (tcTables nBuf tb) → BufTy
  | .hbm, ⟨i, _⟩ => hbmTy i
  | _, _ => ⟨S64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_cst : Ref sig .tc := ⟨.hbm, 27, rfl⟩
abbrev main_call0_v0 : Ref sig .tc := ⟨.hbm, 28, rfl⟩
abbrev main_call0_v1 : Ref sig .tc := ⟨.hbm, 29, rfl⟩
abbrev main_v18 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_0 : Ref sig .tc := ⟨.hbm, 39, rfl⟩
abbrev main_v22 : Ref sig .tc := ⟨.hbm, 40, rfl⟩
abbrev main_v23 : Ref sig .tc := ⟨.hbm, 41, rfl⟩
abbrev main_c_1 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_2 : Ref sig .tc := ⟨.hbm, 48, rfl⟩
abbrev main_v29 : Ref sig .tc := ⟨.hbm, 49, rfl⟩
abbrev main_v30 : Ref sig .tc := ⟨.hbm, 50, rfl⟩
abbrev main_c_3 : Ref sig .tc := ⟨.hbm, 51, rfl⟩
abbrev main_v31 : Ref sig .tc := ⟨.hbm, 52, rfl⟩
abbrev main_v32 : Ref sig .tc := ⟨.hbm, 53, rfl⟩
abbrev main_c_4 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_5 : Ref sig .tc := ⟨.hbm, 60, rfl⟩
abbrev main_v38 : Ref sig .tc := ⟨.hbm, 61, rfl⟩
abbrev main_v39 : Ref sig .tc := ⟨.hbm, 62, rfl⟩
abbrev main_c_6 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_7 : Ref sig .tc := ⟨.hbm, 72, rfl⟩
abbrev main_v48 : Ref sig .tc := ⟨.hbm, 73, rfl⟩
abbrev main_v49 : Ref sig .tc := ⟨.hbm, 74, rfl⟩
abbrev main_c_8 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_9 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_10 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_c_11 : Ref sig .tc := ⟨.hbm, 105, rfl⟩
abbrev main_v77 : Ref sig .tc := ⟨.hbm, 106, rfl⟩
abbrev main_v78 : Ref sig .tc := ⟨.hbm, 107, rfl⟩
abbrev main_c_12 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_c_13 : Ref sig .tc := ⟨.hbm, 114, rfl⟩
abbrev main_v84 : Ref sig .tc := ⟨.hbm, 115, rfl⟩
abbrev main_v85 : Ref sig .tc := ⟨.hbm, 116, rfl⟩
abbrev main_c_14 : Ref sig .tc := ⟨.hbm, 117, rfl⟩
abbrev main_v86 : Ref sig .tc := ⟨.hbm, 118, rfl⟩
abbrev main_v87 : Ref sig .tc := ⟨.hbm, 119, rfl⟩
abbrev main_c_15 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_c_16 : Ref sig .tc := ⟨.hbm, 126, rfl⟩
abbrev main_v93 : Ref sig .tc := ⟨.hbm, 127, rfl⟩
abbrev main_v94 : Ref sig .tc := ⟨.hbm, 128, rfl⟩
abbrev main_c_17 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_c_18 : Ref sig .tc := ⟨.hbm, 138, rfl⟩
abbrev main_v103 : Ref sig .tc := ⟨.hbm, 139, rfl⟩
abbrev main_v104 : Ref sig .tc := ⟨.hbm, 140, rfl⟩
abbrev main_c_19 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_cst_20 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_cst_21 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_c_22 : Ref sig .tc := ⟨.hbm, 171, rfl⟩
abbrev main_v132 : Ref sig .tc := ⟨.hbm, 172, rfl⟩
abbrev main_v133 : Ref sig .tc := ⟨.hbm, 173, rfl⟩
abbrev main_c_23 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_c_24 : Ref sig .tc := ⟨.hbm, 180, rfl⟩
abbrev main_v139 : Ref sig .tc := ⟨.hbm, 181, rfl⟩
abbrev main_v140 : Ref sig .tc := ⟨.hbm, 182, rfl⟩
abbrev main_c_25 : Ref sig .tc := ⟨.hbm, 183, rfl⟩
abbrev main_v141 : Ref sig .tc := ⟨.hbm, 184, rfl⟩
abbrev main_v142 : Ref sig .tc := ⟨.hbm, 185, rfl⟩
abbrev main_c_26 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_c_27 : Ref sig .tc := ⟨.hbm, 192, rfl⟩
abbrev main_v148 : Ref sig .tc := ⟨.hbm, 193, rfl⟩
abbrev main_v149 : Ref sig .tc := ⟨.hbm, 194, rfl⟩
abbrev main_c_28 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_c_29 : Ref sig .tc := ⟨.hbm, 204, rfl⟩
abbrev main_v158 : Ref sig .tc := ⟨.hbm, 205, rfl⟩
abbrev main_v159 : Ref sig .tc := ⟨.hbm, 206, rfl⟩
abbrev main_c_30 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_cst_31 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_cst_32 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_cst_33 : Ref sig .tc := ⟨.hbm, 235, rfl⟩
abbrev main_v185 : Ref sig .tc := ⟨.hbm, 236, rfl⟩
abbrev main_v186 : Ref sig .tc := ⟨.hbm, 237, rfl⟩
abbrev main_cst_34 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_c_35 : Ref sig .tc := ⟨.hbm, 244, rfl⟩
abbrev main_v192 : Ref sig .tc := ⟨.hbm, 245, rfl⟩
abbrev main_v193 : Ref sig .tc := ⟨.hbm, 246, rfl⟩
abbrev main_c_36 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_c_37 : Ref sig .tc := ⟨.hbm, 251, rfl⟩
abbrev main_v197 : Ref sig .tc := ⟨.hbm, 252, rfl⟩
abbrev main_v198 : Ref sig .tc := ⟨.hbm, 253, rfl⟩
abbrev main_c_38 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_v204 : Ref sig .tc := ⟨.hbm, 260, rfl⟩
abbrev main_v205 : Ref sig .tc := ⟨.hbm, 261, rfl⟩
abbrev main_cst_39 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_cst_40 : Ref sig .tc := ⟨.hbm, 266, rfl⟩
abbrev main_v209 : Ref sig .tc := ⟨.hbm, 267, rfl⟩
abbrev main_cst_41 : Ref sig .tc := ⟨.hbm, 268, rfl⟩
abbrev main_v210 : Ref sig .tc := ⟨.hbm, 269, rfl⟩
abbrev main_v211 : Ref sig .tc := ⟨.hbm, 270, rfl⟩

abbrev nD : Nat := 1
abbrev τ : Topo := Topo.v7x

variable {F : FTy → Type} [FloatOps F]

class Facts₀ : Prop where
  bcast_S300000_S1x300000_1 : S300000.BroadcastsInDim S1x300000 (![1] : Fin 1 → Fin S1x300000.rank)
  bcast_S64_S64x1_0 : S64.BroadcastsInDim S64x1 (![0] : Fin 1 → Fin S64x1.rank)
  bcast_S1x300000_S64x300000_0_1 : S1x300000.BroadcastsInDim S64x300000 (![0, 1] : Fin 2 → Fin S64x300000.rank)
  bcast_S64x1_S64x300000_0_1 : S64x1.BroadcastsInDim S64x300000 (![0, 1] : Fin 2 → Fin S64x300000.rank)
  reducesTo_S64x300000_S300000_d0 : S64x300000.ReducesTo [0] S300000
  h_S_ : 0 < S_.numel
  bcast_S_S300000 : S_.BroadcastsInDim S300000 (![] : Fin 0 → Fin S300000.rank)
  bcast_S64x1_S64x40000_0_1 : S64x1.BroadcastsInDim S64x40000 (![0, 1] : Fin 2 → Fin S64x40000.rank)
  bcast_S1x40000_S64x40000_0_1 : S1x40000.BroadcastsInDim S64x40000 (![0, 1] : Fin 2 → Fin S64x40000.rank)
  slices_S64x3x48_S64x1x48_0_0_0 : S64x3x48.Slices ![0, 0, 0] S64x1x48
  shapeCasts_S64x1x48_S64x48 : S64x1x48.ShapeCasts S64x48
  bcast_S300000_S300000x1_0 : S300000.BroadcastsInDim S300000x1 (![0] : Fin 1 → Fin S300000x1.rank)
  transposes_S64x300000_S300000x64_1_0 : S64x300000.Transposes [1, 0] S300000x64
  bcast_S_S40000x64 : S_.BroadcastsInDim S40000x64 (![] : Fin 0 → Fin S40000x64.rank)
  transposes_S40000x64_S64x40000_1_0 : S40000x64.Transposes [1, 0] S64x40000
  slices_S64x48_S64x1_0_47 : S64x48.Slices ![0, 47] S64x1
  slices_S64x3x48_S64x1x48_0_1_0 : S64x3x48.Slices ![0, 1, 0] S64x1x48
  slices_S64x3x48_S64x1x48_0_2_0 : S64x3x48.Slices ![0, 2, 0] S64x1x48
  reducesTo_S64x40000_S64_d1 : S64x40000.ReducesTo [1] S64
  bcast_S_S64x1 : S_.BroadcastsInDim S64x1 (![] : Fin 0 → Fin S64x1.rank)
  bcast_S_S64 : S_.BroadcastsInDim S64 (![] : Fin 0 → Fin S64.rank)
  concatenates_S64x1_S64x1_S64x2_d1 : Shape.Concatenates [S64x1, S64x1] S64x2 1
  reducesTo_S64_S_d0 : S64.ReducesTo [0] S_
  gather_S64x48_S300000x1_S64x300000_0_1_n_n_1_1_641_wf : GatherDims.WF S64x48 S300000x1 S64x300000 [0] [1] [] [1] [] 1 ![64, 1]
  gather_S64x40000_S300000x1_S64x300000_0_1_n_n_1_1_641_wf : GatherDims.WF S64x40000 S300000x1 S64x300000 [0] [1] [] [1] [] 1 ![64, 1]
  scatter_S40000x64_S300000x1_S300000x64_1_0_0_1_wf : ScatterDims.WF S40000x64 S300000x1 S300000x64 [1] [0] [0] 1
  gather_S64x40000_S64x2_S64_n_01_n_n_01_1_11_wf : GatherDims.WF S64x40000 S64x2 S64 [] [0, 1] [] [0, 1] [] 1 ![1, 1]

variable [Facts₀]

def gather_S64x48_S300000x1_S64x300000_0_1_n_n_1_1_641 : GatherDims S64x48 S300000x1 S64x300000 where
  offsetDims := [0]
  collapsedSliceDims := [1]
  operandBatchingDims := []
  startIndicesBatchingDims := []
  startIndexMap := [1]
  indexVectorDim := 1
  sliceSizes := ![64, 1]
  wf := gather_S64x48_S300000x1_S64x300000_0_1_n_n_1_1_641_wf
def gather_S64x40000_S300000x1_S64x300000_0_1_n_n_1_1_641 : GatherDims S64x40000 S300000x1 S64x300000 where
  offsetDims := [0]
  collapsedSliceDims := [1]
  operandBatchingDims := []
  startIndicesBatchingDims := []
  startIndexMap := [1]
  indexVectorDim := 1
  sliceSizes := ![64, 1]
  wf := gather_S64x40000_S300000x1_S64x300000_0_1_n_n_1_1_641_wf
def scatter_S40000x64_S300000x1_S300000x64_1_0_0_1 : ScatterDims S40000x64 S300000x1 S300000x64 where
  updateWindowDims := [1]
  insertedWindowDims := [0]
  scatterDimsToOperandDims := [0]
  indexVectorDim := 1
  wf := scatter_S40000x64_S300000x1_S300000x64_1_0_0_1_wf
def gather_S64x40000_S64x2_S64_n_01_n_n_01_1_11 : GatherDims S64x40000 S64x2 S64 where
  offsetDims := []
  collapsedSliceDims := [0, 1]
  operandBatchingDims := []
  startIndicesBatchingDims := []
  startIndexMap := [0, 1]
  indexVectorDim := 1
  sliceSizes := ![1, 1]
  wf := gather_S64x40000_S64x2_S64_n_01_n_n_01_1_11_wf

class Facts : Prop extends Facts₀ where

variable [Facts]
-- ==== Proof.Spec.lean ====
/-
  The mathematics both programs compute, over index functions on the extended reals, in two spellings. Tiled (suffix K): the
  edge list padded to 293 tiles of 1024 edges and the entity axis to 40960 columns, every read an indicator sum, the tiles
  accumulated one after the other. Direct (suffix R): the memory and the attention read at the edge's own indices, the
  messages summed over the edges whose destination is the column. The two agree on the first 40000 columns once every
  edge's head and tail are entity ids and its relation is below 24.
-/
import Idealize.ShloMosaic.PureOps.Ideal
import Idealize.ShloMosaic.Lib.ValueIdx

noncomputable section

namespace Cert.MsgSpec

open Idealize.ShloMosaic Idealize.ShloMosaic.ValueIdx
open scoped BigOperators

abbrev T64 : Shape := ⟨1, ![64]⟩
abbrev T1024 : Shape := ⟨1, ![1024]⟩
abbrev TE : Shape := ⟨1, ![300000]⟩
abbrev TEp : Shape := ⟨1, ![300032]⟩
abbrev TA : Shape := ⟨2, ![64, 24]⟩
abbrev TS : Shape := ⟨2, ![64, 1]⟩
abbrev TAttn : Shape := ⟨2, ![64, 48]⟩
abbrev TAttn3 : Shape := ⟨3, ![64, 3, 48]⟩
abbrev TM : Shape := ⟨2, ![64, 40000]⟩
abbrev TMp : Shape := ⟨2, ![64, 40960]⟩

-- The indicator of a proposition.
def ind (p : Prop) [Decidable p] : EReal := if p then 1 else 0

theorem ind_true {p : Prop} [Decidable p] (h : p) : ind p = 1 := if_pos h
theorem ind_false {p : Prop} [Decidable p] (h : ¬p) : ind p = 0 := if_neg h

-- An edge array padded from 300000 to 300032 entries.
def padE {α : Type} (a : TE.Idx → α) (fill : α) : TEp.Idx → α :=
  fun e => if h : (e 0).val < 300000 then a (ix1 ⟨(e 0).val, h⟩) else fill

-- Tile t of a padded edge array.
def blkE {α : Type} (a : TEp.Idx → α) (t : Fin 293) : T1024.Idx → α :=
  fun y => a (ix1 ⟨t.val * 1024 + (y 0).val, by have := (y 0).isLt; have := t.isLt; simp only [Matrix.cons_val_zero] at *; omega⟩)

-- Step s of the attention array.
def attnStep (attention : TAttn3.Idx → EReal) (s : Fin 3) : TAttn.Idx → EReal :=
  fun i => attention (ix3 (i 0) s (i 1))

-- Columns 0..23: the forward relations.
def sliceFwd (attn : TAttn.Idx → EReal) : TA.Idx → EReal :=
  fun i => attn (ix2 (i 0) ⟨(i 1).val, by have := (i 1).isLt; simp only [Matrix.cons_val_one, Matrix.cons_val_zero] at *; omega⟩)

-- Columns 24..47: the inverse relations.
def sliceRev (attn : TAttn.Idx → EReal) : TA.Idx → EReal :=
  fun i => attn (ix2 (i 0) ⟨24 + (i 1).val, by have := (i 1).isLt; simp only [Matrix.cons_val_one, Matrix.cons_val_zero] at *; omega⟩)

-- Column 47: the self loop's weight.
def sliceSelf (attn : TAttn.Idx → EReal) : TS.Idx → EReal :=
  fun i => attn (ix2 (i 0) ⟨47, by decide⟩)

-- The first 40000 columns of a padded memory.
def cutM (mem : TMp.Idx → EReal) : TM.Idx → EReal :=
  fun i => mem (ix2 (i 0) ⟨(i 1).val, by have := (i 1).isLt; simp only [Matrix.cons_val_one, Matrix.cons_val_zero] at *; omega⟩)

-- The confidences with the query triples' own edges zeroed.
def killK (qh qt qr : T64.Idx → BitVec 32) (eh et er : TEp.Idx → BitVec 32) (ev : TEp.Idx → EReal) : TEp.Idx → EReal :=
  fun e => if ∃ b : Fin 64, eh e = qh (ix1 b) ∧ et e = qt (ix1 b) ∧ er e = qr (ix1 b) then 0 else ev e

-- The start memory: row b is the indicator of column q_head[b].
def onehotK (qh : T64.Idx → BitVec 32) : TMp.Idx → EReal :=
  fun i => ind (qh (ix1 (i 0)) = BitVec.ofNat 32 (i 1).val)

-- Row b of the memory read at an entity word: an indicator sum over the columns.
def gath (mem : TMp.Idx → EReal) (b : Fin 64) (id : BitVec 32) : EReal :=
  ∑ n : Fin 40960, mem (ix2 b n) * ind (BitVec.ofNat 32 n.val = id)

-- Row b of the attention read at a relation word.
def att (a : TA.Idx → EReal) (b : Fin 64) (r : BitVec 32) : EReal :=
  ∑ ρ : Fin 24, a (ix2 b ρ) * ind (BitVec.ofNat 32 ρ.val = r)

-- Forward message: memory at the head, times confidence, times forward attention.
def msgF (x0 x2 : T1024.Idx → BitVec 32) (x3 : T1024.Idx → EReal) (x4 : TA.Idx → EReal) (x7 : TMp.Idx → EReal)
    (b : Fin 64) (e : Fin 1024) : EReal :=
  gath x7 b (x0 (ix1 e)) * x3 (ix1 e) * att x4 b (x2 (ix1 e))

-- Reverse message: memory at the tail, times confidence, times inverse attention.
def msgR (x1 x2 : T1024.Idx → BitVec 32) (x3 : T1024.Idx → EReal) (x5 : TA.Idx → EReal) (x7 : TMp.Idx → EReal)
    (b : Fin 64) (e : Fin 1024) : EReal :=
  gath x7 b (x1 (ix1 e)) * x3 (ix1 e) * att x5 b (x2 (ix1 e))

-- One tile's contribution: reverse messages land on the heads, forward messages on the tails.
def tileContrib (x0 x1 x2 : T1024.Idx → BitVec 32) (x3 : T1024.Idx → EReal) (x4 x5 : TA.Idx → EReal)
    (x7 : TMp.Idx → EReal) : TMp.Idx → EReal :=
  fun i =>
    (∑ e : Fin 1024, msgR x1 x2 x3 x5 x7 (i 0) e * ind (BitVec.ofNat 32 (i 1).val = x0 (ix1 e)))
    + (∑ e : Fin 1024, msgF x0 x2 x3 x4 x7 (i 0) e * ind (BitVec.ofNat 32 (i 1).val = x1 (ix1 e)))

-- The accumulator after the first n tiles.
def stepAcc (eh et er : TEp.Idx → BitVec 32) (vals : TEp.Idx → EReal) (afwd arev : TA.Idx → EReal)
    (mem : TMp.Idx → EReal) : ℕ → TMp.Idx → EReal
  | 0 => fun _ => 0
  | n + 1 => fun i => stepAcc eh et er vals afwd arev mem n i
      + (if h : n < 293 then tileContrib (blkE eh ⟨n, h⟩) (blkE et ⟨n, h⟩) (blkE er ⟨n, h⟩) (blkE vals ⟨n, h⟩) afwd arev mem i else 0)

-- One step, tiled: all 293 tiles, then the self loop.
def stepK (eh et er : TEp.Idx → BitVec 32) (vals : TEp.Idx → EReal) (afwd arev : TA.Idx → EReal) (aself : TS.Idx → EReal)
    (mem : TMp.Idx → EReal) : TMp.Idx → EReal :=
  fun i => stepAcc eh et er vals afwd arev mem 293 i + mem i * aself (ix2 (i 0) 0)

-- The tiled memory after three steps.
def memK3 (qh qr tt : T64.Idx → BitVec 32) (attention : TAttn3.Idx → EReal) (eh et er : TE.Idx → BitVec 32)
    (ev : TE.Idx → EReal) : TMp.Idx → EReal :=
  let ehp := padE eh (-1#32)
  let etp := padE et (-1#32)
  let erp := padE er 0#32
  let evp := padE ev (0 : EReal)
  let vals := killK qh tt qr ehp etp erp evp
  let st (s : Fin 3) (mem : TMp.Idx → EReal) : TMp.Idx → EReal :=
    stepK ehp etp erp vals (sliceFwd (attnStep attention s)) (sliceRev (attnStep attention s)) (sliceSelf (attnStep attention s)) mem
  st 2 (st 1 (st 0 (onehotK qh)))

def killR (qh qr tt : T64.Idx → BitVec 32) (eh et er : TE.Idx → BitVec 32) (ev : TE.Idx → EReal) : TE.Idx → EReal :=
  fun e => if ∃ b : Fin 64, (eh e = qh (ix1 b) ∧ et e = tt (ix1 b)) ∧ er e = qr (ix1 b) then 0 else ev e

def onehotR (qh : T64.Idx → BitVec 32) : TM.Idx → EReal :=
  fun i => ind (qh (ix1 (i 0)) = BitVec.ofNat 32 (i 1).val)

-- Row b of the memory at an entity word (0 outside the 40000 entities).
def memAt (mem : TM.Idx → EReal) (b : Fin 64) (id : BitVec 32) : EReal :=
  if h : id.toNat < 40000 then mem (ix2 b ⟨id.toNat, h⟩) else 0

-- Row b of the attention at a relation number.
def attAt (attn : TAttn.Idx → EReal) (b : Fin 64) (r : ℕ) : EReal :=
  if h : r < 48 then attn (ix2 b ⟨r, h⟩) else 0

-- One step, direct.
def stepR (attn : TAttn.Idx → EReal) (eh et er : TE.Idx → BitVec 32) (vals : TE.Idx → EReal) (mem : TM.Idx → EReal) :
    TM.Idx → EReal :=
  fun i =>
    ((∑ e : Fin 300000, ind (et (ix1 e) = BitVec.ofNat 32 (i 1).val)
        * (memAt mem (i 0) (eh (ix1 e)) * vals (ix1 e) * attAt attn (i 0) (er (ix1 e)).toNat))
     + (∑ e : Fin 300000, ind (eh (ix1 e) = BitVec.ofNat 32 (i 1).val)
        * (memAt mem (i 0) (et (ix1 e)) * vals (ix1 e) * attAt attn (i 0) ((er (ix1 e)).toNat + 24))))
    + mem i * attn (ix2 (i 0) ⟨47, by decide⟩)

-- The direct memory after three steps.
def memR3 (qh qr tt : T64.Idx → BitVec 32) (attention : TAttn3.Idx → EReal) (eh et er : TE.Idx → BitVec 32)
    (ev : TE.Idx → EReal) : TM.Idx → EReal :=
  let vals := killR qh qr tt eh et er ev
  let st (s : Fin 3) (mem : TM.Idx → EReal) : TM.Idx → EReal := stepR (attnStep attention s) eh et er vals mem
  st 2 (st 1 (st 0 (onehotR qh)))

-- Every edge's head and tail name an entity and its relation is a forward relation.
def InRange (eh et er : TE.Idx → BitVec 32) : Prop :=
  ∀ e : Fin 300000, (eh (ix1 e)).toNat < 40000 ∧ (et (ix1 e)).toNat < 40000 ∧ (er (ix1 e)).toNat < 24

end Cert.MsgSpec

end
-- ==== Proof.TailValue.lean ====
/-
  The closing operations: the memory cut to its first 40000 columns; each row divided by the larger of its sum and a small
  threshold (the second result); the mean over the rows of the negated logarithm of the entry at the row's target, clamped
  below by the threshold (the first result). The buffers after the last host stretch hold these functions of the third
  step's output array and the target argument.
-/
import proofs.«408331_j31499290149149_3_alg».proof.Proof.FrameKI
import proofs.«408331_j31499290149149_3_alg».proof.Proof.Spec
import Idealize.ShloMosaic.Lib.StableHlo.Run
import Idealize.ShloMosaic.Lib.Pipeline.Value
import Idealize.ShloMosaic.Lib.Pipeline.FrameSuffix
import Idealize.ShloMosaic.Lib.ValueIdx
import Idealize.ShloMosaic.PureOps.Ideal

set_option maxRecDepth 16384

noncomputable section

namespace Cert.KernelIdeal.Tail

open Cert.KernelIdeal Cert.KernelIdeal.Gen Cert.KernelIdeal.GenP
open Idealize.ShloMosaic Idealize.ShloMosaic.TcCoe Idealize.ShloMosaic.ValueIdx
open Idealize.SL.Sem

variable {F : FTy → Type} [FloatOps F]

def sliceM (x : FVec F S64x40960 .f32) : FVec F S64x40000 .f32 :=
  extractStridedSlice S64x40000 ![0, 0] x slices_S64x40960_S64x40000_0_0

def tailMem (y : FVec F S64x40000 .f32) : FVec F S64x40000 .f32 :=
  Host.divf y
    (broadcastInDim S64x40000 ![0, 1] bcast_S64x1_S64x40000_0_1
      (maximumf
        (broadcastInDim S64x1 ![] bcast_S_S64x1 (constant (F := F) S_ .f32 0x1E3CE508#32))
        (broadcastInDim S64x1 ![0] bcast_S64_S64x1_0
          (Host.reduceAdd y (constant (F := F) S_ .f32 0x00000000#32) reducesTo_S64x40000_S64_d1 h_S_))))

def tailRowIx : IVec S64 32 :=
  select (cmpi .slt (iotaInDim S64 32 0) (broadcastInDim S64 ![] bcast_S_S64 (constantI S_ 32 0#32)))
    (addi (iotaInDim S64 32 0) (broadcastInDim S64 ![] bcast_S_S64 (constantI S_ 32 64#32)))
    (iotaInDim S64 32 0)

def tailColIx (t : IVec S64 32) : IVec S64 32 :=
  select (cmpi .slt t (broadcastInDim S64 ![] bcast_S_S64 (constantI S_ 32 0#32)))
    (addi t (broadcastInDim S64 ![] bcast_S_S64 (constantI S_ 32 40000#32)))
    t

def tailLoss (y : FVec F S64x40000 .f32) (t : IVec S64 32) : FVec F S_ .f32 :=
  Host.negf
    (Host.divf
      (Host.reduceAdd
        (Host.log
          (maximumf
            (broadcastInDim S64 ![] bcast_S_S64 (constant (F := F) S_ .f32 0x1E3CE508#32))
            (Host.gather gather_S64x40000_S64x2_S64_n_01_n_n_01_1_11 (tailMem y)
              (concatenate S64x2 1
                [⟨S64x1, broadcastInDim S64x1 ![0] bcast_S64_S64x1_0 tailRowIx⟩,
                 ⟨S64x1, broadcastInDim S64x1 ![0] bcast_S64_S64x1_0 (tailColIx t)⟩]
                concatenates_S64x1_S64x1_S64x2_d1))))
        (constant (F := F) S_ .f32 0x00000000#32) reducesTo_S64_S_d0 h_S_)
      (constant (F := F) S_ .f32 0x42800000#32))

theorem after4_v30 (V : Valuation τ sig (Elt F)) :
    StableHlo.after hostOps4 V (Proc.devRef .tc main_v30) = tailMem (sliceM (V (Proc.devRef .tc main_v23))) := by
  simp only [hostOps4]
  after_results_simp
  rfl

theorem after4_v51 (V : Valuation τ sig (Elt F)) :
    StableHlo.after hostOps4 V (Proc.devRef .tc main_v51)
      = tailLoss (sliceM (V (Proc.devRef .tc main_v23))) (V (Proc.devRef .tc main_arg2)) := by
  simp only [hostOps4]
  after_results_simp
  rfl

theorem after4_arg2 (V : Valuation τ sig (Elt F)) :
    StableHlo.after hostOps4 V (Proc.devRef .tc main_arg2) = V (Proc.devRef .tc main_arg2) := by
  simp only [hostOps4]
  after_results_simp

variable (m : (ℓ : Loc nD τ sig) → Buf (Elt F) ℓ) (ρ : Dev nD → PrngReg)

theorem W17_v30 (c : Dev nD) :
    W17 m ρ c (Proc.devRef .tc main_v30) = tailMem (sliceM (W16 m ρ c (Proc.devRef .tc main_v23))) :=
  after4_v30 (W16 m ρ c)

theorem W17_v51 (c : Dev nD) :
    W17 m ρ c (Proc.devRef .tc main_v51)
      = tailLoss (sliceM (W16 m ρ c (Proc.devRef .tc main_v23))) (W16 m ρ c (Proc.devRef .tc main_arg2)) :=
  after4_v51 (W16 m ρ c)

theorem W16_arg2 (c : Dev nD) : W16 m ρ c (Proc.devRef .tc main_arg2) = m ((c : Thread nD τ).loc main_arg2) :=
  (after4_arg2 (W16 m ρ c)).symm.trans (W17_main_arg2 m ρ c)

theorem W16_v23 (c : Dev nD) : W16 m ρ c (Proc.devRef .tc main_v23) = (dat3 (V15 m ρ) c).arrAt 8 cfg3.N := by
  show W16 m ρ c (Proc.devRef .tc (Pipeline.arrRef spec3 8)) = _
  exact W16_arr m ρ c 8

theorem sliceM_apply (x : FVec Ideal S64x40960 .f32) : sliceM x = Cert.MsgSpec.cutM x := by
  funext j
  unfold sliceM Cert.MsgSpec.cutM
  refine extractStridedSlice_apply _ x _ j _ (fun a => ?_)
  match a with
  | ⟨0, _⟩ => exact (Nat.zero_add _).symm
  | ⟨1, _⟩ => exact (Nat.zero_add _).symm

end Cert.KernelIdeal.Tail

end
-- ==== Proof.Entry01.lean ====
/-
  What the first two kernels find in their input arrays: the query arrays as launched; the edge arrays padded to 300032
  entries (fill -1 for heads and tails, 0 for relations and confidences); the first kernel's zeroed confidences; the start
  memory, whose row b is the indicator of column q_head[b]; and step 0's three slices of the attention.
-/
import proofs.«408331_j31499290149149_3_alg».proof.Proof.FrameKI
import proofs.«408331_j31499290149149_3_alg».proof.Proof.Spec
import Idealize.ShloMosaic.Lib.StableHlo.Run
import Idealize.ShloMosaic.PureOps.Ideal
import Idealize.ShloMosaic.Lib.ValueIdx
import Idealize.ShloMosaic.Lib.Pipeline.Value
import Idealize.ShloMosaic.Lib.KernelVsHost
import Idealize.ShloMosaic.Lib.IdealHost

set_option maxRecDepth 16384
noncomputable section

namespace Cert.KernelIdeal.Entry01
open Idealize.ShloMosaic Idealize.ShloMosaic.ValueIdx Cert.MsgSpec

theorem pad_eq_padE {α : Type} (x : TE.Idx → α) (v : (⟨0, ![]⟩ : Shape).Idx → α)
    (h : TE.Pads (![0] : Fin 1 → Nat) ![32] ![0] TEp) (hu : 0 < (⟨0, ![]⟩ : Shape).numel) :
    pad TEp ![0] ![32] ![0] x v h hu = padE x (v ix0) := by
  funext e
  unfold padE
  by_cases he : (e 0).val < 300000
  · rw [dif_pos he]
    refine pad_apply_of_inside _ _ _ x v h hu e _ fun a => ?_
    match a with
    | ⟨0, _⟩ => show (e 0).val = 0 + (e 0).val * (0 + 1); omega
  · rw [dif_neg he]
    refine (pad_apply_of_not_inside _ _ _ x v h hu e 0 fun hc => he ?_).trans (congrArg v (eq_ix0 _))
    have h3 : ((e 0).val - 0) / (0 + 1) < 300000 := hc.2.2
    omega

theorem uitofp_cmpi_eq (a b : BitVec 32) :
    (FloatOps.uitofp (F := Ideal) .f32 (IntOp.cmpi .eq a b) : EReal) = ind (a = b) := by
  show (((IntOp.cmpi .eq a b).toNat : ℝ) : EReal) = _
  by_cases h : a = b
  · subst h; rw [ind_true rfl]; simp [IntOp.cmpi]
  · rw [ind_false h]; simp [IntOp.cmpi, h]

theorem onehot_eq (qh : T64.Idx → BitVec 32)
    (h1 : T64.BroadcastsInDim TS (![0] : Fin 1 → Fin TS.rank))
    (h2 : TS.BroadcastsInDim TMp (![0, 1] : Fin 2 → Fin TMp.rank))
    (h3 : (⟨2, ![1, 40960]⟩ : Shape).BroadcastsInDim TMp (![0, 1] : Fin 2 → Fin TMp.rank)) :
    (uitofp .f32 (cmpi .eq (broadcastInDim TMp ![0, 1] h2 (broadcastInDim TS ![0] h1 qh))
        (broadcastInDim TMp ![0, 1] h3 (iotaInDim ⟨2, ![1, 40960]⟩ 32 1))) : FVec Ideal TMp .f32) = onehotK qh := by
  funext i
  show FloatOps.uitofp (F := Ideal) .f32 (IntOp.cmpi .eq
      (broadcastInDim TMp ![0, 1] h2 (broadcastInDim TS ![0] h1 qh) i)
      (broadcastInDim TMp ![0, 1] h3 (iotaInDim ⟨2, ![1, 40960]⟩ 32 1) i)) = _
  have eA : broadcastInDim TMp ![0, 1] h2 (broadcastInDim TS ![0] h1 qh) i = qh (ix1 (i 0)) := by
    refine (broadcastInDim_apply _ h2 _ i (ix2 (i 0) 0) fun a => ?_).trans ?_
    · match a with
      | ⟨0, _⟩ => rfl
      | ⟨1, _⟩ => rfl
    · refine broadcastInDim_apply _ h1 qh (ix2 (i 0) 0) (ix1 (i 0)) fun a => ?_
      match a with
      | ⟨0, _⟩ => rfl
  have eB : broadcastInDim TMp ![0, 1] h3 (iotaInDim ⟨2, ![1, 40960]⟩ 32 1) i = BitVec.ofNat 32 (i 1).val := by
    refine (broadcastInDim_apply _ h3 _ i (ix2 0 (i 1)) fun a => ?_).trans ?_
    · match a with
      | ⟨0, _⟩ => rfl
      | ⟨1, _⟩ => rfl
    · rfl
  rw [eA, eB, uitofp_cmpi_eq]
  rfl

theorem attn_slice_eq (attention : TAttn3.Idx → EReal) (s : Fin 3)
    (hs : TAttn3.Slices ![0, s.val, 0] ⟨3, ![64, 1, 48]⟩) (hc : (⟨3, ![64, 1, 48]⟩ : Shape).ShapeCasts TAttn) :
    shapeCast TAttn (extractStridedSlice ⟨3, ![64, 1, 48]⟩ ![0, s.val, 0] attention hs) hc = attnStep attention s := by
  funext i
  unfold attnStep
  refine (shapeCast_apply _ hc i (ix3 (i 0) 0 (i 1)) ?_).trans ?_
  · rw [Shape.rowMajor_val_three, Shape.rowMajor_val_two]
    show ((i 0).val * 1 + 0) * 48 + (i 1).val = (i 0).val * 48 + (i 1).val
    omega
  · refine extractStridedSlice_apply _ attention hs _ _ fun a => ?_
    match a with
    | ⟨0, _⟩ => show (i 0).val = 0 + (i 0).val; omega
    | ⟨1, _⟩ => show s.val = s.val + 0; omega
    | ⟨2, _⟩ => show (i 1).val = 0 + (i 1).val; omega

theorem sliceFwd_eq (attn : TAttn.Idx → EReal) (hs : TAttn.Slices ![0, 0] TA) :
    extractStridedSlice TA ![0, 0] attn hs = sliceFwd attn := by
  funext i
  unfold sliceFwd
  refine extractStridedSlice_apply _ attn hs _ _ fun a => ?_
  match a with
  | ⟨0, _⟩ => show (i 0).val = 0 + (i 0).val; omega
  | ⟨1, _⟩ => show (i 1).val = 0 + (i 1).val; omega

theorem sliceRev_eq (attn : TAttn.Idx → EReal) (hs : TAttn.Slices ![0, 24] TA) :
    extractStridedSlice TA ![0, 24] attn hs = sliceRev attn := by
  funext i
  unfold sliceRev
  refine extractStridedSlice_apply _ attn hs _ _ fun a => ?_
  match a with
  | ⟨0, _⟩ => show (i 0).val = 0 + (i 0).val; omega
  | ⟨1, _⟩ => rfl

theorem sliceSelf_eq (attn : TAttn.Idx → EReal) (hs : TAttn.Slices ![0, 47] TS) :
    extractStridedSlice TS ![0, 47] attn hs = sliceSelf attn := by
  funext i
  unfold sliceSelf
  refine extractStridedSlice_apply _ attn hs _ _ fun a => ?_
  match a with
  | ⟨0, _⟩ => show (i 0).val = 0 + (i 0).val; omega
  | ⟨1, _⟩ => show 47 = 47 + (i 1).val; have := (i 1).isLt; simp only [Matrix.cons_val_one, Matrix.cons_val_zero] at this; omega

open Cert.KernelIdeal Cert.KernelIdeal.Gen Cert.KernelIdeal.GenP Idealize.ShloMosaic.TcCoe Idealize.SL.Sem

local macro "host_skip" : tactic => `(tactic|
  exact StableHlo.after_of_forall_not_mem _ _ (List.forall_iff_forall_mem.mp (by
    simp only [hostOps0, hostOps0_1, hostOps0_2, hostOps0_3, hostOps0_4, hostOps0_5, hostOps0_6, hostOps0_7, hostOps1, hostOps1_1,
      List.Forall, StableHlo.nullary_writes, StableHlo.unary_writes, StableHlo.binary_writes, StableHlo.reshape_writes,
      Finset.mem_singleton]
    repeat' apply And.intro
    all_goals exact StableHlo.devRef_ne_of_ne (by decide))))

local macro "host_walk" n:num : tactic => `(tactic| iterate $n (refine Eq.trans (by host_skip) ?_))

section Stretches
variable (X : Valuation τ sig (Elt Ideal))

theorem const_c : StableHlo.after hostOps0 X (Proc.devRef .tc main_c) = constantI S_ 32 4294967295#32 := by
  after_results

theorem const_c_0 : StableHlo.after hostOps0_2 X (Proc.devRef .tc main_c_0) = constantI S_ 32 4294967295#32 := by
  after_results

theorem const_c_1 : StableHlo.after hostOps0_4 X (Proc.devRef .tc main_c_1) = constantI S_ 32 0#32 := by
  after_results

theorem const_cst : StableHlo.after hostOps0_6 X (Proc.devRef .tc main_cst) = constant (F := Ideal) S_ .f32 0x00000000#32 := by
  after_results

theorem pad_v0 : StableHlo.after hostOps0_1 X (Proc.devRef .tc main_v0)
    = padE (α := BitVec 32) (X (Proc.devRef .tc main_arg4)) (X (Proc.devRef .tc main_c) ix0) := by
  refine Eq.trans ?_ (pad_eq_padE (α := BitVec 32) (X (Proc.devRef .tc main_arg4)) (X (Proc.devRef .tc main_c)) pads_S300000_S300032_0320 h_S_)
  after_results
  rfl

theorem pad_v1 : StableHlo.after hostOps0_3 X (Proc.devRef .tc main_v1)
    = padE (α := BitVec 32) (X (Proc.devRef .tc main_arg5)) (X (Proc.devRef .tc main_c_0) ix0) := by
  refine Eq.trans ?_ (pad_eq_padE (α := BitVec 32) (X (Proc.devRef .tc main_arg5)) (X (Proc.devRef .tc main_c_0)) pads_S300000_S300032_0320 h_S_)
  after_results
  rfl

theorem pad_v2 : StableHlo.after hostOps0_5 X (Proc.devRef .tc main_v2)
    = padE (α := BitVec 32) (X (Proc.devRef .tc main_arg6)) (X (Proc.devRef .tc main_c_1) ix0) := by
  refine Eq.trans ?_ (pad_eq_padE (α := BitVec 32) (X (Proc.devRef .tc main_arg6)) (X (Proc.devRef .tc main_c_1)) pads_S300000_S300032_0320 h_S_)
  after_results
  rfl

theorem pad_v3 : StableHlo.after hostOps0_7 X (Proc.devRef .tc main_v3)
    = padE (α := EReal) (X (Proc.devRef .tc main_arg7)) (X (Proc.devRef .tc main_cst) ix0) := by
  refine Eq.trans ?_ (pad_eq_padE (α := EReal) (X (Proc.devRef .tc main_arg7)) (X (Proc.devRef .tc main_cst)) pads_S300000_S300032_0320 h_S_)
  after_results
  rfl

theorem onehot_v5 : StableHlo.after hostOps1 X (Proc.devRef .tc main_v5) = onehotK (X (Proc.devRef .tc main_arg0)) := by
  refine Eq.trans ?_ (onehot_eq (X (Proc.devRef .tc main_arg0)) bcast_S64_S64x1_0 bcast_S64x1_S64x40960_0_1 bcast_S1x40960_S64x40960_0_1)
  after_results
  rfl

theorem fwd_v8 : StableHlo.after hostOps1_1 X (Proc.devRef .tc main_v8) = sliceFwd (attnStep (X (Proc.devRef .tc main_arg3)) 0) := by
  refine Eq.trans ?_ ((sliceFwd_eq _ slices_S64x48_S64x24_0_0).trans
    (congrArg sliceFwd (attn_slice_eq (X (Proc.devRef .tc main_arg3)) 0 slices_S64x3x48_S64x1x48_0_0_0 shapeCasts_S64x1x48_S64x48)))
  after_results
  rfl

theorem rev_v9 : StableHlo.after hostOps1_1 X (Proc.devRef .tc main_v9) = sliceRev (attnStep (X (Proc.devRef .tc main_arg3)) 0) := by
  refine Eq.trans ?_ ((sliceRev_eq _ slices_S64x48_S64x24_0_24).trans
    (congrArg sliceRev (attn_slice_eq (X (Proc.devRef .tc main_arg3)) 0 slices_S64x3x48_S64x1x48_0_0_0 shapeCasts_S64x1x48_S64x48)))
  after_results
  rfl

theorem self_v10 : StableHlo.after hostOps1_1 X (Proc.devRef .tc main_v10) = sliceSelf (attnStep (X (Proc.devRef .tc main_arg3)) 0) := by
  refine Eq.trans ?_ ((sliceSelf_eq _ slices_S64x48_S64x1_0_47).trans
    (congrArg sliceSelf (attn_slice_eq (X (Proc.devRef .tc main_arg3)) 0 slices_S64x3x48_S64x1x48_0_0_0 shapeCasts_S64x1x48_S64x48)))
  after_results
  rfl

end Stretches

variable (m : (ℓ : Loc nD τ sig) → Buf (Elt Ideal) ℓ) (ρ : Dev nD → PrngReg)

theorem fill_neg_one : (4294967295#32 : BitVec 32) = -1#32 := by decide

theorem V8_w0 (c : Dev nD) : V8 m ρ c (Pipeline.arrRef spec0 0) = m ((c : Thread nD τ).loc main_arg0) := by
  show W8 m ρ c (Proc.devRef .tc main_arg0) = _
  host_walk 8
  rfl

theorem V8_w1 (c : Dev nD) : V8 m ρ c (Pipeline.arrRef spec0 1) = m ((c : Thread nD τ).loc main_arg2) := by
  show W8 m ρ c (Proc.devRef .tc main_arg2) = _
  host_walk 8
  rfl

theorem V8_w2 (c : Dev nD) : V8 m ρ c (Pipeline.arrRef spec0 2) = m ((c : Thread nD τ).loc main_arg1) := by
  show W8 m ρ c (Proc.devRef .tc main_arg1) = _
  host_walk 8
  rfl

theorem W1_arg4 (c : Dev nD) : W1 m ρ c (Proc.devRef .tc main_arg4) = m ((c : Thread nD τ).loc main_arg4) := by
  host_walk 1
  rfl

theorem W3_arg5 (c : Dev nD) : W3 m ρ c (Proc.devRef .tc main_arg5) = m ((c : Thread nD τ).loc main_arg5) := by
  host_walk 3
  rfl

theorem W5_arg6 (c : Dev nD) : W5 m ρ c (Proc.devRef .tc main_arg6) = m ((c : Thread nD τ).loc main_arg6) := by
  host_walk 5
  rfl

theorem W7_arg7 (c : Dev nD) : W7 m ρ c (Proc.devRef .tc main_arg7) = m ((c : Thread nD τ).loc main_arg7) := by
  host_walk 7
  rfl

theorem V8_w3 (c : Dev nD) :
    V8 m ρ c (Pipeline.arrRef spec0 3) = padE (α := BitVec 32) (m ((c : Thread nD τ).loc main_arg4)) (-1#32) := by
  show W8 m ρ c (Proc.devRef .tc main_v0) = _
  host_walk 6
  refine (pad_v0 (W1 m ρ c)).trans ?_
  rw [W1_arg4 m ρ c, show W1 m ρ c (Proc.devRef .tc main_c) = constantI S_ 32 4294967295#32 from const_c _]
  exact congrArg (padE (α := BitVec 32) _) fill_neg_one

theorem V8_w4 (c : Dev nD) :
    V8 m ρ c (Pipeline.arrRef spec0 4) = padE (α := BitVec 32) (m ((c : Thread nD τ).loc main_arg5)) (-1#32) := by
  show W8 m ρ c (Proc.devRef .tc main_v1) = _
  host_walk 4
  refine (pad_v1 (W3 m ρ c)).trans ?_
  rw [W3_arg5 m ρ c, show W3 m ρ c (Proc.devRef .tc main_c_0) = constantI S_ 32 4294967295#32 from const_c_0 _]
  exact congrArg (padE (α := BitVec 32) _) fill_neg_one

theorem V8_w5 (c : Dev nD) :
    V8 m ρ c (Pipeline.arrRef spec0 5) = padE (α := BitVec 32) (m ((c : Thread nD τ).loc main_arg6)) 0#32 := by
  show W8 m ρ c (Proc.devRef .tc main_v2) = _
  host_walk 2
  refine (pad_v2 (W5 m ρ c)).trans ?_
  rw [W5_arg6 m ρ c, show W5 m ρ c (Proc.devRef .tc main_c_1) = constantI S_ 32 0#32 from const_c_1 _]
  rfl

theorem V8_w6 (c : Dev nD) :
    V8 m ρ c (Pipeline.arrRef spec0 6) = padE (α := EReal) (m ((c : Thread nD τ).loc main_arg7)) (0 : EReal) := by
  show W8 m ρ c (Proc.devRef .tc main_v3) = _
  refine (pad_v3 (W7 m ρ c)).trans ?_
  rw [W7_arg7 m ρ c, show W7 m ρ c (Proc.devRef .tc main_cst) = constant (F := Ideal) S_ .f32 0x00000000#32 from const_cst _]
  exact congrArg (padE (α := EReal) _) Ideal.ofBits_zero_f32

theorem W9_in (c : Dev nD) (w : Fin cfg0.W) (hw : (cfg0.win w).isOut = false) :
    W9 m ρ c (Proc.devRef .tc (Pipeline.arrRef spec0 w)) = V8 m ρ c (Pipeline.arrRef spec0 w) :=
  (W9_arr m ρ c w).trans (((dat0 (V8 m ρ) c).arrAt_in w hw _).trans (A_eq0 (V8 m ρ) c w))

theorem V11_w0 (c : Dev nD) :
    V11 m ρ c (Pipeline.arrRef spec1 0) = padE (α := BitVec 32) (m ((c : Thread nD τ).loc main_arg4)) (-1#32) := by
  show W11 m ρ c (Proc.devRef .tc main_v0) = _
  host_walk 2
  exact (W9_in m ρ c 3 rfl).trans (V8_w3 m ρ c)

theorem V11_w1 (c : Dev nD) :
    V11 m ρ c (Pipeline.arrRef spec1 1) = padE (α := BitVec 32) (m ((c : Thread nD τ).loc main_arg5)) (-1#32) := by
  show W11 m ρ c (Proc.devRef .tc main_v1) = _
  host_walk 2
  exact (W9_in m ρ c 4 rfl).trans (V8_w4 m ρ c)

theorem V11_w2 (c : Dev nD) :
    V11 m ρ c (Pipeline.arrRef spec1 2) = padE (α := BitVec 32) (m ((c : Thread nD τ).loc main_arg6)) 0#32 := by
  show W11 m ρ c (Proc.devRef .tc main_v2) = _
  host_walk 2
  exact (W9_in m ρ c 5 rfl).trans (V8_w5 m ρ c)

theorem V11_w3 (c : Dev nD) : V11 m ρ c (Pipeline.arrRef spec1 3) = (dat0 (V8 m ρ) c).arrAt 7 cfg0.N := by
  show W11 m ρ c (Proc.devRef .tc main_v4) = _
  host_walk 2
  exact W9_arr m ρ c 7

theorem W10_arg3 (c : Dev nD) : W10 m ρ c (Proc.devRef .tc main_arg3) = m ((c : Thread nD τ).loc main_arg3) := by
  host_walk 1
  refine (W9_of_ne m ρ c main_arg3 (by decide)).trans ?_
  host_walk 8
  rfl

theorem V11_w4 (c : Dev nD) :
    V11 m ρ c (Pipeline.arrRef spec1 4) = sliceFwd (attnStep (m ((c : Thread nD τ).loc main_arg3)) 0) := by
  show W11 m ρ c (Proc.devRef .tc main_v8) = _
  refine (fwd_v8 (W10 m ρ c)).trans ?_
  rw [W10_arg3 m ρ c]

theorem V11_w5 (c : Dev nD) :
    V11 m ρ c (Pipeline.arrRef spec1 5) = sliceRev (attnStep (m ((c : Thread nD τ).loc main_arg3)) 0) := by
  show W11 m ρ c (Proc.devRef .tc main_v9) = _
  refine (rev_v9 (W10 m ρ c)).trans ?_
  rw [W10_arg3 m ρ c]

theorem V11_w6 (c : Dev nD) :
    V11 m ρ c (Pipeline.arrRef spec1 6) = sliceSelf (attnStep (m ((c : Thread nD τ).loc main_arg3)) 0) := by
  show W11 m ρ c (Proc.devRef .tc main_v10) = _
  refine (self_v10 (W10 m ρ c)).trans ?_
  rw [W10_arg3 m ρ c]

theorem V11_w7 (c : Dev nD) : V11 m ρ c (Pipeline.arrRef spec1 7) = onehotK (m ((c : Thread nD τ).loc main_arg0)) := by
  show W11 m ρ c (Proc.devRef .tc main_v5) = _
  host_walk 1
  refine (onehot_v5 (W9 m ρ c)).trans ?_
  rw [(W9_in m ρ c 0 rfl).trans (V8_w0 m ρ c)]

end Cert.KernelIdeal.Entry01

end
-- ==== Proof.Entry23.lean ====
/-
  What the third and the fourth kernel find in their input arrays: the padded edge arrays and the zeroed confidences,
  unchanged since they were made; their own step's three slices of the attention; and, as memory, the output array of the
  step before.
-/
import proofs.«408331_j31499290149149_3_alg».proof.Proof.FrameKI
import proofs.«408331_j31499290149149_3_alg».proof.Proof.Spec
import Idealize.ShloMosaic.Lib.ValueLayout
import Idealize.ShloMosaic.Lib.StableHlo.Run

set_option maxRecDepth 16384

noncomputable section

namespace Cert.KernelIdeal.Entry23

open Cert.KernelIdeal Cert.KernelIdeal.Gen Cert.KernelIdeal.GenP
open Idealize.ShloMosaic Idealize.ShloMosaic.TcCoe Idealize.SL.Sem
open Idealize.ShloMosaic.ValueIdx Cert.MsgSpec

theorem pad_eq {α : Type} (x : TE.Idx → α) (v : (⟨0, ![]⟩ : Shape).Idx → α)
    (h : TE.Pads (![0] : Fin 1 → Nat) ![32] ![0] TEp) (hu : 0 < (⟨0, ![]⟩ : Shape).numel) :
    pad TEp (![0] : Fin 1 → Nat) ![32] ![0] x v h hu = padE x (v ix0) := by
  funext e
  unfold pad padE
  by_cases he : (e 0).val < 300000
  · have hin : ∀ a : Fin TE.rank, (![0] : Fin 1 → Nat) a ≤ (e (a.cast h.1)).val
        ∧ ((e (a.cast h.1)).val - (![0] : Fin 1 → Nat) a) % ((![0] : Fin 1 → Nat) a + 1) = 0
        ∧ ((e (a.cast h.1)).val - (![0] : Fin 1 → Nat) a) / ((![0] : Fin 1 → Nat) a + 1) < TE.size a := fun a => by
      match a with
      | ⟨0, _⟩ =>
        refine ⟨Nat.zero_le _, Nat.mod_one _, ?_⟩
        show ((e 0).val - 0) / (0 + 1) < 300000
        rw [Nat.sub_zero, Nat.zero_add, Nat.div_one]; exact he
    rw [dif_pos hin, dif_pos he]
    refine congrArg x (funext fun a => ?_)
    match a with
    | ⟨0, _⟩ =>
      refine Fin.ext ?_
      show ((e 0).val - 0) / (0 + 1) = (e 0).val
      rw [Nat.sub_zero, Nat.zero_add, Nat.div_one]
  · have hin : ¬ ∀ a : Fin TE.rank, (![0] : Fin 1 → Nat) a ≤ (e (a.cast h.1)).val
        ∧ ((e (a.cast h.1)).val - (![0] : Fin 1 → Nat) a) % ((![0] : Fin 1 → Nat) a + 1) = 0
        ∧ ((e (a.cast h.1)).val - (![0] : Fin 1 → Nat) a) / ((![0] : Fin 1 → Nat) a + 1) < TE.size a := fun hin => by
      have h0 := (hin ⟨0, Nat.one_pos⟩).2.2
      have h1 : ((e 0).val - 0) / (0 + 1) < 300000 := h0
      rw [Nat.sub_zero, Nat.zero_add, Nat.div_one] at h1
      exact he h1
    rw [dif_neg hin, dif_neg he]
    exact congrArg v (eq_ix0 _)

theorem attn_eq (s : Fin 3) (X : TAttn3.Idx → EReal)
    (h : TAttn3.Slices (![0, s.val, 0] : Fin 3 → Nat) ⟨3, ![64, 1, 48]⟩)
    (hc : (⟨3, ![64, 1, 48]⟩ : Shape).ShapeCasts TAttn) :
    shapeCast TAttn (extractStridedSlice ⟨3, ![64, 1, 48]⟩ (![0, s.val, 0] : Fin 3 → Nat) X h) hc = attnStep X s := by
  funext i
  obtain ⟨a, b, rfl⟩ : ∃ a b, i = ix2 a b := ⟨i 0, i 1, eq_ix2 i⟩
  refine (shapeCast_apply _ hc (ix2 a b) (ix3 a (0 : Fin 1) b) ?_).trans ?_
  · rw [Shape.rowMajor_val_three, Shape.rowMajor_val_two]
    show (a.val * 1 + 0) * 48 + b.val = a.val * 48 + b.val
    omega
  · exact slice3_axis1_apply s.val X h a 0 b s (by simp)

theorem fwd_eq (A : TAttn.Idx → EReal) (h : TAttn.Slices (![0, 0] : Fin 2 → Nat) TA) :
    extractStridedSlice TA (![0, 0] : Fin 2 → Nat) A h = sliceFwd A := by
  funext i
  obtain ⟨a, b, rfl⟩ : ∃ a b, i = ix2 a b := ⟨i 0, i 1, eq_ix2 i⟩
  exact slice2_axis1_apply 0 A h a b _ (by show b.val = 0 + b.val; omega)

theorem rev_eq (A : TAttn.Idx → EReal) (h : TAttn.Slices (![0, 24] : Fin 2 → Nat) TA) :
    extractStridedSlice TA (![0, 24] : Fin 2 → Nat) A h = sliceRev A := by
  funext i
  obtain ⟨a, b, rfl⟩ : ∃ a b, i = ix2 a b := ⟨i 0, i 1, eq_ix2 i⟩
  exact slice2_axis1_apply 24 A h a b _ rfl

theorem self_eq (A : TAttn.Idx → EReal) (h : TAttn.Slices (![0, 47] : Fin 2 → Nat) TS) :
    extractStridedSlice TS (![0, 47] : Fin 2 → Nat) A h = sliceSelf A := by
  funext i
  obtain ⟨a, b, rfl⟩ : ∃ a b, i = ix2 a b := ⟨i 0, i 1, eq_ix2 i⟩
  exact slice2_axis1_apply 47 A h a b _ (by show 47 = 47 + b.val; have := b.isLt; omega)

theorem fwd_prog (s : Fin 3) (X : TAttn3.Idx → EReal)
    (h : TAttn3.Slices (![0, s.val, 0] : Fin 3 → Nat) ⟨3, ![64, 1, 48]⟩)
    (hc : (⟨3, ![64, 1, 48]⟩ : Shape).ShapeCasts TAttn) (h2 : TAttn.Slices (![0, 0] : Fin 2 → Nat) TA) :
    extractStridedSlice TA (![0, 0] : Fin 2 → Nat)
        (shapeCast TAttn (extractStridedSlice ⟨3, ![64, 1, 48]⟩ (![0, s.val, 0] : Fin 3 → Nat) X h) hc) h2
      = sliceFwd (attnStep X s) := by
  rw [attn_eq s X h hc, fwd_eq]

theorem rev_prog (s : Fin 3) (X : TAttn3.Idx → EReal)
    (h : TAttn3.Slices (![0, s.val, 0] : Fin 3 → Nat) ⟨3, ![64, 1, 48]⟩)
    (hc : (⟨3, ![64, 1, 48]⟩ : Shape).ShapeCasts TAttn) (h2 : TAttn.Slices (![0, 24] : Fin 2 → Nat) TA) :
    extractStridedSlice TA (![0, 24] : Fin 2 → Nat)
        (shapeCast TAttn (extractStridedSlice ⟨3, ![64, 1, 48]⟩ (![0, s.val, 0] : Fin 3 → Nat) X h) hc) h2
      = sliceRev (attnStep X s) := by
  rw [attn_eq s X h hc, rev_eq]

theorem self_prog (s : Fin 3) (X : TAttn3.Idx → EReal)
    (h : TAttn3.Slices (![0, s.val, 0] : Fin 3 → Nat) ⟨3, ![64, 1, 48]⟩)
    (hc : (⟨3, ![64, 1, 48]⟩ : Shape).ShapeCasts TAttn) (h2 : TAttn.Slices (![0, 47] : Fin 2 → Nat) TS) :
    extractStridedSlice TS (![0, 47] : Fin 2 → Nat)
        (shapeCast TAttn (extractStridedSlice ⟨3, ![64, 1, 48]⟩ (![0, s.val, 0] : Fin 3 → Nat) X h) hc) h2
      = sliceSelf (attnStep X s) := by
  rw [attn_eq s X h hc, self_eq]

section Host
variable (V : Valuation τ sig (Elt Ideal))

local macro "host_keep" : tactic => `(tactic| (
  refine StableHlo.after_of_forall_not_mem _ _ (List.forall_iff_forall_mem.mp ?_)
  simp only [hostOps0, hostOps0_1, hostOps0_2, hostOps0_3, hostOps0_4, hostOps0_5, hostOps0_6, hostOps0_7,
    hostOps1, hostOps1_1, hostOps2, hostOps3, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

abbrev pre : Valuation τ sig (Elt Ideal) :=
  StableHlo.after hostOps0_7 (StableHlo.after hostOps0_6 (StableHlo.after hostOps0_5 (StableHlo.after hostOps0_4
    (StableHlo.after hostOps0_3 (StableHlo.after hostOps0_2 (StableHlo.after hostOps0_1 (StableHlo.after hostOps0 V)))))))

theorem pre_v0 : pre V (Proc.devRef .tc main_v0) = padE (V (Proc.devRef .tc main_arg4)) (-1#32) := by
  refine Eq.trans ?_ (pad_eq (V (Proc.devRef .tc main_arg4)) (constantI S_ 32 4294967295#32) pads_S300000_S300032_0320 h_S_)
  dsimp only [pre, hostOps0, hostOps0_1, hostOps0_2, hostOps0_3, hostOps0_4, hostOps0_5, hostOps0_6, hostOps0_7]
  after_results
  rfl

theorem pre_v1 : pre V (Proc.devRef .tc main_v1) = padE (V (Proc.devRef .tc main_arg5)) (-1#32) := by
  refine Eq.trans ?_ (pad_eq (V (Proc.devRef .tc main_arg5)) (constantI S_ 32 4294967295#32) pads_S300000_S300032_0320 h_S_)
  dsimp only [pre, hostOps0, hostOps0_1, hostOps0_2, hostOps0_3, hostOps0_4, hostOps0_5, hostOps0_6, hostOps0_7]
  after_results
  rfl

theorem pre_v2 : pre V (Proc.devRef .tc main_v2) = padE (V (Proc.devRef .tc main_arg6)) 0#32 := by
  refine Eq.trans ?_ (pad_eq (V (Proc.devRef .tc main_arg6)) (constantI S_ 32 0#32) pads_S300000_S300032_0320 h_S_)
  dsimp only [pre, hostOps0, hostOps0_1, hostOps0_2, hostOps0_3, hostOps0_4, hostOps0_5, hostOps0_6, hostOps0_7]
  after_results
  rfl

theorem pre_arg3 : pre V (Proc.devRef .tc main_arg3) = V (Proc.devRef .tc main_arg3) := by
  dsimp only [pre, hostOps0, hostOps0_1, hostOps0_2, hostOps0_3, hostOps0_4, hostOps0_5, hostOps0_6, hostOps0_7]
  after_results

abbrev mid : Valuation τ sig (Elt Ideal) := StableHlo.after hostOps1_1 (StableHlo.after hostOps1 V)

theorem mid_v0 : mid V (Proc.devRef .tc main_v0) = V (Proc.devRef .tc main_v0) :=
  Eq.trans (by host_keep) (by host_keep)
theorem mid_v1 : mid V (Proc.devRef .tc main_v1) = V (Proc.devRef .tc main_v1) :=
  Eq.trans (by host_keep) (by host_keep)
theorem mid_v2 : mid V (Proc.devRef .tc main_v2) = V (Proc.devRef .tc main_v2) :=
  Eq.trans (by host_keep) (by host_keep)
theorem mid_v4 : mid V (Proc.devRef .tc main_v4) = V (Proc.devRef .tc main_v4) :=
  Eq.trans (by host_keep) (by host_keep)
theorem mid_arg3 : mid V (Proc.devRef .tc main_arg3) = V (Proc.devRef .tc main_arg3) :=
  Eq.trans (by host_keep) (by host_keep)

theorem h2_v0 : StableHlo.after hostOps2 V (Proc.devRef .tc main_v0) = V (Proc.devRef .tc main_v0) := by host_keep
theorem h2_v1 : StableHlo.after hostOps2 V (Proc.devRef .tc main_v1) = V (Proc.devRef .tc main_v1) := by host_keep
theorem h2_v2 : StableHlo.after hostOps2 V (Proc.devRef .tc main_v2) = V (Proc.devRef .tc main_v2) := by host_keep
theorem h2_v4 : StableHlo.after hostOps2 V (Proc.devRef .tc main_v4) = V (Proc.devRef .tc main_v4) := by host_keep
theorem h2_v11 : StableHlo.after hostOps2 V (Proc.devRef .tc main_v11) = V (Proc.devRef .tc main_v11) := by host_keep
theorem h2_arg3 : StableHlo.after hostOps2 V (Proc.devRef .tc main_arg3) = V (Proc.devRef .tc main_arg3) := by host_keep

theorem h2_v14 : StableHlo.after hostOps2 V (Proc.devRef .tc main_v14) = sliceFwd (attnStep (V (Proc.devRef .tc main_arg3)) 1) := by
  refine Eq.trans ?_ (fwd_prog 1 (V (Proc.devRef .tc main_arg3)) slices_S64x3x48_S64x1x48_0_1_0 shapeCasts_S64x1x48_S64x48 slices_S64x48_S64x24_0_0)
  dsimp only [hostOps2]
  after_results
  rfl
theorem h2_v15 : StableHlo.after hostOps2 V (Proc.devRef .tc main_v15) = sliceRev (attnStep (V (Proc.devRef .tc main_arg3)) 1) := by
  refine Eq.trans ?_ (rev_prog 1 (V (Proc.devRef .tc main_arg3)) slices_S64x3x48_S64x1x48_0_1_0 shapeCasts_S64x1x48_S64x48 slices_S64x48_S64x24_0_24)
  dsimp only [hostOps2]
  after_results
  rfl
theorem h2_v16 : StableHlo.after hostOps2 V (Proc.devRef .tc main_v16) = sliceSelf (attnStep (V (Proc.devRef .tc main_arg3)) 1) := by
  refine Eq.trans ?_ (self_prog 1 (V (Proc.devRef .tc main_arg3)) slices_S64x3x48_S64x1x48_0_1_0 shapeCasts_S64x1x48_S64x48 slices_S64x48_S64x1_0_47)
  dsimp only [hostOps2]
  after_results
  rfl

theorem h3_v0 : StableHlo.after hostOps3 V (Proc.devRef .tc main_v0) = V (Proc.devRef .tc main_v0) := by host_keep
theorem h3_v1 : StableHlo.after hostOps3 V (Proc.devRef .tc main_v1) = V (Proc.devRef .tc main_v1) := by host_keep
theorem h3_v2 : StableHlo.after hostOps3 V (Proc.devRef .tc main_v2) = V (Proc.devRef .tc main_v2) := by host_keep
theorem h3_v4 : StableHlo.after hostOps3 V (Proc.devRef .tc main_v4) = V (Proc.devRef .tc main_v4) := by host_keep
theorem h3_v17 : StableHlo.after hostOps3 V (Proc.devRef .tc main_v17) = V (Proc.devRef .tc main_v17) := by host_keep

theorem h3_v20 : StableHlo.after hostOps3 V (Proc.devRef .tc main_v20) = sliceFwd (attnStep (V (Proc.devRef .tc main_arg3)) 2) := by
  refine Eq.trans ?_ (fwd_prog 2 (V (Proc.devRef .tc main_arg3)) slices_S64x3x48_S64x1x48_0_2_0 shapeCasts_S64x1x48_S64x48 slices_S64x48_S64x24_0_0)
  dsimp only [hostOps3]
  after_results
  rfl
theorem h3_v21 : StableHlo.after hostOps3 V (Proc.devRef .tc main_v21) = sliceRev (attnStep (V (Proc.devRef .tc main_arg3)) 2) := by
  refine Eq.trans ?_ (rev_prog 2 (V (Proc.devRef .tc main_arg3)) slices_S64x3x48_S64x1x48_0_2_0 shapeCasts_S64x1x48_S64x48 slices_S64x48_S64x24_0_24)
  dsimp only [hostOps3]
  after_results
  rfl
theorem h3_v22 : StableHlo.after hostOps3 V (Proc.devRef .tc main_v22) = sliceSelf (attnStep (V (Proc.devRef .tc main_arg3)) 2) := by
  refine Eq.trans ?_ (self_prog 2 (V (Proc.devRef .tc main_arg3)) slices_S64x3x48_S64x1x48_0_2_0 shapeCasts_S64x1x48_S64x48 slices_S64x48_S64x1_0_47)
  dsimp only [hostOps3]
  after_results
  rfl

end Host

variable (m : (ℓ : Loc nD τ sig) → Buf (Elt Ideal) ℓ) (ρ : Dev nD → PrngReg)

theorem W9_in (c : Dev nD) (w : Fin cfg0.W) (hin : (cfg0.win w).isOut = false) :
    W9 m ρ c (Proc.devRef .tc (Pipeline.arrRef spec0 w)) = W8 m ρ c (Proc.devRef .tc (Pipeline.arrRef spec0 w)) :=
  (W9_arr m ρ c w).trans (((dat0 (V8 m ρ) c).arrAt_in w hin _).trans (A_eq0 (V8 m ρ) c w))
theorem W12_in (c : Dev nD) (w : Fin cfg1.W) (hin : (cfg1.win w).isOut = false) :
    W12 m ρ c (Proc.devRef .tc (Pipeline.arrRef spec1 w)) = W11 m ρ c (Proc.devRef .tc (Pipeline.arrRef spec1 w)) :=
  (W12_arr m ρ c w).trans (((dat1 (V11 m ρ) c).arrAt_in w hin _).trans (A_eq1 (V11 m ρ) c w))
theorem W14_in (c : Dev nD) (w : Fin cfg2.W) (hin : (cfg2.win w).isOut = false) :
    W14 m ρ c (Proc.devRef .tc (Pipeline.arrRef spec2 w)) = W13 m ρ c (Proc.devRef .tc (Pipeline.arrRef spec2 w)) :=
  (W14_arr m ρ c w).trans (((dat2 (V13 m ρ) c).arrAt_in w hin _).trans (A_eq2 (V13 m ρ) c w))

theorem W13_v0 (c : Dev nD) :
    W13 m ρ c (Proc.devRef .tc main_v0) = padE (m ((c : Thread nD τ).loc main_arg4)) (-1#32) :=
  calc W13 m ρ c (Proc.devRef .tc main_v0)
    _ = W12 m ρ c (Proc.devRef .tc main_v0) := h2_v0 (W12 m ρ c)
    _ = W11 m ρ c (Proc.devRef .tc main_v0) := W12_in m ρ c 0 rfl
    _ = W9 m ρ c (Proc.devRef .tc main_v0) := mid_v0 (W9 m ρ c)
    _ = W8 m ρ c (Proc.devRef .tc main_v0) := W9_in m ρ c 3 rfl
    _ = padE (m ((c : Thread nD τ).loc main_arg4)) (-1#32) := pre_v0 (W0 m ρ c)
theorem W13_v1 (c : Dev nD) :
    W13 m ρ c (Proc.devRef .tc main_v1) = padE (m ((c : Thread nD τ).loc main_arg5)) (-1#32) :=
  calc W13 m ρ c (Proc.devRef .tc main_v1)
    _ = W12 m ρ c (Proc.devRef .tc main_v1) := h2_v1 (W12 m ρ c)
    _ = W11 m ρ c (Proc.devRef .tc main_v1) := W12_in m ρ c 1 rfl
    _ = W9 m ρ c (Proc.devRef .tc main_v1) := mid_v1 (W9 m ρ c)
    _ = W8 m ρ c (Proc.devRef .tc main_v1) := W9_in m ρ c 4 rfl
    _ = padE (m ((c : Thread nD τ).loc main_arg5)) (-1#32) := pre_v1 (W0 m ρ c)
theorem W13_v2 (c : Dev nD) :
    W13 m ρ c (Proc.devRef .tc main_v2) = padE (m ((c : Thread nD τ).loc main_arg6)) 0#32 :=
  calc W13 m ρ c (Proc.devRef .tc main_v2)
    _ = W12 m ρ c (Proc.devRef .tc main_v2) := h2_v2 (W12 m ρ c)
    _ = W11 m ρ c (Proc.devRef .tc main_v2) := W12_in m ρ c 2 rfl
    _ = W9 m ρ c (Proc.devRef .tc main_v2) := mid_v2 (W9 m ρ c)
    _ = W8 m ρ c (Proc.devRef .tc main_v2) := W9_in m ρ c 5 rfl
    _ = padE (m ((c : Thread nD τ).loc main_arg6)) 0#32 := pre_v2 (W0 m ρ c)

theorem W13_v4 (c : Dev nD) : W13 m ρ c (Proc.devRef .tc main_v4) = (dat0 (V8 m ρ) c).arrAt 7 cfg0.N :=
  calc W13 m ρ c (Proc.devRef .tc main_v4)
    _ = W12 m ρ c (Proc.devRef .tc main_v4) := h2_v4 (W12 m ρ c)
    _ = W11 m ρ c (Proc.devRef .tc main_v4) := W12_in m ρ c 3 rfl
    _ = W9 m ρ c (Proc.devRef .tc main_v4) := mid_v4 (W9 m ρ c)
    _ = (dat0 (V8 m ρ) c).arrAt 7 cfg0.N := W9_arr m ρ c 7

theorem W12_arg3 (c : Dev nD) : W12 m ρ c (Proc.devRef .tc main_arg3) = m ((c : Thread nD τ).loc main_arg3) :=
  calc W12 m ρ c (Proc.devRef .tc main_arg3)
    _ = W11 m ρ c (Proc.devRef .tc main_arg3) := W12_of_ne m ρ c main_arg3 (by decide)
    _ = W9 m ρ c (Proc.devRef .tc main_arg3) := mid_arg3 (W9 m ρ c)
    _ = W8 m ρ c (Proc.devRef .tc main_arg3) := W9_of_ne m ρ c main_arg3 (by decide)
    _ = W0 m ρ c (Proc.devRef .tc main_arg3) := pre_arg3 (W0 m ρ c)
    _ = m ((c : Thread nD τ).loc main_arg3) := rfl
theorem W14_arg3 (c : Dev nD) : W14 m ρ c (Proc.devRef .tc main_arg3) = m ((c : Thread nD τ).loc main_arg3) :=
  calc W14 m ρ c (Proc.devRef .tc main_arg3)
    _ = W13 m ρ c (Proc.devRef .tc main_arg3) := W14_of_ne m ρ c main_arg3 (by decide)
    _ = W12 m ρ c (Proc.devRef .tc main_arg3) := h2_arg3 (W12 m ρ c)
    _ = m ((c : Thread nD τ).loc main_arg3) := W12_arg3 m ρ c

theorem V13_w0 (c : Dev nD) :
    V13 m ρ c (Pipeline.arrRef spec2 0) = padE (m ((c : Thread nD τ).loc main_arg4)) (-1#32) := W13_v0 m ρ c
theorem V13_w1 (c : Dev nD) :
    V13 m ρ c (Pipeline.arrRef spec2 1) = padE (m ((c : Thread nD τ).loc main_arg5)) (-1#32) := W13_v1 m ρ c
theorem V13_w2 (c : Dev nD) :
    V13 m ρ c (Pipeline.arrRef spec2 2) = padE (m ((c : Thread nD τ).loc main_arg6)) 0#32 := W13_v2 m ρ c
theorem V13_w3 (c : Dev nD) : V13 m ρ c (Pipeline.arrRef spec2 3) = (dat0 (V8 m ρ) c).arrAt 7 cfg0.N := W13_v4 m ρ c
theorem V13_w4 (c : Dev nD) :
    V13 m ρ c (Pipeline.arrRef spec2 4) = sliceFwd (attnStep (m ((c : Thread nD τ).loc main_arg3)) 1) :=
  (h2_v14 (W12 m ρ c)).trans (congrArg (fun X => sliceFwd (attnStep X 1)) (W12_arg3 m ρ c))
theorem V13_w5 (c : Dev nD) :
    V13 m ρ c (Pipeline.arrRef spec2 5) = sliceRev (attnStep (m ((c : Thread nD τ).loc main_arg3)) 1) :=
  (h2_v15 (W12 m ρ c)).trans (congrArg (fun X => sliceRev (attnStep X 1)) (W12_arg3 m ρ c))
theorem V13_w6 (c : Dev nD) :
    V13 m ρ c (Pipeline.arrRef spec2 6) = sliceSelf (attnStep (m ((c : Thread nD τ).loc main_arg3)) 1) :=
  (h2_v16 (W12 m ρ c)).trans (congrArg (fun X => sliceSelf (attnStep X 1)) (W12_arg3 m ρ c))
theorem V13_w7 (c : Dev nD) : V13 m ρ c (Pipeline.arrRef spec2 7) = (dat1 (V11 m ρ) c).arrAt 8 cfg1.N :=
  (h2_v11 (W12 m ρ c)).trans (W12_arr m ρ c 8)

theorem V15_w0 (c : Dev nD) :
    V15 m ρ c (Pipeline.arrRef spec3 0) = padE (m ((c : Thread nD τ).loc main_arg4)) (-1#32) :=
  (h3_v0 (W14 m ρ c)).trans ((W14_in m ρ c 0 rfl).trans (W13_v0 m ρ c))
theorem V15_w1 (c : Dev nD) :
    V15 m ρ c (Pipeline.arrRef spec3 1) = padE (m ((c : Thread nD τ).loc main_arg5)) (-1#32) :=
  (h3_v1 (W14 m ρ c)).trans ((W14_in m ρ c 1 rfl).trans (W13_v1 m ρ c))
theorem V15_w2 (c : Dev nD) :
    V15 m ρ c (Pipeline.arrRef spec3 2) = padE (m ((c : Thread nD τ).loc main_arg6)) 0#32 :=
  (h3_v2 (W14 m ρ c)).trans ((W14_in m ρ c 2 rfl).trans (W13_v2 m ρ c))
theorem V15_w3 (c : Dev nD) : V15 m ρ c (Pipeline.arrRef spec3 3) = (dat0 (V8 m ρ) c).arrAt 7 cfg0.N :=
  (h3_v4 (W14 m ρ c)).trans ((W14_in m ρ c 3 rfl).trans (W13_v4 m ρ c))
theorem V15_w4 (c : Dev nD) :
    V15 m ρ c (Pipeline.arrRef spec3 4) = sliceFwd (attnStep (m ((c : Thread nD τ).loc main_arg3)) 2) :=
  (h3_v20 (W14 m ρ c)).trans (congrArg (fun X => sliceFwd (attnStep X 2)) (W14_arg3 m ρ c))
theorem V15_w5 (c : Dev nD) :
    V15 m ρ c (Pipeline.arrRef spec3 5) = sliceRev (attnStep (m ((c : Thread nD τ).loc main_arg3)) 2) :=
  (h3_v21 (W14 m ρ c)).trans (congrArg (fun X => sliceRev (attnStep X 2)) (W14_arg3 m ρ c))
theorem V15_w6 (c : Dev nD) :
    V15 m ρ c (Pipeline.arrRef spec3 6) = sliceSelf (attnStep (m ((c : Thread nD τ).loc main_arg3)) 2) :=
  (h3_v22 (W14 m ρ c)).trans (congrArg (fun X => sliceSelf (attnStep X 2)) (W14_arg3 m ρ c))
theorem V15_w7 (c : Dev nD) : V15 m ρ c (Pipeline.arrRef spec3 7) = (dat2 (V13 m ρ) c).arrAt 8 cfg2.N :=
  (h3_v17 (W14 m ρ c)).trans (W14_arr m ρ c 8)

end Cert.KernelIdeal.Entry23

end
-- ==== Proof.KillValue.lean ====
/-
  The first kernel's output array: every edge's confidence, or zero when some query's (head, tail, relation) is the edge's
  own. A [64, 1024] table holds 1 where query b's three words are edge e's; its maximum over b, started from the bottom
  element, is positive exactly when some query matches. Point t writes tile t, and the tiles cover the array.
-/
import proofs.«408331_j31499290149149_3_alg».proof.Proof.FrameKI
import proofs.«408331_j31499290149149_3_alg».proof.Proof.Spec
import Idealize.ShloMosaic.Lib.Pipeline.Value
import Idealize.ShloMosaic.Lib.ValueIdx
import Idealize.ShloMosaic.Lib.ValueLayout
import Idealize.ShloMosaic.Lib.Affine
import Idealize.ShloMosaic.PureOps.Ideal.Laws
import Mathlib.Data.Finset.Fold

set_option maxRecDepth 16384

noncomputable section

namespace Cert.KernelIdeal.KillValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.MsgSpec

section Layout
variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

theorem ofBits_one_f32 : Ideal.ofBits .f32 0x3F800000#32 = 1 := by
  simp [Ideal.ofBits, Ideal.ieee]
  norm_cast; norm_num
theorem ofBits_negInf_f32 : Ideal.ofBits .f32 0xFF800000#32 = ⊥ := by simp [Ideal.ofBits, Ideal.ieee]

section Payload
variable {α : Type}

theorem row_apply (x : S1024.Idx → α) (b : Fin 64) (e : Fin 1024) :
    broadcastTo S64x1024 (shapeCast S1x1024 x shapeCasts_S1024_S1x1024) broadcasts_S1x1024_S64x1024 (ix2 b e) = x (ix1 e) :=
  (broadcastTo_1b_ab_apply _ _ b e).trans (shapeCast_a_1a_apply x _ 0 e)

theorem col_apply (x : S64.Idx → α) (b : Fin 64) (e : Fin 1024) :
    broadcastTo S64x1024 (shapeCast S64x1 x shapeCasts_S64_S64x1) broadcasts_S64x1_S64x1024 (ix2 b e) = x (ix1 b) :=
  (broadcastTo_a1_ab_apply _ _ b e).trans (shapeCast_a_a1_apply x _ b 0)

theorem lift_eq (e : Fin 1024) (b : Fin 64) : reduces_S64x1024_S1024.lift (ix1 e) b = ix2 b e := by
  funext c
  match c with
  | ⟨0, _⟩ => exact Fin.ext rfl
  | ⟨1, _⟩ => exact Fin.ext rfl

end Payload

theorem cmp_ogt_eq_one (x y : EReal) : Ideal.cmp .ogt x y = 1#1 ↔ y < x := by
  unfold Ideal.cmp
  by_cases h : y < x <;> simp [h]

theorem mask_iff (x0 x1 x2 : Vec Ideal S64 .i32) (x3 x4 x5 : Vec Ideal S1024 .i32) (b : Fin 64) (e : Fin 1024) :
    andi (andi
        (cmpi .eq (broadcastTo S64x1024 (shapeCast S1x1024 x3 shapeCasts_S1024_S1x1024) broadcasts_S1x1024_S64x1024)
          (broadcastTo S64x1024 (shapeCast S64x1 x0 shapeCasts_S64_S64x1) broadcasts_S64x1_S64x1024))
        (cmpi .eq (broadcastTo S64x1024 (shapeCast S1x1024 x4 shapeCasts_S1024_S1x1024) broadcasts_S1x1024_S64x1024)
          (broadcastTo S64x1024 (shapeCast S64x1 x1 shapeCasts_S64_S64x1) broadcasts_S64x1_S64x1024)))
        (cmpi .eq (broadcastTo S64x1024 (shapeCast S1x1024 x5 shapeCasts_S1024_S1x1024) broadcasts_S1x1024_S64x1024)
          (broadcastTo S64x1024 (shapeCast S64x1 x2 shapeCasts_S64_S64x1) broadcasts_S64x1_S64x1024)) (ix2 b e) = 1#1
      ↔ x3 (ix1 e) = x0 (ix1 b) ∧ x4 (ix1 e) = x1 (ix1 b) ∧ x5 (ix1 e) = x2 (ix1 b) := by
  show IntOp.andi (IntOp.andi (IntOp.cmpi .eq _ _) (IntOp.cmpi .eq _ _)) (IntOp.cmpi .eq _ _) = 1#1 ↔ _
  rw [IntOp.andi_eq_one, IntOp.andi_eq_one, IntOp.cmpi_eq, IntOp.cmpi_eq, IntOp.cmpi_eq, and_assoc,
    row_apply, col_apply, row_apply, col_apply, row_apply, col_apply]

theorem max_table_pos (M : IVec S64x1024 1) (e : Fin 1024) (hφ : FKind.Formats .f32)
    (hacc : (0xFF800000#32 : BitVec 32) = FKind.maximumf.neutral .f32 hφ) :
    FloatOps.cmpf (F := Ideal) .ogt
        (multiReduction (F := Ideal) .maximumf [0] S1024
          (select M (broadcast S64x1024 (FloatOps.ofBits .f32 0x3F800000#32)) (broadcast S64x1024 (FloatOps.ofBits .f32 0x00000000#32)))
          0xFF800000#32 reduces_S64x1024_S1024 hφ hacc (ix1 e))
        (FloatOps.ofBits .f32 0x00000000#32) = 1#1
      ↔ ∃ b : Fin 64, M (ix2 b e) = 1#1 := by
  rw [Ideal.multiReduction_maximumf_single]
  show Ideal.cmp .ogt _ (Ideal.ofBits .f32 0x00000000#32) = 1#1 ↔ _
  rw [Ideal.ofBits_zero_f32, cmp_ogt_eq_one, Finset.lt_fold_max]
  constructor
  · rintro (h | ⟨b, -, hb⟩)
    · exact absurd (show (0 : EReal) < Ideal.ofBits .f32 0xFF800000#32 from h) (by rw [ofBits_negInf_f32]; exact not_lt_bot)
    · rw [Function.comp_apply, lift_eq e b, select_apply, broadcast_apply, broadcast_apply] at hb
      rcases BitVec.eq_zero_or_eq_one (M (ix2 b e)) with h0 | h1
      · rw [h0, select_zero] at hb
        exact absurd (show (0 : EReal) < Ideal.ofBits .f32 0x00000000#32 from hb) (by rw [Ideal.ofBits_zero_f32]; exact lt_irrefl _)
      · exact ⟨b, h1⟩
  · rintro ⟨b, hb⟩
    refine Or.inr ⟨b, Finset.mem_univ _, ?_⟩
    show (0 : EReal) < select M (broadcast S64x1024 (Ideal.ofBits .f32 0x3F800000#32))
      (broadcast S64x1024 (Ideal.ofBits .f32 0x00000000#32)) (reduces_S64x1024_S1024.lift (ix1 e) b)
    rw [lift_eq e b, select_apply, hb, select_one, broadcast_apply, ofBits_one_f32]
    exact zero_lt_one

theorem pay_apply (x0 x1 x2 : Vec Ideal S64 .i32) (x3 x4 x5 : Vec Ideal S1024 .i32) (x6 : Vec Ideal S1024 .f32) (e : Fin 1024) :
    k0_pay1 x0 x1 x2 x3 x4 x5 x6 (ix1 e)
      = if ∃ b : Fin 64, x3 (ix1 e) = x0 (ix1 b) ∧ x4 (ix1 e) = x1 (ix1 b) ∧ x5 (ix1 e) = x2 (ix1 b) then 0 else x6 (ix1 e) := by
  unfold k0_pay1
  simp only [shapeCast_self]
  rw [select_apply, cmpf_apply, broadcast_apply]
  unfold Scalar.select
  exact if_congr ((max_table_pos _ e _ _).trans (exists_congr fun b => mask_iff x0 x1 x2 x3 x4 x5 b e))
    Ideal.ofBits_zero_f32 rfl

theorem pay_tile (qh qt qr : T64.Idx → BitVec 32) (eh et er : TEp.Idx → BitVec 32) (ev : TEp.Idx → EReal) (t : Fin 293)
    (x0 x1 x2 : Vec Ideal S64 .i32) (x3 x4 x5 : Vec Ideal S1024 .i32) (x6 : Vec Ideal S1024 .f32)
    (h0 : x0 = qh) (h1 : x1 = qt) (h2 : x2 = qr) (h3 : x3 = blkE eh t) (h4 : x4 = blkE et t) (h5 : x5 = blkE er t)
    (h6 : x6 = blkE ev t) :
    k0_pay1 x0 x1 x2 x3 x4 x5 x6 = blkE (killK qh qt qr eh et er ev) t := by
  subst h0 h1 h2 h3 h4 h5 h6
  funext y
  obtain ⟨e, rfl⟩ : ∃ e : Fin 1024, y = ix1 e := ⟨y 0, eq_ix1 y⟩
  rw [pay_apply]
  split
  · next h => exact (if_pos h).symm
  · next h => exact (if_neg h).symm

theorem hz : (![0] : Fin 1 → Nat) = fun _ => 0 := funext fun a => by fin_cases a; rfl

theorem idx_facts : ∀ t : Fin cfg0.N, win0_0.index t (0 : Fin 1) = 0 ∧ win0_1.index t (0 : Fin 1) = 0 ∧ win0_2.index t (0 : Fin 1) = 0
    ∧ win0_3.index t (0 : Fin 1) = t.val ∧ win0_4.index t (0 : Fin 1) = t.val ∧ win0_5.index t (0 : Fin 1) = t.val
    ∧ win0_6.index t (0 : Fin 1) = t.val ∧ win0_7.index t (0 : Fin 1) = t.val :=
  (by decide +kernel : ∀ t : Fin grid0.N, _)

abbrev tile (t : Fin cfg0.N) : Fin 293 := Fin.cast N_0 t

theorem read_q0 (t : Fin cfg0.N) (A : T64.Idx → BitVec 32) :
    (((cfg0.win 0).blk t).view.read (Elt Ideal) A : T64.Idx → BitVec 32) = A := by
  funext y
  show A (((cfg0.win 0).blk t).view.emb y) = A y
  congr 1
  funext a; apply Fin.ext
  match a with
  | ⟨0, _⟩ =>
    show win0_0.index t (0 : Fin 1) * 64 + 1 * (y 0).val = (y 0).val
    rw [(idx_facts t).1]; omega

theorem read_q1 (t : Fin cfg0.N) (A : T64.Idx → BitVec 32) :
    (((cfg0.win 1).blk t).view.read (Elt Ideal) A : T64.Idx → BitVec 32) = A := by
  funext y
  show A (((cfg0.win 1).blk t).view.emb y) = A y
  congr 1
  funext a; apply Fin.ext
  match a with
  | ⟨0, _⟩ =>
    show win0_1.index t (0 : Fin 1) * 64 + 1 * (y 0).val = (y 0).val
    rw [(idx_facts t).2.1]; omega

theorem read_q2 (t : Fin cfg0.N) (A : T64.Idx → BitVec 32) :
    (((cfg0.win 2).blk t).view.read (Elt Ideal) A : T64.Idx → BitVec 32) = A := by
  funext y
  show A (((cfg0.win 2).blk t).view.emb y) = A y
  congr 1
  funext a; apply Fin.ext
  match a with
  | ⟨0, _⟩ =>
    show win0_2.index t (0 : Fin 1) * 64 + 1 * (y 0).val = (y 0).val
    rw [(idx_facts t).2.2.1]; omega

theorem read_e3 (t : Fin cfg0.N) (A : TEp.Idx → BitVec 32) :
    (((cfg0.win 3).blk t).view.read (Elt Ideal) A : T1024.Idx → BitVec 32) = blkE A (tile t) := by
  funext y
  show A (((cfg0.win 3).blk t).view.emb y) = A (ix1 ⟨t.val * 1024 + (y 0).val, _⟩)
  congr 1
  funext a; apply Fin.ext
  match a with
  | ⟨0, _⟩ =>
    show win0_3.index t (0 : Fin 1) * 1024 + 1 * (y 0).val = t.val * 1024 + (y 0).val
    rw [(idx_facts t).2.2.2.1]; omega

theorem read_e4 (t : Fin cfg0.N) (A : TEp.Idx → BitVec 32) :
    (((cfg0.win 4).blk t).view.read (Elt Ideal) A : T1024.Idx → BitVec 32) = blkE A (tile t) := by
  funext y
  show A (((cfg0.win 4).blk t).view.emb y) = A (ix1 ⟨t.val * 1024 + (y 0).val, _⟩)
  congr 1
  funext a; apply Fin.ext
  match a with
  | ⟨0, _⟩ =>
    show win0_4.index t (0 : Fin 1) * 1024 + 1 * (y 0).val = t.val * 1024 + (y 0).val
    rw [(idx_facts t).2.2.2.2.1]; omega

theorem read_e5 (t : Fin cfg0.N) (A : TEp.Idx → BitVec 32) :
    (((cfg0.win 5).blk t).view.read (Elt Ideal) A : T1024.Idx → BitVec 32) = blkE A (tile t) := by
  funext y
  show A (((cfg0.win 5).blk t).view.emb y) = A (ix1 ⟨t.val * 1024 + (y 0).val, _⟩)
  congr 1
  funext a; apply Fin.ext
  match a with
  | ⟨0, _⟩ =>
    show win0_5.index t (0 : Fin 1) * 1024 + 1 * (y 0).val = t.val * 1024 + (y 0).val
    rw [(idx_facts t).2.2.2.2.2.1]; omega

theorem read_e6 (t : Fin cfg0.N) (A : TEp.Idx → EReal) :
    (((cfg0.win 6).blk t).view.read (Elt Ideal) A : T1024.Idx → EReal) = blkE A (tile t) := by
  funext y
  show A (((cfg0.win 6).blk t).view.emb y) = A (ix1 ⟨t.val * 1024 + (y 0).val, _⟩)
  congr 1
  funext a; apply Fin.ext
  match a with
  | ⟨0, _⟩ =>
    show win0_6.index t (0 : Fin 1) * 1024 + 1 * (y 0).val = t.val * 1024 + (y 0).val
    rw [(idx_facts t).2.2.2.2.2.2.1]; omega

theorem read_e7 (t : Fin cfg0.N) (A : TEp.Idx → EReal) :
    (((cfg0.win 7).blk t).view.read (Elt Ideal) A : T1024.Idx → EReal) = blkE A (tile t) := by
  funext y
  show A (((cfg0.win 7).blk t).view.emb y) = A (ix1 ⟨t.val * 1024 + (y 0).val, _⟩)
  congr 1
  funext a; apply Fin.ext
  match a with
  | ⟨0, _⟩ =>
    show win0_7.index t (0 : Fin 1) * 1024 + 1 * (y 0).val = t.val * 1024 + (y 0).val
    rw [(idx_facts t).2.2.2.2.2.2.2]; omega

theorem mem_blk (t : Fin cfg0.N) (i : TEp.Idx) :
    i ∈ ((cfg0.win 7).blk t).view.set ↔ ∀ a : Fin 1, win0_7.index t a * S1024.size a ≤ (i a).val ∧ (i a).val < win0_7.index t a * S1024.size a + S1024.size a := by
  show i ∈ ((View.whole main_v4).slice (win0_7.rect t)).set ↔ _
  rw [View.set_slice_whole, Rect.mem_set_unit]
  exact Iff.rfl

theorem cover (i : TEp.Idx) : ∃ t : Fin cfg0.N, (cfg0.win 7).flush t = true ∧ i ∈ ((cfg0.win 7).blk t).view.set := by
  have hi : (i 0).val < 300032 := (i 0).isLt
  refine ⟨Fin.cast N_0.symm ⟨(i 0).val / 1024, by omega⟩, flush0_7 _, ?_⟩
  rw [mem_blk]
  intro a
  match a with
  | ⟨0, _⟩ =>
    show win0_7.index _ (0 : Fin 1) * 1024 ≤ (i 0).val ∧ (i 0).val < win0_7.index _ (0 : Fin 1) * 1024 + 1024
    rw [(idx_facts _).2.2.2.2.2.2.2]
    show (i 0).val / 1024 * 1024 ≤ (i 0).val ∧ (i 0).val < (i 0).val / 1024 * 1024 + 1024
    omega

section Run
variable (V : (c : Dev nD) → (b : Ref sig .tc) → Buf (Elt Ideal) ((c : Thread nD τ).loc b))

theorem flushed_eq (c : Dev nD) (t : Fin cfg0.N) :
    (dat0 (F := Ideal) V c).flushed 7 t
      = ((cfg0.win 7).blk t).view.read (Elt Ideal)
          (killK (V c (Pipeline.arrRef spec0 0)) (V c (Pipeline.arrRef spec0 1)) (V c (Pipeline.arrRef spec0 2))
            (V c (Pipeline.arrRef spec0 3)) (V c (Pipeline.arrRef spec0 4)) (V c (Pipeline.arrRef spec0 5))
            (V c (Pipeline.arrRef spec0 6))) := by
  show (cfg0.win 7).cut (grid0.coords t) ((dat0 V c).after 7 t) = _
  rw [after0_7]
  unfold out0_7
  rw [View.canon_unit_zero hz]
  simp only [View.ld_unit_zero (S := S64) hz, View.ld_unit_zero (S := S1024) hz]
  exact (pay_tile _ _ _ _ _ _ _ (tile t) _ _ _ _ _ _ _ (read_q0 t _) (read_q1 t _) (read_q2 t _) (read_e3 t _)
    (read_e4 t _) (read_e5 t _) (read_e6 t _)).trans (read_e7 t _).symm

theorem kill_value (c : Dev nD) (qh qt qr : T64.Idx → BitVec 32) (eh et er : TEp.Idx → BitVec 32) (ev : TEp.Idx → EReal)
    (h0 : V c (Pipeline.arrRef spec0 0) = qh) (h1 : V c (Pipeline.arrRef spec0 1) = qt) (h2 : V c (Pipeline.arrRef spec0 2) = qr)
    (h3 : V c (Pipeline.arrRef spec0 3) = eh) (h4 : V c (Pipeline.arrRef spec0 4) = et) (h5 : V c (Pipeline.arrRef spec0 5) = er)
    (h6 : V c (Pipeline.arrRef spec0 6) = ev) :
    (dat0 (F := Ideal) V c).arrAt 7 cfg0.N = killK qh qt qr eh et er ev := by
  subst h0 h1 h2 h3 h4 h5 h6
  exact (dat0 V c).arrAt_eq_of_cover 7 _ (fun t _ => flushed_eq V c t) cover

end Run

end Cert.KernelIdeal.KillValue

end
-- ==== Proof.StepGather.lean ====
/-
  The gather loop of the message-passing step, over the extended reals. A tile of 1024 edges has heads v3 and tails v5;
  the memory has 64 rows and 40960 columns. Trip k reads columns 1024k .. 1024k + 1023 of the memory and adds to each of
  two carried [64, 1024] arrays, at (b, e), the sum over those columns of the memory's entry times the indicator "the
  column is the id", the id being edge e's head for the first array and its tail for the second. After the 40 trips the
  entry at (b, e) is the memory's row b read at the id. The three step kernels run one body, so the loop's mathematics is
  stated once, for any sequence that advances by the trip's two updates.
-/
import proofs.«408331_j31499290149149_3_alg».proof.Proof.Gen.KernelIdeal.Loops
import proofs.«408331_j31499290149149_3_alg».proof.Proof.Spec
import Idealize.ShloMosaic.PureOps.Ideal.Laws
import Idealize.ShloMosaic.Lib.ValueIdx
import Idealize.ShloMosaic.Lib.Pipeline.Value
import Idealize.ShloMosaic.Lib.ValueLayout
import Mathlib.Algebra.BigOperators.Fin
import Mathlib.Algebra.BigOperators.Group.Finset.Basic

set_option maxRecDepth 8192
set_option maxHeartbeats 4000000

noncomputable section

namespace Cert.KernelIdeal.StepGather

open Cert.KernelIdeal Cert.KernelIdeal.Gen Cert.MsgSpec Idealize.ShloMosaic Idealize.ShloMosaic.ValueIdx
open scoped BigOperators

-- The block of the memory that trip k reads.
def blk (arg8 : Memref sig .tc .vmem S64x40960 .f32) (X : BufTy.Contents (Elt Ideal) arg8.view.ty)
    (k : Fin k1_t1_loop.trips) : Vec Ideal S64x1024 .f32 :=
  View.readAt (Elt Ideal) arg8.view (Rect.unit (s := S64x40960) (k1_off1 k) S64x1024.size (k1_off1_inb k)).toLoadRect X

theorem trips_lt (k : Fin k1_t1_loop.trips) : k.val < 40 := Nat.lt_of_lt_of_le k.isLt k1_t1_abs.2.1

theorem blk_apply (arg8 : Memref sig .tc .vmem S64x40960 .f32) (X : BufTy.Contents (Elt Ideal) arg8.view.ty)
    (x7 : Vec Ideal S64x40960 .f32) (hX : arg8.view.read (Elt Ideal) X = x7) (k : Fin k1_t1_loop.trips) (b : Fin 64) (n' : Fin 1024) :
    blk arg8 X k (ix2 b n') = x7 (ix2 b ⟨1024 * k.val + n'.val, by have := trips_lt k; have := n'.isLt; omega⟩) := by
  subst hX
  unfold blk
  rw [View.readAt_apply]
  refine congrArg _ (Shape.idx_ext₂ ?_ ?_)
  · show (k1_off1 k) 0 + 1 * b.val = b.val
    rw [k1_off1_eq]
    show 0 + 1 * b.val = b.val
    omega
  · show (k1_off1 k) 1 + 1 * n'.val = 1024 * k.val + n'.val
    rw [k1_off1_eq]
    show 1024 * k.val + 1 * n'.val = 1024 * k.val + n'.val
    omega

theorem entity_word (k n : ℕ) :
    IntOp.addi (Scalar.muli (Scf.iv 0#32 1#32 k) 1024#32) (BitVec.ofNat 32 n) = BitVec.ofNat 32 (1024 * k + n) := by
  unfold IntOp.addi Scalar.muli IntOp.muli Scf.iv
  apply BitVec.eq_of_toNat_eq
  simp only [BitVec.toNat_add, BitVec.toNat_mul, BitVec.toNat_ofNat]
  omega

theorem sitofp_ind (x y : BitVec 32) :
    FloatOps.sitofp (F := Ideal) .f32 ((IntOp.cmpi .eq x y).setWidth 32) = ind (x = y) := by
  unfold IntOp.cmpi ind
  show (((BitVec.setWidth 32 (BitVec.ofBool (x == y))).toInt : ℝ) : EReal) = _
  by_cases h : x = y
  · subst h; simp
  · rw [if_neg h]
    have : (x == y) = false := by simpa using h
    rw [this]; simp

theorem pay4_left (v3 v5 : Vec Ideal S1024 .i32) (e : Fin 1024) :
    k1_pay4 v3 v5 (ix1 (⟨e.val, by have := e.isLt; omega⟩ : Fin 2048)) = v3 (ix1 e) := by
  unfold k1_pay4
  refine (concatenate_pair_apply_left (0 : Fin S2048.rank) _ _ concatenates_S1024_S1024_S2048_d0 _ rfl (ix1 e) (fun a => ?_)).trans ?_
  · match a with
    | ⟨0, _⟩ => rfl
  · rw [shapeCast_self]

theorem pay4_right (v3 v5 : Vec Ideal S1024 .i32) (e : Fin 1024) :
    k1_pay4 v3 v5 (ix1 (⟨1024 + e.val, by have := e.isLt; omega⟩ : Fin 2048)) = v5 (ix1 e) := by
  unfold k1_pay4
  refine (concatenate_pair_apply_right (0 : Fin S2048.rank) _ _ concatenates_S1024_S1024_S2048_d0 _ rfl rfl (ix1 e) (fun a ha => ?_) ?_).trans ?_
  · match a with
    | ⟨0, _⟩ => exact absurd rfl ha
  · show e.val + 1024 = 1024 + e.val
    omega
  · rw [shapeCast_self]

theorem lhs_0 (i : S64x2048.Idx) (q : dot_S64x1024_S1024x2048_S64x2048_1_0_0_1_n_n.contr.Idx) :
    (dot_S64x1024_S1024x2048_S64x2048_1_0_0_1_n_n.lhsIdx i q 0).val = (i 0).val := by
  unfold DotDims.lhsIdx
  rw [dif_neg (show ¬(0 : Fin S64x1024.rank) ∈ dot_S64x1024_S1024x2048_S64x2048_1_0_0_1_n_n.lhsBatch by decide), dif_pos (show (0 : Fin S64x1024.rank) ∈ dot_S64x1024_S1024x2048_S64x2048_1_0_0_1_n_n.lhsNonContracting by decide)]
  rfl

theorem lhs_1 (i : S64x2048.Idx) (q : dot_S64x1024_S1024x2048_S64x2048_1_0_0_1_n_n.contr.Idx) :
    (dot_S64x1024_S1024x2048_S64x2048_1_0_0_1_n_n.lhsIdx i q 1).val = (q ⟨0, by decide⟩).val :=
  dot_S64x1024_S1024x2048_S64x2048_1_0_0_1_n_n.lhsIdx_val_of_single rfl i q

theorem rhs_0 (i : S64x2048.Idx) (q : dot_S64x1024_S1024x2048_S64x2048_1_0_0_1_n_n.contr.Idx) :
    (dot_S64x1024_S1024x2048_S64x2048_1_0_0_1_n_n.rhsIdx i q 0).val = (q ⟨0, by decide⟩).val :=
  dot_S64x1024_S1024x2048_S64x2048_1_0_0_1_n_n.rhsIdx_val_of_single rfl i q

theorem rhs_1 (i : S64x2048.Idx) (q : dot_S64x1024_S1024x2048_S64x2048_1_0_0_1_n_n.contr.Idx) :
    (dot_S64x1024_S1024x2048_S64x2048_1_0_0_1_n_n.rhsIdx i q 1).val = (i 1).val := by
  unfold DotDims.rhsIdx
  rw [dif_neg (show ¬(1 : Fin S1024x2048.rank) ∈ dot_S64x1024_S1024x2048_S64x2048_1_0_0_1_n_n.rhsBatch by decide), dif_pos (show (1 : Fin S1024x2048.rank) ∈ dot_S64x1024_S1024x2048_S64x2048_1_0_0_1_n_n.rhsNonContracting by decide)]
  rfl

theorem pay7_apply (v3 v5 : Vec Ideal S1024 .i32) (k : Fin k1_t1_loop.trips) (w : Vec Ideal S64x1024 .f32)
    (b : Fin 64) (j : Fin 2048) :
    k1_pay7 v3 v5 k w (ix2 b j)
      = ∑ n' : Fin 1024, w (ix2 b n') * ind (BitVec.ofNat 32 (1024 * k.val + n'.val) = k1_pay4 v3 v5 (ix1 j)) := by
  unfold k1_pay7
  dsimp only
  refine (Ideal.matmul_constant_zero_apply dot_S64x1024_S1024x2048_S64x2048_1_0_0_1_n_n none _ _ (ix2 b j)).trans ?_
  rw [← Equiv.sum_comp (contrEquiv1 dot_S64x1024_S1024x2048_S64x2048_1_0_0_1_n_n 1024 rfl rfl).symm]
  refine Finset.sum_congr rfl fun n' _ => ?_
  have hk := contrEquiv1_symm_val dot_S64x1024_S1024x2048_S64x2048_1_0_0_1_n_n 1024 rfl rfl n'
  have el : dot_S64x1024_S1024x2048_S64x2048_1_0_0_1_n_n.lhsIdx (ix2 b j) ((contrEquiv1 dot_S64x1024_S1024x2048_S64x2048_1_0_0_1_n_n 1024 rfl rfl).symm n') = ix2 b n' := funext fun a => Fin.ext (by
    match a with
    | ⟨0, _⟩ => exact lhs_0 _ _
    | ⟨1, _⟩ => exact (lhs_1 _ _).trans hk)
  have er : dot_S64x1024_S1024x2048_S64x2048_1_0_0_1_n_n.rhsIdx (ix2 b j) ((contrEquiv1 dot_S64x1024_S1024x2048_S64x2048_1_0_0_1_n_n 1024 rfl rfl).symm n') = ix2 n' j := funext fun a => Fin.ext (by
    match a with
    | ⟨0, _⟩ => exact (rhs_0 _ _).trans hk
    | ⟨1, _⟩ => exact rhs_1 _ _)
  rw [el, er]
  have h1 : broadcastTo S1024x2048
        (addi (broadcast S1024x1 (Scalar.muli (Scf.iv 0#32 1#32 ↑k) 1024#32)) (iota Kind.tc S1024x1 32 [0] iota_S1024x1_d0_w32))
        broadcasts_S1024x1_S1024x2048 (ix2 n' j) = BitVec.ofNat 32 (1024 * k.val + n'.val) := by
    refine (broadcastTo_apply _ broadcasts_S1024x1_S1024x2048 (ix2 n' j) (ix2 n' (0 : Fin 1)) (fun a => ?_)).trans ?_
    · match a with
      | ⟨0, _⟩ => rfl
      | ⟨1, _⟩ => rfl
    · show IntOp.addi (Scalar.muli (Scf.iv 0#32 1#32 ↑k) 1024#32) (iota Kind.tc S1024x1 32 [0] iota_S1024x1_d0_w32 (ix2 n' 0)) = _
      rw [iota_single_apply]
      exact entity_word k.val n'.val
  have h2 : broadcastTo S1024x2048 (shapeCast S1x2048 (k1_pay4 v3 v5) shapeCasts_S2048_S1x2048)
        broadcasts_S1x2048_S1024x2048 (ix2 n' j) = k1_pay4 v3 v5 (ix1 j) := by
    rw [broadcastTo_1b_ab_apply, shapeCast_a_1a_apply]
  rw [truncf_apply, truncf_apply, shapeCast_self, sitofp_apply, extui_apply]
  simp only [cmpi]
  rw [h1, h2, sitofp_ind]

theorem pay8_apply (v3 v5 : Vec Ideal S1024 .i32) (k : Fin k1_t1_loop.trips) (a : FVec Ideal S64x1024 .f32) (w : Vec Ideal S64x1024 .f32)
    (b : Fin 64) (e : Fin 1024) :
    k1_pay8 v3 v5 k a w (ix2 b e)
      = a (ix2 b e) + ∑ n' : Fin 1024, w (ix2 b n') * ind (BitVec.ofNat 32 (1024 * k.val + n'.val) = v3 (ix1 e)) := by
  unfold k1_pay8
  rw [addf_apply]
  refine congrArg (a (ix2 b e) + ·) ?_
  refine (extractStridedSlice_apply ![0, 0] _ slices_S64x2048_o0_0_S64x1024 (ix2 b e)
    (ix2 b (⟨e.val, by have := e.isLt; omega⟩ : Fin 2048)) (fun ax => ?_)).trans ?_
  · match ax with
    | ⟨0, _⟩ => show b.val = 0 + b.val; omega
    | ⟨1, _⟩ => show e.val = 0 + e.val; omega
  · rw [pay7_apply, pay4_left]

theorem pay9_apply (v3 v5 : Vec Ideal S1024 .i32) (k : Fin k1_t1_loop.trips) (a : FVec Ideal S64x1024 .f32) (w : Vec Ideal S64x1024 .f32)
    (b : Fin 64) (e : Fin 1024) :
    k1_pay9 v3 v5 k a w (ix2 b e)
      = a (ix2 b e) + ∑ n' : Fin 1024, w (ix2 b n') * ind (BitVec.ofNat 32 (1024 * k.val + n'.val) = v5 (ix1 e)) := by
  unfold k1_pay9
  rw [addf_apply]
  refine congrArg (a (ix2 b e) + ·) ?_
  refine (extractStridedSlice_apply ![0, 1024] _ slices_S64x2048_o0_1024_S64x1024 (ix2 b e)
    (ix2 b (⟨1024 + e.val, by have := e.isLt; omega⟩ : Fin 2048)) (fun ax => ?_)).trans ?_
  · match ax with
    | ⟨0, _⟩ => show b.val = 0 + b.val; omega
    | ⟨1, _⟩ => show 1024 + e.val = 1024 + e.val; rfl
  · rw [pay7_apply, pay4_right]

def term (x7 : Vec Ideal S64x40960 .f32) (b : Fin 64) (id : BitVec 32) (m : ℕ) : EReal :=
  if h : m < 40960 then x7 (ix2 b ⟨m, h⟩) * ind (BitVec.ofNat 32 m = id) else 0

theorem gath_eq_range (x7 : Vec Ideal S64x40960 .f32) (b : Fin 64) (id : BitVec 32) :
    gath x7 b id = ∑ m ∈ Finset.range 40960, term x7 b id m := by
  unfold gath
  rw [← Fin.sum_univ_eq_sum_range (term x7 b id) 40960]
  refine Finset.sum_congr rfl fun n _ => ?_
  unfold term
  rw [dif_pos n.isLt]

theorem trip_sum (x7 : Vec Ideal S64x40960 .f32) (w : Vec Ideal S64x1024 .f32) (k : Fin k1_t1_loop.trips) (b : Fin 64) (id : BitVec 32)
    (hw : ∀ n' : Fin 1024, w (ix2 b n') = x7 (ix2 b ⟨1024 * k.val + n'.val, by have := trips_lt k; have := n'.isLt; omega⟩)) :
    ∑ n' : Fin 1024, w (ix2 b n') * ind (BitVec.ofNat 32 (1024 * k.val + n'.val) = id)
      = ∑ m ∈ Finset.range 1024, term x7 b id (1024 * k.val + m) := by
  rw [← Fin.sum_univ_eq_sum_range (fun m => term x7 b id (1024 * k.val + m)) 1024]
  refine Finset.sum_congr rfl fun n' _ => ?_
  unfold term
  rw [dif_pos (by have := trips_lt k; have := n'.isLt; omega), hw]

theorem trips_eq : k1_t1_loop.trips = 40 := by decide

theorem partial_sums (arg8 : Memref sig .tc .vmem S64x40960 .f32) (X : BufTy.Contents (Elt Ideal) arg8.view.ty)
    (v3 v5 : Vec Ideal S1024 .i32) (x7 : Vec Ideal S64x40960 .f32) (hX : arg8.view.read (Elt Ideal) X = x7)
    (S : ℕ → FVec Ideal S64x1024 .f32 × FVec Ideal S64x1024 .f32)
    (h0 : S 0 = (k1_pay5 (F := Ideal), k1_pay6 (F := Ideal)))
    (hs : ∀ k : Fin k1_t1_loop.trips,
      S (k.val + 1) = (k1_pay8 v3 v5 k (S k.val).1 (blk arg8 X k), k1_pay9 v3 v5 k (S k.val).2 (blk arg8 X k)))
    (b : Fin 64) (e : Fin 1024) :
    ∀ n : ℕ, n ≤ 40 →
      (S n).1 (ix2 b e) = ∑ m ∈ Finset.range (1024 * n), term x7 b (v3 (ix1 e)) m
      ∧ (S n).2 (ix2 b e) = ∑ m ∈ Finset.range (1024 * n), term x7 b (v5 (ix1 e)) m := by
  intro n
  induction n with
  | zero =>
    intro _
    rw [h0]
    refine ⟨?_, ?_⟩
    · show Ideal.ofBits .f32 0x00000000#32 = _
      rw [Ideal.ofBits_zero_f32, Nat.mul_zero, Finset.range_zero, Finset.sum_empty]
    · show Ideal.ofBits .f32 0x00000000#32 = _
      rw [Ideal.ofBits_zero_f32, Nat.mul_zero, Finset.range_zero, Finset.sum_empty]
  | succ n ih =>
    intro h
    have hn : n < k1_t1_loop.trips := by rw [trips_eq]; omega
    obtain ⟨ih1, ih2⟩ := ih (by omega)
    have hstep := hs ⟨n, hn⟩
    have hblk := fun n' : Fin 1024 => blk_apply arg8 X x7 hX ⟨n, hn⟩ b n'
    refine ⟨?_, ?_⟩
    · rw [show S (n + 1) = _ from hstep]
      show k1_pay8 v3 v5 ⟨n, hn⟩ (S n).1 (blk arg8 X ⟨n, hn⟩) (ix2 b e) = _
      rw [pay8_apply, ih1, trip_sum x7 _ ⟨n, hn⟩ b _ hblk, Nat.mul_succ, Finset.sum_range_add]
    · rw [show S (n + 1) = _ from hstep]
      show k1_pay9 v3 v5 ⟨n, hn⟩ (S n).2 (blk arg8 X ⟨n, hn⟩) (ix2 b e) = _
      rw [pay9_apply, ih2, trip_sum x7 _ ⟨n, hn⟩ b _ hblk, Nat.mul_succ, Finset.sum_range_add]

-- After the 40 trips the two arrays hold, at (b, e), the memory's row b read at edge e's head and at its tail.
theorem gather_seq (arg8 : Memref sig .tc .vmem S64x40960 .f32) (X : BufTy.Contents (Elt Ideal) arg8.view.ty)
    (v3 v5 : Vec Ideal S1024 .i32) (x7 : Vec Ideal S64x40960 .f32) (hX : arg8.view.read (Elt Ideal) X = x7)
    (S : ℕ → FVec Ideal S64x1024 .f32 × FVec Ideal S64x1024 .f32)
    (h0 : S 0 = (k1_pay5 (F := Ideal), k1_pay6 (F := Ideal)))
    (hs : ∀ k : Fin k1_t1_loop.trips,
      S (k.val + 1) = (k1_pay8 v3 v5 k (S k.val).1 (blk arg8 X k), k1_pay9 v3 v5 k (S k.val).2 (blk arg8 X k)))
    (b : Fin 64) (e : Fin 1024) :
    (S 40).1 (ix2 b e) = gath x7 b (v3 (ix1 e)) ∧ (S 40).2 (ix2 b e) = gath x7 b (v5 (ix1 e)) := by
  rw [gath_eq_range, gath_eq_range]
  exact partial_sums arg8 X v3 v5 x7 hX S h0 hs b e 40 (Nat.le_refl 40)

end Cert.KernelIdeal.StepGather

end
-- ==== Proof.StepScatter.lean ====
/-
  The scatter loop of the message-passing step, over the extended reals. Trip k reads the block of columns
  [1024k, 1024k + 1024) of the accumulator [64, 40960], adds to it the combined messages [64, 2048] contracted, over their
  2048 axis, with the indicator "entity 1024k + n' is id j", and writes the block back. The blocks are disjoint, so after
  the 40 trips column n of row b holds what it held at entry plus the sum over the 2048 ids j of message (b, j) times the
  indicator "n is id j". Stated for any sequence of written pieces that advances by the trip's one piece.
-/
import proofs.«408331_j31499290149149_3_alg».proof.Proof.StepGather
import Idealize.ShloMosaic.Lib.WritesUnit

noncomputable section

namespace Cert.KernelIdeal.StepScatter

open Cert.KernelIdeal Cert.KernelIdeal.Gen Cert.MsgSpec Idealize.ShloMosaic Idealize.ShloMosaic.ValueIdx
open scoped BigOperators

abbrev Dsc := dot_S64x2048_S1024x2048_S64x1024_1_1_0_0_n_n

def blockAt (arg9 : Memref sig .tc .vmem S64x40960 .f32) (k : Fin k1_t2_loop.trips)
    (f : BufTy.Contents (Elt Ideal) arg9.view.ty) : Vec Ideal S64x1024 .f32 :=
  View.readAt (Elt Ideal) arg9.view (Rect.unit (s := S64x40960) (k1_off2 k) S64x1024.size (k1_off2_inb k)).toLoadRect f

theorem blockAt_apply (arg9 : Memref sig .tc .vmem S64x40960 .f32) (k : Fin k1_t2_loop.trips)
    (f : BufTy.Contents (Elt Ideal) arg9.view.ty) (b : Fin 64) (n' : Fin 1024) (n : Fin 40960) (hn : n.val = 1024 * k.val + n'.val) :
    blockAt arg9 k f (ix2 b n') = arg9.view.read (Elt Ideal) f (ix2 b n) := by
  unfold blockAt
  refine (View.readAt_apply _ _ _).trans ?_
  refine congrArg (arg9.view.read (Elt Ideal) f) (funext fun a => Fin.ext ?_)
  match a with
  | ⟨0, _⟩ =>
    show k1_off2 k 0 + 1 * b.val = b.val
    rw [k1_off2_eq]; simp
  | ⟨1, _⟩ =>
    show k1_off2 k 1 + 1 * n'.val = n.val
    rw [k1_off2_eq, hn]; simp

theorem lhs_0 (j : S64x1024.Idx) (q : Dsc.contr.Idx) : (Dsc.lhsIdx j q 0 : ℕ) = j 0 := by
  simp [DotDims.lhsIdx, Dsc, dot_S64x2048_S1024x2048_S64x1024_1_1_0_0_n_n]; rfl
theorem lhs_1 (j : S64x1024.Idx) (q : Dsc.contr.Idx) : (Dsc.lhsIdx j q 1 : ℕ) = q ⟨0, by decide⟩ := by
  simp [DotDims.lhsIdx, Dsc, dot_S64x2048_S1024x2048_S64x1024_1_1_0_0_n_n]; rfl
theorem rhs_0 (j : S64x1024.Idx) (q : Dsc.contr.Idx) : (Dsc.rhsIdx j q 0 : ℕ) = j 1 := by
  simp [DotDims.rhsIdx, Dsc, dot_S64x2048_S1024x2048_S64x1024_1_1_0_0_n_n]; rfl
theorem rhs_1 (j : S64x1024.Idx) (q : Dsc.contr.Idx) : (Dsc.rhsIdx j q 1 : ℕ) = q ⟨0, by decide⟩ := by
  simp [DotDims.rhsIdx, Dsc, dot_S64x2048_S1024x2048_S64x1024_1_1_0_0_n_n]; rfl

theorem bcast_col {α : Type} (v : S1024x1.Idx → α) (p : Fin 1024) (c : Fin 2048) :
    broadcastTo S1024x2048 v broadcasts_S1024x1_S1024x2048 (ix2 p c) = v (ix2 p (0 : Fin 1)) := by
  refine broadcastTo_apply v _ (ix2 p c) (ix2 p (0 : Fin 1)) fun ax => ?_
  match ax with
  | ⟨0, _⟩ => rfl
  | ⟨1, _⟩ => rfl

theorem entity_word (k n' : ℕ) :
    Scalar.muli (Scalar.addi 0#32 (Scalar.muli (Scf.iv 0#32 1#32 k) 1#32)) 1024#32 + BitVec.ofNat 32 n'
      = BitVec.ofNat 32 (1024 * k + n') := by
  simp only [Scalar.muli, Scalar.addi, IntOp.muli, IntOp.addi, Scf.iv, BitVec.zero_add, BitVec.mul_one]
  rw [BitVec.ofNat_add, BitVec.ofNat_mul, BitVec.mul_comm]

theorem tile_apply (v11 : IVec S2048 32) (w : BitVec 32) (n' : Fin 1024) (j : Fin 2048) :
    (truncf .bf16 (sitofp (F := Ideal) .f32 (extui 32 (cmpi .eq
        (broadcastTo S1024x2048 (addi (broadcast S1024x1 w) (iota .tc S1024x1 32 [0] iota_S1024x1_d0_w32)) broadcasts_S1024x1_S1024x2048)
        (broadcastTo S1024x2048 (shapeCast S1x2048 v11 shapeCasts_S2048_S1x2048) broadcasts_S1x2048_S1024x2048)) natLt_1_32)) bitsLt_bf16_f32 : FVec Ideal S1024x2048 .bf16) (ix2 n' j)
      = ind (w + BitVec.ofNat 32 n'.val = v11 (ix1 j)) := by
  show FloatOps.sitofp (F := Ideal) .f32 ((IntOp.cmpi .eq
      (broadcastTo S1024x2048 (addi (broadcast S1024x1 w) (iota .tc S1024x1 32 [0] iota_S1024x1_d0_w32)) broadcasts_S1024x1_S1024x2048 (ix2 n' j))
      (broadcastTo S1024x2048 (shapeCast S1x2048 v11 shapeCasts_S2048_S1x2048) broadcasts_S1x2048_S1024x2048 (ix2 n' j))).setWidth 32) = _
  rw [bcast_col, broadcastTo_1b_ab_apply, shapeCast_a_1a_apply, StepGather.sitofp_ind]
  show ind (w + iota .tc S1024x1 32 [0] iota_S1024x1_d0_w32 (ix2 n' (0 : Fin 1)) = _) = _
  rw [iota_single_apply]

theorem pay1_apply (v11 : IVec S2048 32) (v38 : FVec Ideal S64x2048 .bf16) (k : Fin k1_t2_loop.trips)
    (blk : Vec Ideal S64x1024 .f32) (b : Fin 64) (n' : Fin 1024) :
    k1_pay1 v11 v38 0#32 k blk (ix2 b n')
      = blk (ix2 b n') + ∑ j : Fin 2048, v38 (ix2 b j) * ind (BitVec.ofNat 32 (1024 * k.val + n'.val) = v11 (ix1 j)) := by
  unfold k1_pay1
  dsimp only
  refine (addf_apply _ _ _).trans ?_
  refine congrArg₂ (· + ·) (congrFun (shapeCast_self blk _) _) ?_
  refine (Ideal.matmul_constant_zero_apply Dsc none v38 _ (ix2 b n')).trans ?_
  refine ((Equiv.sum_comp (contrEquiv1 Dsc 2048 rfl rfl).symm _).symm).trans ?_
  refine Finset.sum_congr rfl fun j _ => ?_
  have hl : Dsc.lhsIdx (ix2 b n') ((contrEquiv1 Dsc 2048 rfl rfl).symm j) = ix2 b j :=
    Shape.idx_ext₂ (lhs_0 _ _) ((lhs_1 _ _).trans (contrEquiv1_symm_val Dsc 2048 rfl rfl j))
  have hr : Dsc.rhsIdx (ix2 b n') ((contrEquiv1 Dsc 2048 rfl rfl).symm j) = ix2 n' j :=
    Shape.idx_ext₂ (rhs_0 _ _) ((rhs_1 _ _).trans (contrEquiv1_symm_val Dsc 2048 rfl rfl j))
  rw [hl, hr, tile_apply, entity_word]

theorem trips_eq : k1_t2_loop.trips = 40 := by decide +kernel

def scat (v11 : IVec S2048 32) (v38 : FVec Ideal S64x2048 .bf16) (b : Fin 64) (n : ℕ) : EReal :=
  ∑ j : Fin 2048, v38 (ix2 b j) * ind (BitVec.ofNat 32 n = v11 (ix1 j))

-- After k trips the columns below 1024k have received their messages; the others are as at loop entry.
theorem scatter_inv (arg9 : Memref sig .tc .vmem S64x40960 .f32) (v11 : IVec S2048 32) (v38 : FVec Ideal S64x2048 .bf16)
    (G : BufTy.Contents (Elt Ideal) arg9.view.ty) (g : Vec Ideal S64x40960 .f32) (hG : arg9.view.read (Elt Ideal) G = g)
    (P : ℕ → List (View.Piece (Elt Ideal) S64x40960 .f32)) (hP0 : P 0 = [])
    (hPs : ∀ k : Fin k1_t2_loop.trips, P (k.val + 1)
      = ⟨Rect.unit (s := S64x40960) (k1_off2 k) S64x1024.size (k1_off2_inb k), k1_pay1 v11 v38 0#32 k (blockAt arg9 k (arg9.view.writes (Elt Ideal) G (P k.val)))⟩ :: P k.val) :
    ∀ k : ℕ, k ≤ 40 → ∀ (b : Fin 64) (n : Fin 40960),
      arg9.view.read (Elt Ideal) (arg9.view.writes (Elt Ideal) G (P k)) (ix2 b n)
        = if n.val < 1024 * k then g (ix2 b n) + scat v11 v38 b n.val else g (ix2 b n) := by
  intro k
  induction k with
  | zero =>
    intro _ b n
    rw [if_neg (by omega), hP0]
    show arg9.view.read (Elt Ideal) G (ix2 b n) = _
    rw [hG]
  | succ k ih =>
    intro hk b n
    have hk' : k < k1_t2_loop.trips := by rw [trips_eq]; omega
    have ih' := ih (by omega) b n
    have hs : P (k + 1) = ⟨Rect.unit (s := S64x40960) (k1_off2 ⟨k, hk'⟩) S64x1024.size (k1_off2_inb ⟨k, hk'⟩),
        k1_pay1 v11 v38 0#32 ⟨k, hk'⟩ (blockAt arg9 ⟨k, hk'⟩ (arg9.view.writes (Elt Ideal) G (P k)))⟩ :: P k := hPs ⟨k, hk'⟩
    rw [hs]
    by_cases hin : 1024 * k ≤ n.val ∧ n.val < 1024 * k + 1024
    · obtain ⟨h1, h2⟩ := hin
      rw [View.read_writes_cons_unit_of_mem arg9.view G (k1_off2_inb ⟨k, hk'⟩) _ _ (ix2 b n)
        (ix2 b (⟨n.val - 1024 * k, by omega⟩ : Fin 1024)) (k1_off2_eq ⟨k, hk'⟩) (fun a => by
          match a with
          | ⟨0, _⟩ => show b.val = 0 + b.val; omega
          | ⟨1, _⟩ => show n.val = 1024 * k + (n.val - 1024 * k); omega)]
      rw [pay1_apply, blockAt_apply arg9 ⟨k, hk'⟩ _ b _ n (by show n.val = 1024 * k + (n.val - 1024 * k); omega), ih',
        if_neg (by omega), if_pos (by omega)]
      unfold scat
      rw [show 1024 * (⟨k, hk'⟩ : Fin k1_t2_loop.trips).val + (⟨n.val - 1024 * k, by omega⟩ : Fin 1024).val = n.val from by
        show 1024 * k + (n.val - 1024 * k) = n.val; omega]
    · rw [View.read_writes_cons_unit_of_not_mem arg9.view G (k1_off2_inb ⟨k, hk'⟩) _ _ (ix2 b n) (k1_off2_eq ⟨k, hk'⟩) 1 (by
        show n.val < 1024 * k ∨ 1024 * k + 1024 ≤ n.val; omega), ih']
      by_cases h0 : n.val < 1024 * k
      · rw [if_pos h0, if_pos (by omega)]
      · rw [if_neg h0, if_neg (by omega)]

-- After the whole loop every column has received the messages whose destination it is.
theorem scatter_seq (arg9 : Memref sig .tc .vmem S64x40960 .f32) (v11 : IVec S2048 32) (v38 : FVec Ideal S64x2048 .bf16)
    (G : BufTy.Contents (Elt Ideal) arg9.view.ty) (g : Vec Ideal S64x40960 .f32) (hG : arg9.view.read (Elt Ideal) G = g)
    (P : ℕ → List (View.Piece (Elt Ideal) S64x40960 .f32)) (hP0 : P 0 = [])
    (hPs : ∀ k : Fin k1_t2_loop.trips, P (k.val + 1)
      = ⟨Rect.unit (s := S64x40960) (k1_off2 k) S64x1024.size (k1_off2_inb k), k1_pay1 v11 v38 0#32 k (blockAt arg9 k (arg9.view.writes (Elt Ideal) G (P k.val)))⟩ :: P k.val)
    (b : Fin 64) (n : Fin 40960) :
    arg9.view.read (Elt Ideal) (arg9.view.writes (Elt Ideal) G (P 40)) (ix2 b n)
      = g (ix2 b n) + ∑ j : Fin 2048, v38 (ix2 b j) * ind (BitVec.ofNat 32 n.val = v11 (ix1 j)) := by
  rw [scatter_inv arg9 v11 v38 G g hG P hP0 hPs 40 (Nat.le_refl _) b n, if_pos (by have := n.isLt; omega)]
  rfl

theorem pay4_apply (v3 v5 : Vec Ideal S1024 .i32) (j : Fin 2048) :
    k1_pay4 (F := Ideal) v3 v5 (ix1 j) = if h : j.val < 1024 then v3 (ix1 ⟨j.val, h⟩) else v5 (ix1 ⟨j.val - 1024, by omega⟩) := by
  unfold k1_pay4
  rw [shapeCast_self, shapeCast_self]
  split
  · next h =>
    exact concatenate_pair_apply_left 0 v3 v5 _ (ix1 j) rfl (ix1 ⟨j.val, h⟩) (fun a => by
      match a with
      | ⟨0, _⟩ => rfl)
  · next h =>
    exact concatenate_pair_apply_right 0 v3 v5 _ (ix1 j) rfl rfl (ix1 ⟨j.val - 1024, by omega⟩) (fun a ha => by
      match a with
      | ⟨0, _⟩ => exact absurd rfl ha) (by show (j.val - 1024) + 1024 = j.val; omega)

theorem sum_halves (v3 v5 : Vec Ideal S1024 .i32) (v38 : FVec Ideal S64x2048 .bf16) (R Fw : Fin 64 → Fin 1024 → EReal)
    (b : Fin 64) (w : BitVec 32)
    (h38 : ∀ j : Fin 2048, v38 (ix2 b j) = if h : j.val < 1024 then R b ⟨j.val, h⟩ else Fw b ⟨j.val - 1024, by omega⟩) :
    (∑ j : Fin 2048, v38 (ix2 b j) * ind (w = k1_pay4 (F := Ideal) v3 v5 (ix1 j)))
      = (∑ e : Fin 1024, R b e * ind (w = v3 (ix1 e))) + (∑ e : Fin 1024, Fw b e * ind (w = v5 (ix1 e))) := by
  refine (Fin.sum_univ_add (a := 1024) (b := 1024)
    (fun j : Fin 2048 => v38 (ix2 b j) * ind (w = k1_pay4 (F := Ideal) v3 v5 (ix1 j)))).trans ?_
  refine congrArg₂ (· + ·) (Finset.sum_congr rfl fun e _ => ?_) (Finset.sum_congr rfl fun e _ => ?_)
  · have hlt : (Fin.castAdd 1024 e : Fin 2048).val < 1024 := e.isLt
    show v38 (ix2 b (Fin.castAdd 1024 e)) * ind (w = k1_pay4 (F := Ideal) v3 v5 (ix1 (Fin.castAdd 1024 e))) = _
    rw [h38, pay4_apply, dif_pos hlt, dif_pos hlt]
    rfl
  · have hge : ¬ (Fin.natAdd 1024 e : Fin 2048).val < 1024 := by
      show ¬ 1024 + e.val < 1024; omega
    have he : ∀ p : (Fin.natAdd 1024 e : Fin 2048).val - 1024 < 1024,
        (⟨(Fin.natAdd 1024 e : Fin 2048).val - 1024, p⟩ : Fin 1024) = e := fun p =>
      Fin.ext (by show 1024 + e.val - 1024 = e.val; omega)
    show v38 (ix2 b (Fin.natAdd 1024 e)) * ind (w = k1_pay4 (F := Ideal) v3 v5 (ix1 (Fin.natAdd 1024 e))) = _
    rw [h38, pay4_apply, dif_neg hge, dif_neg hge, he]

end Cert.KernelIdeal.StepScatter

end
-- ==== Proof.StepCases.lean ====
/-
  The message-passing step at one grid point, over the extended reals. A point handles one tile of 1024 edges (heads x0,
  tails x1, relations x2, confidences x3) against the memory x7 [64, 40960] and the two attention blocks x4, x5 [64, 24].
  It reads, for every edge, the memory's row at the edge's head and at its tail, multiplies each by the edge's confidence
  and by the attention read at the edge's relation, and adds to every column n of the output block the messages whose
  destination is n: reverse messages land on the heads, forward messages on the tails. The first point starts from zero,
  a middle point from what it finds, and the last point also adds the memory times the self-loop weight of the row.
  The mathematics is stated once; each of the three step kernels instantiates it with its own loops.
-/
import proofs.«408331_j31499290149149_3_alg».proof.Proof.FrameKI
import proofs.«408331_j31499290149149_3_alg».proof.Proof.StepScatter
import Idealize.ShloMosaic.Lib.Tactic

noncomputable section

namespace Cert.KernelIdeal.StepCases

open Cert.KernelIdeal Cert.KernelIdeal.Gen Cert.KernelIdeal.GenP Cert.MsgSpec Idealize.ShloMosaic Idealize.ShloMosaic.ValueIdx
open scoped BigOperators

theorem att_lhs_0 (i : S64x1024.Idx) (q : dot_S64x24_S24x1024_S64x1024_1_0_0_1_n_n.contr.Idx) :
    (dot_S64x24_S24x1024_S64x1024_1_0_0_1_n_n.lhsIdx i q 0).val = (i 0).val := by
  unfold DotDims.lhsIdx
  rw [dif_neg (show ¬(0 : Fin S64x24.rank) ∈ dot_S64x24_S24x1024_S64x1024_1_0_0_1_n_n.lhsBatch by decide), dif_pos (show (0 : Fin S64x24.rank) ∈ dot_S64x24_S24x1024_S64x1024_1_0_0_1_n_n.lhsNonContracting by decide)]
  rfl

theorem att_lhs_1 (i : S64x1024.Idx) (q : dot_S64x24_S24x1024_S64x1024_1_0_0_1_n_n.contr.Idx) :
    (dot_S64x24_S24x1024_S64x1024_1_0_0_1_n_n.lhsIdx i q 1).val = (q ⟨0, by decide⟩).val :=
  dot_S64x24_S24x1024_S64x1024_1_0_0_1_n_n.lhsIdx_val_of_single rfl i q

theorem att_rhs_0 (i : S64x1024.Idx) (q : dot_S64x24_S24x1024_S64x1024_1_0_0_1_n_n.contr.Idx) :
    (dot_S64x24_S24x1024_S64x1024_1_0_0_1_n_n.rhsIdx i q 0).val = (q ⟨0, by decide⟩).val :=
  dot_S64x24_S24x1024_S64x1024_1_0_0_1_n_n.rhsIdx_val_of_single rfl i q

theorem att_rhs_1 (i : S64x1024.Idx) (q : dot_S64x24_S24x1024_S64x1024_1_0_0_1_n_n.contr.Idx) :
    (dot_S64x24_S24x1024_S64x1024_1_0_0_1_n_n.rhsIdx i q 1).val = (i 1).val := by
  unfold DotDims.rhsIdx
  rw [dif_neg (show ¬(1 : Fin S24x1024.rank) ∈ dot_S64x24_S24x1024_S64x1024_1_0_0_1_n_n.rhsBatch by decide), dif_pos (show (1 : Fin S24x1024.rank) ∈ dot_S64x24_S24x1024_S64x1024_1_0_0_1_n_n.rhsNonContracting by decide)]
  rfl

theorem rel_tile_apply (v7 : Vec Ideal S1024 .i32) (ρ : Fin 24) (e : Fin 1024) :
    (sitofp (F := Ideal) .f32 (extui 32 (cmpi .eq (iota .tc S24x1024 32 [0] iota_S24x1024_d0_w32)
        (broadcastTo S24x1024 (shapeCast S1x1024 (shapeCast S1024 v7 shapeCasts_S1024_S1024) shapeCasts_S1024_S1x1024) broadcasts_S1x1024_S24x1024)) natLt_1_32) : FVec Ideal S24x1024 .f32) (ix2 ρ e)
      = ind (BitVec.ofNat 32 ρ.val = v7 (ix1 e)) := by
  show FloatOps.sitofp (F := Ideal) .f32 ((IntOp.cmpi .eq
      (iota .tc S24x1024 32 [0] iota_S24x1024_d0_w32 (ix2 ρ e))
      (broadcastTo S24x1024 (shapeCast S1x1024 (shapeCast S1024 v7 shapeCasts_S1024_S1024) shapeCasts_S1024_S1x1024) broadcasts_S1x1024_S24x1024 (ix2 ρ e))).setWidth 32) = _
  rw [broadcastTo_1b_ab_apply, shapeCast_a_1a_apply, shapeCast_self, iota_single_apply, StepGather.sitofp_ind]

theorem attn_apply (a : FVec Ideal S64x24 .f32) (v7 : Vec Ideal S1024 .i32) (b : Fin 64) (e : Fin 1024) :
    (matmul dot_S64x24_S24x1024_S64x1024_1_0_0_1_n_n (some .fp32) (shapeCast S64x24 a shapeCasts_S64x24_S64x24)
      (sitofp (F := Ideal) .f32 (extui 32 (cmpi .eq (iota .tc S24x1024 32 [0] iota_S24x1024_d0_w32)
        (broadcastTo S24x1024 (shapeCast S1x1024 (shapeCast S1024 v7 shapeCasts_S1024_S1024) shapeCasts_S1024_S1x1024) broadcasts_S1x1024_S24x1024)) natLt_1_32))
      (constant (F := Ideal) S64x1024 .f32 0x00000000#32) : FVec Ideal S64x1024 .f32) (ix2 b e)
      = att a b (v7 (ix1 e)) := by
  refine (Ideal.matmul_constant_zero_apply dot_S64x24_S24x1024_S64x1024_1_0_0_1_n_n (some .fp32) _ _ (ix2 b e)).trans ?_
  rw [← Equiv.sum_comp (contrEquiv1 dot_S64x24_S24x1024_S64x1024_1_0_0_1_n_n 24 rfl rfl).symm]
  unfold att
  refine Finset.sum_congr rfl fun ρ _ => ?_
  have hk := contrEquiv1_symm_val dot_S64x24_S24x1024_S64x1024_1_0_0_1_n_n 24 rfl rfl ρ
  have el : dot_S64x24_S24x1024_S64x1024_1_0_0_1_n_n.lhsIdx (ix2 b e) ((contrEquiv1 dot_S64x24_S24x1024_S64x1024_1_0_0_1_n_n 24 rfl rfl).symm ρ) = ix2 b ρ := funext fun ax => Fin.ext (by
    match ax with
    | ⟨0, _⟩ => exact att_lhs_0 _ _
    | ⟨1, _⟩ => exact (att_lhs_1 _ _).trans hk)
  have er : dot_S64x24_S24x1024_S64x1024_1_0_0_1_n_n.rhsIdx (ix2 b e) ((contrEquiv1 dot_S64x24_S24x1024_S64x1024_1_0_0_1_n_n 24 rfl rfl).symm ρ) = ix2 ρ e := funext fun ax => Fin.ext (by
    match ax with
    | ⟨0, _⟩ => exact (att_rhs_0 _ _).trans hk
    | ⟨1, _⟩ => exact att_rhs_1 _ _)
  rw [el, er, rel_tile_apply, shapeCast_self]

theorem conf_apply (v9 : Vec Ideal S1024 .f32) (b : Fin 64) (e : Fin 1024) :
    (broadcastTo S64x1024 (shapeCast S1x1024 (shapeCast S1024 v9 shapeCasts_S1024_S1024) shapeCasts_S1024_S1x1024) broadcasts_S1x1024_S64x1024 : FVec Ideal S64x1024 .f32) (ix2 b e)
      = v9 (ix1 e) := by
  rw [broadcastTo_1b_ab_apply, shapeCast_a_1a_apply, shapeCast_self]

theorem pay10_apply (v7 : Vec Ideal S1024 .i32) (v9 : Vec Ideal S1024 .f32) (g0 g1 : FVec Ideal S64x1024 .f32)
    (v22 v24 : Vec Ideal S64x24 .f32) (b : Fin 64) (j : Fin 2048) :
    k1_pay10 v7 v9 g0 g1 v22 v24 (ix2 b j)
      = if h : j.val < 1024 then g1 (ix2 b ⟨j.val, h⟩) * v9 (ix1 ⟨j.val, h⟩) * att v24 b (v7 (ix1 ⟨j.val, h⟩))
        else g0 (ix2 b ⟨j.val - 1024, by omega⟩) * v9 (ix1 ⟨j.val - 1024, by omega⟩) * att v22 b (v7 (ix1 ⟨j.val - 1024, by omega⟩)) := by
  unfold k1_pay10
  dsimp only
  split
  · next h =>
    refine (concatenate_pair_apply_left (1 : Fin S64x2048.rank) _ _ concatenates_S64x1024_S64x1024_S64x2048_d1 (ix2 b j) rfl (ix2 b ⟨j.val, h⟩) (fun ax => ?_)).trans ?_
    · match ax with
      | ⟨0, _⟩ => rfl
      | ⟨1, _⟩ => rfl
    · rw [truncf_apply, mulf_apply, mulf_apply, conf_apply, attn_apply]
  · next h =>
    refine (concatenate_pair_apply_right (1 : Fin S64x2048.rank) _ _ concatenates_S64x1024_S64x1024_S64x2048_d1 (ix2 b j) rfl rfl (ix2 b ⟨j.val - 1024, by omega⟩) (fun ax hax => ?_) ?_).trans ?_
    · match ax with
      | ⟨0, _⟩ => rfl
      | ⟨1, _⟩ => exact absurd rfl hax
    · show (j.val - 1024) + 1024 = j.val; omega
    · rw [truncf_apply, mulf_apply, mulf_apply, conf_apply, attn_apply]

theorem self_apply (v47 : Vec Ideal S64x1 .f32) (b : Fin 64) (n : Fin 40960) :
    (broadcastTo S64x40960 (shapeCast S64x1 v47 shapeCasts_S64x1_S64x1) broadcasts_S64x1_S64x40960 : FVec Ideal S64x40960 .f32) (ix2 b n)
      = v47 (ix2 b (0 : Fin 1)) := by
  refine (broadcastTo_apply _ broadcasts_S64x1_S64x40960 (ix2 b n) (ix2 b (0 : Fin 1)) fun ax => ?_).trans ?_
  · match ax with
    | ⟨0, _⟩ => rfl
    | ⟨1, _⟩ => rfl
  · rw [shapeCast_self]

theorem pay2_apply (v43 v45 : Vec Ideal S64x40960 .f32) (v47 : Vec Ideal S64x1 .f32) (b : Fin 64) (n : Fin 40960) :
    k1_pay2 v43 v45 v47 (ix2 b n) = v43 (ix2 b n) + v45 (ix2 b n) * v47 (ix2 b (0 : Fin 1)) := by
  unfold k1_pay2
  rw [addf_apply, mulf_apply, self_apply, shapeCast_self, shapeCast_self]

theorem pay3_apply (j : S64x40960.Idx) : k1_pay3 (F := Ideal) j = 0 := by
  unfold k1_pay3
  show Ideal.ofBits .f32 0x00000000#32 = 0
  exact Ideal.ofBits_zero_f32

-- One tile's effect on the accumulator: after the scatter loop column n of row b holds what it held plus the tile's
-- contribution, the reverse messages landing on the heads and the forward messages on the tails.
theorem tile_value_seq (arg8 arg9 : Memref sig .tc .vmem S64x40960 .f32)
    (x0 x1 x2 : Vec Ideal S1024 .i32) (x3 : Vec Ideal S1024 .f32) (x4 x5 : Vec Ideal S64x24 .f32) (x7 : Vec Ideal S64x40960 .f32)
    (X : BufTy.Contents (Elt Ideal) arg8.view.ty) (hX : arg8.view.read (Elt Ideal) X = x7)
    (G : BufTy.Contents (Elt Ideal) arg9.view.ty) (g : Vec Ideal S64x40960 .f32) (hG : arg9.view.read (Elt Ideal) G = g)
    (S : ℕ → FVec Ideal S64x1024 .f32 × FVec Ideal S64x1024 .f32) (hS0 : S 0 = (k1_pay5 (F := Ideal), k1_pay6 (F := Ideal)))
    (hSs : ∀ k : Fin k1_t1_loop.trips, S (k.val + 1)
      = (k1_pay8 x0 x1 k (S k.val).1 (StepGather.blk arg8 X k), k1_pay9 x0 x1 k (S k.val).2 (StepGather.blk arg8 X k)))
    (P : ℕ → List (View.Piece (Elt Ideal) S64x40960 .f32)) (hP0 : P 0 = [])
    (hPs : ∀ k : Fin k1_t2_loop.trips, P (k.val + 1)
      = ⟨Rect.unit (s := S64x40960) (k1_off2 k) S64x1024.size (k1_off2_inb k),
          k1_pay1 (k1_pay4 (F := Ideal) x0 x1) (k1_pay10 x2 x3 (S 40).1 (S 40).2 x4 x5) 0#32 k
            (StepScatter.blockAt arg9 k (arg9.view.writes (Elt Ideal) G (P k.val)))⟩ :: P k.val)
    (b : Fin 64) (n : Fin 40960) :
    arg9.view.read (Elt Ideal) (arg9.view.writes (Elt Ideal) G (P 40)) (ix2 b n)
      = g (ix2 b n) + tileContrib x0 x1 x2 x3 x4 x5 x7 (ix2 b n) := by
  rw [StepScatter.scatter_seq arg9 _ _ G g hG P hP0 hPs b n]
  refine congrArg (g (ix2 b n) + ·) ?_
  refine (StepScatter.sum_halves x0 x1 _ (msgR x1 x2 x3 x5 x7) (msgF x0 x2 x3 x4 x7) b _ (fun j => ?_)).trans ?_
  · rw [pay10_apply]
    split
    · next h =>
      rw [(StepGather.gather_seq arg8 X x0 x1 x7 hX S hS0 hSs b ⟨j.val, h⟩).2]
      rfl
    · next h =>
      rw [(StepGather.gather_seq arg8 X x0 x1 x7 hX S hS0 hSs b ⟨j.val - 1024, by omega⟩).1]
      rfl
  · rfl

theorem hz1 : (![0] : Fin 1 → Nat) = fun _ => 0 := funext fun a => by fin_cases a; rfl
theorem hz2 : (![0, 0] : Fin 2 → Nat) = fun _ => 0 := funext fun a => by fin_cases a <;> rfl

theorem scatter_trips' : Scf.trips (0#32) (Scalar.addi 0#32 40#32) 1#32 = 40 := by decide +kernel

theorem read_whole_store (M : Memref sig .tc .vmem S64x40960 .f32) (f : BufTy.Contents (Elt Ideal) M.view.ty)
    (inb : ∀ a, (![0, 0] : Fin 2 → Nat) a + S64x40960.size a ≤ S64x40960.size a) (w : Vec Ideal S64x40960 .f32) :
    M.view.read (Elt Ideal) (M.view.writes (Elt Ideal) f [⟨Rect.unit (s := S64x40960) ![0, 0] S64x40960.size inb, w⟩]) = w :=
  (View.read_writes_eq_canon _ _ _ (fun y => ⟨_, List.mem_singleton_self _, View.mem_set_unit_zero hz2 inb y⟩)).trans
    (View.canon_unit_zero hz2 inb w)

section Regions
variable (𝒱 : Variants) (c : Dev nD) (bd : Option 𝒱.V) (arg1 : Memref sig .tc .vmem S1024 .i32) (harg1 : arg1.IsWhole) (arg2 : Memref sig .tc .vmem S1024 .i32) (harg2 : arg2.IsWhole) (arg3 : Memref sig .tc .vmem S1024 .i32) (harg3 : arg3.IsWhole) (arg4 : Memref sig .tc .vmem S1024 .f32) (harg4 : arg4.IsWhole) (arg5 : Memref sig .tc .vmem S64x24 .f32) (harg5 : arg5.IsWhole) (arg6 : Memref sig .tc .vmem S64x24 .f32) (harg6 : arg6.IsWhole) (arg7 : Memref sig .tc .vmem S64x1 .f32) (harg7 : arg7.IsWhole) (arg8 : Memref sig .tc .vmem S64x40960 .f32) (harg8 : arg8.IsWhole) (arg9 : Memref sig .tc .vmem S64x40960 .f32) (harg9 : arg9.IsWhole)

/-! ## Step kernel 1 -/

theorem gather_trips1 : Scf.trips k1_t1_loop.lb k1_t1_loop.ub k1_t1_loop.st = 40 := by decide +kernel
theorem scatter_trips1 : Scf.trips k1_t2_loop.lb k1_t2_loop.ub k1_t2_loop.st = 40 := by decide +kernel

theorem tile_value1 (i : grid1.Coords) (x0 x1 x2 : Vec Ideal S1024 .i32) (x3 : Vec Ideal S1024 .f32) (x4 x5 : Vec Ideal S64x24 .f32) (x7 : Vec Ideal S64x40960 .f32)
    (X : BufTy.Contents (Elt Ideal) arg8.view.ty) (hX : arg8.view.read (Elt Ideal) X = x7)
    (G : BufTy.Contents (Elt Ideal) arg9.view.ty) (g : Vec Ideal S64x40960 .f32) (hG : arg9.view.read (Elt Ideal) G = g)
    (b : Fin 64) (n : Fin 40960) :
    arg9.view.read (Elt Ideal) (arg9.view.writes (Elt Ideal) G (pb_k1_t2 (F := Ideal) 𝒱 c bd i arg1 harg1 arg2 harg2 arg3 harg3 arg4 harg4 arg5 harg5 arg6 harg6 arg7 harg7 arg8 harg8 arg9 harg9 (k1_pay4 (F := Ideal) x0 x1)
        (k1_pay10 x2 x3 (st_k1_t1 (F := Ideal) 𝒱 c bd i arg1 harg1 arg2 harg2 arg3 harg3 arg4 harg4 arg5 harg5 arg6 harg6 arg7 harg7 arg8 harg8 arg9 harg9 x0 x1 X (k1_pay5 (F := Ideal), k1_pay6 (F := Ideal)) 40).1 (st_k1_t1 (F := Ideal) 𝒱 c bd i arg1 harg1 arg2 harg2 arg3 harg3 arg4 harg4 arg5 harg5 arg6 harg6 arg7 harg7 arg8 harg8 arg9 harg9 x0 x1 X (k1_pay5 (F := Ideal), k1_pay6 (F := Ideal)) 40).2 x4 x5) 0#32 G 40)) (ix2 b n)
      = g (ix2 b n) + tileContrib x0 x1 x2 x3 x4 x5 x7 (ix2 b n) :=
  tile_value_seq arg8 arg9 x0 x1 x2 x3 x4 x5 x7 X hX G g hG
    (st_k1_t1 (F := Ideal) 𝒱 c bd i arg1 harg1 arg2 harg2 arg3 harg3 arg4 harg4 arg5 harg5 arg6 harg6 arg7 harg7 arg8 harg8 arg9 harg9 x0 x1 X (k1_pay5 (F := Ideal), k1_pay6 (F := Ideal))) rfl
    (fun k => (st_k1_t1_succ (F := Ideal) 𝒱 c bd i arg1 harg1 arg2 harg2 arg3 harg3 arg4 harg4 arg5 harg5 arg6 harg6 arg7 harg7 arg8 harg8 arg9 harg9 x0 x1 X _ k).trans (by unfold tripR_k1_t1 trip_k1_t1; rfl))
    (pb_k1_t2 (F := Ideal) 𝒱 c bd i arg1 harg1 arg2 harg2 arg3 harg3 arg4 harg4 arg5 harg5 arg6 harg6 arg7 harg7 arg8 harg8 arg9 harg9 _ _ 0#32 G) rfl
    (fun k => (pb_k1_t2_succ (F := Ideal) 𝒱 c bd i arg1 harg1 arg2 harg2 arg3 harg3 arg4 harg4 arg5 harg5 arg6 harg6 arg7 harg7 arg8 harg8 arg9 harg9 _ _ 0#32 G k).trans (by unfold tripL_k1_t2 trip_k1_t2; rfl)) b n

-- A middle point leaves what it found plus the tile's contribution.
theorem out1_B (i : grid1.Coords) (hc0 : ¬cond1_0 i) (hc1 : ¬cond1_1 i) (x0 x1 x2 : Vec Ideal S1024 .i32) (x3 : Vec Ideal S1024 .f32) (x4 x5 : Vec Ideal S64x24 .f32) (x6 : Vec Ideal S64x1 .f32) (x7 : Vec Ideal S64x40960 .f32) (xo8 : Vec Ideal S64x40960 .f32) :
    out1_B_8 (F := Ideal) c i arg1 harg1 arg2 harg2 arg3 harg3 arg4 harg4 arg5 harg5 arg6 harg6 arg7 harg7 arg8 harg8 arg9 harg9 hc0 hc1 x0 x1 x2 x3 x4 x5 x6 x7 xo8 = fun j => xo8 j + tileContrib x0 x1 x2 x3 x4 x5 x7 j := by
  unfold out1_B_8
  rw [View.read_writes_of_cover VO1_8 VO1_8.junk arg9.view (harg9.unread xo8) _
    (cover1_B_8 (F := Ideal) c i arg1 harg1 arg2 harg2 arg3 harg3 arg4 harg4 arg5 harg5 arg6 harg6 arg7 harg7 arg8 harg8 arg9 harg9 hc0 hc1 x0 x1 x2 x3 x4 x5 x6 x7 xo8)]
  unfold kernelRun1_B
  dsimp only
  sl_unfold_words
  simp only [View.readAt_eq_ld, harg1.read_unread, harg2.read_unread, harg3.read_unread, harg4.read_unread, harg5.read_unread, harg6.read_unread, harg7.read_unread, harg8.read_unread, View.ld_unit_zero (S := S1024) hz1, View.ld_unit_zero (S := S64x24) hz2,
    gather_trips1, scatter_trips1, scatter_trips']
  funext j
  obtain ⟨b, n, rfl⟩ : ∃ (b : Fin 64) (n : Fin 40960), j = ix2 b n := ⟨j 0, j 1, eq_ix2 j⟩
  exact tile_value1 Variants.none c none arg1 harg1 arg2 harg2 arg3 harg3 arg4 harg4 arg5 harg5 arg6 harg6 arg7 harg7 arg8 harg8 arg9 harg9 i x0 x1 x2 x3 x4 x5 x7 (harg8.unread x7) (harg8.read_unread x7)
    (harg9.unread xo8) xo8 (harg9.read_unread xo8) b n

-- The first point stores zero first, so it leaves zero plus the tile's contribution.
theorem out1_A (i : grid1.Coords) (hc0 : cond1_0 i) (hc1 : ¬cond1_1 i) (x0 x1 x2 : Vec Ideal S1024 .i32) (x3 : Vec Ideal S1024 .f32) (x4 x5 : Vec Ideal S64x24 .f32) (x6 : Vec Ideal S64x1 .f32) (x7 : Vec Ideal S64x40960 .f32) :
    out1_A_8 (F := Ideal) c i arg1 harg1 arg2 harg2 arg3 harg3 arg4 harg4 arg5 harg5 arg6 harg6 arg7 harg7 arg8 harg8 arg9 harg9 hc0 hc1 x0 x1 x2 x3 x4 x5 x6 x7 = fun j => (0 : EReal) + tileContrib x0 x1 x2 x3 x4 x5 x7 j := by
  unfold out1_A_8
  rw [View.read_writes_of_cover VO1_8 VO1_8.junk arg9.view arg9.view.junk _
    (cover1_A_8 (F := Ideal) c i arg1 harg1 arg2 harg2 arg3 harg3 arg4 harg4 arg5 harg5 arg6 harg6 arg7 harg7 arg8 harg8 arg9 harg9 hc0 hc1 x0 x1 x2 x3 x4 x5 x6 x7)]
  unfold kernelRun1_A
  dsimp only
  sl_unfold_words
  rw [View.writes_append]
  simp only [View.readAt_eq_ld, harg1.read_unread, harg2.read_unread, harg3.read_unread, harg4.read_unread, harg5.read_unread, harg6.read_unread, harg7.read_unread, harg8.read_unread, View.ld_unit_zero (S := S1024) hz1, View.ld_unit_zero (S := S64x24) hz2,
    gather_trips1, scatter_trips1, scatter_trips']
  funext j
  obtain ⟨b, n, rfl⟩ : ∃ (b : Fin 64) (n : Fin 40960), j = ix2 b n := ⟨j 0, j 1, eq_ix2 j⟩
  refine (tile_value1 Variants.none c none arg1 harg1 arg2 harg2 arg3 harg3 arg4 harg4 arg5 harg5 arg6 harg6 arg7 harg7 arg8 harg8 arg9 harg9 i x0 x1 x2 x3 x4 x5 x7 (harg8.unread x7) (harg8.read_unread x7)
    _ (k1_pay3 (F := Ideal)) (read_whole_store arg9 _ _ _) b n).trans ?_
  rw [pay3_apply]

-- The last point adds its tile and then the memory times the row's self-loop weight over the whole block.
theorem out1_C (i : grid1.Coords) (hc0 : ¬cond1_0 i) (hc1 : cond1_1 i) (x0 x1 x2 : Vec Ideal S1024 .i32) (x3 : Vec Ideal S1024 .f32) (x4 x5 : Vec Ideal S64x24 .f32) (x6 : Vec Ideal S64x1 .f32) (x7 : Vec Ideal S64x40960 .f32) (xo8 : Vec Ideal S64x40960 .f32) :
    out1_C_8 (F := Ideal) c i arg1 harg1 arg2 harg2 arg3 harg3 arg4 harg4 arg5 harg5 arg6 harg6 arg7 harg7 arg8 harg8 arg9 harg9 hc0 hc1 x0 x1 x2 x3 x4 x5 x6 x7 xo8 = fun j => (xo8 j + tileContrib x0 x1 x2 x3 x4 x5 x7 j) + x7 j * x6 (ix2 (j 0) 0) := by
  unfold out1_C_8
  rw [View.read_writes_eq_canon _ _ _ (cover1_C_8 (F := Ideal) c i arg1 harg1 arg2 harg2 arg3 harg3 arg4 harg4 arg5 harg5 arg6 harg6 arg7 harg7 arg8 harg8 arg9 harg9 hc0 hc1 x0 x1 x2 x3 x4 x5 x6 x7 xo8)]
  unfold kernelRun1_C
  dsimp only
  sl_unfold_words
  rw [View.canon_cons_unit_zero (S := S64x40960) hz2]
  simp only [View.readAt_eq_ld, harg1.read_unread, harg2.read_unread, harg3.read_unread, harg4.read_unread, harg5.read_unread, harg6.read_unread, harg7.read_unread, harg8.read_unread, View.ld_unit_zero (S := S1024) hz1, View.ld_unit_zero (S := S64x24) hz2,
    View.ld_unit_zero (S := S64x40960) hz2, View.ld_unit_zero (S := S64x1) hz2, gather_trips1, scatter_trips1, scatter_trips']
  funext j
  obtain ⟨b, n, rfl⟩ : ∃ (b : Fin 64) (n : Fin 40960), j = ix2 b n := ⟨j 0, j 1, eq_ix2 j⟩
  refine (pay2_apply _ _ _ b n).trans ?_
  rw [tile_value1 Variants.none c none arg1 harg1 arg2 harg2 arg3 harg3 arg4 harg4 arg5 harg5 arg6 harg6 arg7 harg7 arg8 harg8 arg9 harg9 i x0 x1 x2 x3 x4 x5 x7 (harg8.unread x7) (harg8.read_unread x7)
    (harg9.unread xo8) xo8 (harg9.read_unread xo8) b n]

/-! ## Step kernel 2 -/

theorem gather_trips2 : Scf.trips k2_t1_loop.lb k2_t1_loop.ub k2_t1_loop.st = 40 := by decide +kernel
theorem scatter_trips2 : Scf.trips k2_t2_loop.lb k2_t2_loop.ub k2_t2_loop.st = 40 := by decide +kernel

theorem tile_value2 (i : grid2.Coords) (x0 x1 x2 : Vec Ideal S1024 .i32) (x3 : Vec Ideal S1024 .f32) (x4 x5 : Vec Ideal S64x24 .f32) (x7 : Vec Ideal S64x40960 .f32)
    (X : BufTy.Contents (Elt Ideal) arg8.view.ty) (hX : arg8.view.read (Elt Ideal) X = x7)
    (G : BufTy.Contents (Elt Ideal) arg9.view.ty) (g : Vec Ideal S64x40960 .f32) (hG : arg9.view.read (Elt Ideal) G = g)
    (b : Fin 64) (n : Fin 40960) :
    arg9.view.read (Elt Ideal) (arg9.view.writes (Elt Ideal) G (pb_k2_t2 (F := Ideal) 𝒱 c bd i arg1 harg1 arg2 harg2 arg3 harg3 arg4 harg4 arg5 harg5 arg6 harg6 arg7 harg7 arg8 harg8 arg9 harg9 (k2_pay4 (F := Ideal) x0 x1)
        (k2_pay10 x2 x3 (st_k2_t1 (F := Ideal) 𝒱 c bd i arg1 harg1 arg2 harg2 arg3 harg3 arg4 harg4 arg5 harg5 arg6 harg6 arg7 harg7 arg8 harg8 arg9 harg9 x0 x1 X (k2_pay5 (F := Ideal), k2_pay6 (F := Ideal)) 40).1 (st_k2_t1 (F := Ideal) 𝒱 c bd i arg1 harg1 arg2 harg2 arg3 harg3 arg4 harg4 arg5 harg5 arg6 harg6 arg7 harg7 arg8 harg8 arg9 harg9 x0 x1 X (k2_pay5 (F := Ideal), k2_pay6 (F := Ideal)) 40).2 x4 x5) 0#32 G 40)) (ix2 b n)
      = g (ix2 b n) + tileContrib x0 x1 x2 x3 x4 x5 x7 (ix2 b n) :=
  tile_value_seq arg8 arg9 x0 x1 x2 x3 x4 x5 x7 X hX G g hG
    (st_k2_t1 (F := Ideal) 𝒱 c bd i arg1 harg1 arg2 harg2 arg3 harg3 arg4 harg4 arg5 harg5 arg6 harg6 arg7 harg7 arg8 harg8 arg9 harg9 x0 x1 X (k2_pay5 (F := Ideal), k2_pay6 (F := Ideal))) rfl
    (fun k => (st_k2_t1_succ (F := Ideal) 𝒱 c bd i arg1 harg1 arg2 harg2 arg3 harg3 arg4 harg4 arg5 harg5 arg6 harg6 arg7 harg7 arg8 harg8 arg9 harg9 x0 x1 X _ k).trans (by unfold tripR_k2_t1 trip_k2_t1; rfl))
    (pb_k2_t2 (F := Ideal) 𝒱 c bd i arg1 harg1 arg2 harg2 arg3 harg3 arg4 harg4 arg5 harg5 arg6 harg6 arg7 harg7 arg8 harg8 arg9 harg9 _ _ 0#32 G) rfl
    (fun k => (pb_k2_t2_succ (F := Ideal) 𝒱 c bd i arg1 harg1 arg2 harg2 arg3 harg3 arg4 harg4 arg5 harg5 arg6 harg6 arg7 harg7 arg8 harg8 arg9 harg9 _ _ 0#32 G k).trans (by unfold tripL_k2_t2 trip_k2_t2; rfl)) b n

-- A middle point leaves what it found plus the tile's contribution.
theorem out2_B (i : grid2.Coords) (hc0 : ¬cond2_0 i) (hc1 : ¬cond2_1 i) (x0 x1 x2 : Vec Ideal S1024 .i32) (x3 : Vec Ideal S1024 .f32) (x4 x5 : Vec Ideal S64x24 .f32) (x6 : Vec Ideal S64x1 .f32) (x7 : Vec Ideal S64x40960 .f32) (xo8 : Vec Ideal S64x40960 .f32) :
    out2_B_8 (F := Ideal) c i arg1 harg1 arg2 harg2 arg3 harg3 arg4 harg4 arg5 harg5 arg6 harg6 arg7 harg7 arg8 harg8 arg9 harg9 hc0 hc1 x0 x1 x2 x3 x4 x5 x6 x7 xo8 = fun j => xo8 j + tileContrib x0 x1 x2 x3 x4 x5 x7 j := by
  unfold out2_B_8
  rw [View.read_writes_of_cover VO2_8 VO2_8.junk arg9.view (harg9.unread xo8) _
    (cover2_B_8 (F := Ideal) c i arg1 harg1 arg2 harg2 arg3 harg3 arg4 harg4 arg5 harg5 arg6 harg6 arg7 harg7 arg8 harg8 arg9 harg9 hc0 hc1 x0 x1 x2 x3 x4 x5 x6 x7 xo8)]
  unfold kernelRun2_B
  dsimp only
  sl_unfold_words
  simp only [View.readAt_eq_ld, harg1.read_unread, harg2.read_unread, harg3.read_unread, harg4.read_unread, harg5.read_unread, harg6.read_unread, harg7.read_unread, harg8.read_unread, View.ld_unit_zero (S := S1024) hz1, View.ld_unit_zero (S := S64x24) hz2,
    gather_trips2, scatter_trips2, scatter_trips']
  funext j
  obtain ⟨b, n, rfl⟩ : ∃ (b : Fin 64) (n : Fin 40960), j = ix2 b n := ⟨j 0, j 1, eq_ix2 j⟩
  exact tile_value2 Variants.none c none arg1 harg1 arg2 harg2 arg3 harg3 arg4 harg4 arg5 harg5 arg6 harg6 arg7 harg7 arg8 harg8 arg9 harg9 i x0 x1 x2 x3 x4 x5 x7 (harg8.unread x7) (harg8.read_unread x7)
    (harg9.unread xo8) xo8 (harg9.read_unread xo8) b n

-- The first point stores zero first, so it leaves zero plus the tile's contribution.
theorem out2_A (i : grid2.Coords) (hc0 : cond2_0 i) (hc1 : ¬cond2_1 i) (x0 x1 x2 : Vec Ideal S1024 .i32) (x3 : Vec Ideal S1024 .f32) (x4 x5 : Vec Ideal S64x24 .f32) (x6 : Vec Ideal S64x1 .f32) (x7 : Vec Ideal S64x40960 .f32) :
    out2_A_8 (F := Ideal) c i arg1 harg1 arg2 harg2 arg3 harg3 arg4 harg4 arg5 harg5 arg6 harg6 arg7 harg7 arg8 harg8 arg9 harg9 hc0 hc1 x0 x1 x2 x3 x4 x5 x6 x7 = fun j => (0 : EReal) + tileContrib x0 x1 x2 x3 x4 x5 x7 j := by
  unfold out2_A_8
  rw [View.read_writes_of_cover VO2_8 VO2_8.junk arg9.view arg9.view.junk _
    (cover2_A_8 (F := Ideal) c i arg1 harg1 arg2 harg2 arg3 harg3 arg4 harg4 arg5 harg5 arg6 harg6 arg7 harg7 arg8 harg8 arg9 harg9 hc0 hc1 x0 x1 x2 x3 x4 x5 x6 x7)]
  unfold kernelRun2_A
  dsimp only
  sl_unfold_words
  rw [View.writes_append]
  simp only [View.readAt_eq_ld, harg1.read_unread, harg2.read_unread, harg3.read_unread, harg4.read_unread, harg5.read_unread, harg6.read_unread, harg7.read_unread, harg8.read_unread, View.ld_unit_zero (S := S1024) hz1, View.ld_unit_zero (S := S64x24) hz2,
    gather_trips2, scatter_trips2, scatter_trips']
  funext j
  obtain ⟨b, n, rfl⟩ : ∃ (b : Fin 64) (n : Fin 40960), j = ix2 b n := ⟨j 0, j 1, eq_ix2 j⟩
  refine (tile_value2 Variants.none c none arg1 harg1 arg2 harg2 arg3 harg3 arg4 harg4 arg5 harg5 arg6 harg6 arg7 harg7 arg8 harg8 arg9 harg9 i x0 x1 x2 x3 x4 x5 x7 (harg8.unread x7) (harg8.read_unread x7)
    _ (k1_pay3 (F := Ideal)) (read_whole_store arg9 _ _ _) b n).trans ?_
  rw [pay3_apply]

-- The last point adds its tile and then the memory times the row's self-loop weight over the whole block.
theorem out2_C (i : grid2.Coords) (hc0 : ¬cond2_0 i) (hc1 : cond2_1 i) (x0 x1 x2 : Vec Ideal S1024 .i32) (x3 : Vec Ideal S1024 .f32) (x4 x5 : Vec Ideal S64x24 .f32) (x6 : Vec Ideal S64x1 .f32) (x7 : Vec Ideal S64x40960 .f32) (xo8 : Vec Ideal S64x40960 .f32) :
    out2_C_8 (F := Ideal) c i arg1 harg1 arg2 harg2 arg3 harg3 arg4 harg4 arg5 harg5 arg6 harg6 arg7 harg7 arg8 harg8 arg9 harg9 hc0 hc1 x0 x1 x2 x3 x4 x5 x6 x7 xo8 = fun j => (xo8 j + tileContrib x0 x1 x2 x3 x4 x5 x7 j) + x7 j * x6 (ix2 (j 0) 0) := by
  unfold out2_C_8
  rw [View.read_writes_eq_canon _ _ _ (cover2_C_8 (F := Ideal) c i arg1 harg1 arg2 harg2 arg3 harg3 arg4 harg4 arg5 harg5 arg6 harg6 arg7 harg7 arg8 harg8 arg9 harg9 hc0 hc1 x0 x1 x2 x3 x4 x5 x6 x7 xo8)]
  unfold kernelRun2_C
  dsimp only
  sl_unfold_words
  rw [View.canon_cons_unit_zero (S := S64x40960) hz2]
  simp only [View.readAt_eq_ld, harg1.read_unread, harg2.read_unread, harg3.read_unread, harg4.read_unread, harg5.read_unread, harg6.read_unread, harg7.read_unread, harg8.read_unread, View.ld_unit_zero (S := S1024) hz1, View.ld_unit_zero (S := S64x24) hz2,
    View.ld_unit_zero (S := S64x40960) hz2, View.ld_unit_zero (S := S64x1) hz2, gather_trips2, scatter_trips2, scatter_trips']
  funext j
  obtain ⟨b, n, rfl⟩ : ∃ (b : Fin 64) (n : Fin 40960), j = ix2 b n := ⟨j 0, j 1, eq_ix2 j⟩
  refine (pay2_apply _ _ _ b n).trans ?_
  rw [tile_value2 Variants.none c none arg1 harg1 arg2 harg2 arg3 harg3 arg4 harg4 arg5 harg5 arg6 harg6 arg7 harg7 arg8 harg8 arg9 harg9 i x0 x1 x2 x3 x4 x5 x7 (harg8.unread x7) (harg8.read_unread x7)
    (harg9.unread xo8) xo8 (harg9.read_unread xo8) b n]

/-! ## Step kernel 3 -/

theorem gather_trips3 : Scf.trips k3_t1_loop.lb k3_t1_loop.ub k3_t1_loop.st = 40 := by decide +kernel
theorem scatter_trips3 : Scf.trips k3_t2_loop.lb k3_t2_loop.ub k3_t2_loop.st = 40 := by decide +kernel

theorem tile_value3 (i : grid3.Coords) (x0 x1 x2 : Vec Ideal S1024 .i32) (x3 : Vec Ideal S1024 .f32) (x4 x5 : Vec Ideal S64x24 .f32) (x7 : Vec Ideal S64x40960 .f32)
    (X : BufTy.Contents (Elt Ideal) arg8.view.ty) (hX : arg8.view.read (Elt Ideal) X = x7)
    (G : BufTy.Contents (Elt Ideal) arg9.view.ty) (g : Vec Ideal S64x40960 .f32) (hG : arg9.view.read (Elt Ideal) G = g)
    (b : Fin 64) (n : Fin 40960) :
    arg9.view.read (Elt Ideal) (arg9.view.writes (Elt Ideal) G (pb_k3_t2 (F := Ideal) 𝒱 c bd i arg1 harg1 arg2 harg2 arg3 harg3 arg4 harg4 arg5 harg5 arg6 harg6 arg7 harg7 arg8 harg8 arg9 harg9 (k3_pay4 (F := Ideal) x0 x1)
        (k3_pay10 x2 x3 (st_k3_t1 (F := Ideal) 𝒱 c bd i arg1 harg1 arg2 harg2 arg3 harg3 arg4 harg4 arg5 harg5 arg6 harg6 arg7 harg7 arg8 harg8 arg9 harg9 x0 x1 X (k3_pay5 (F := Ideal), k3_pay6 (F := Ideal)) 40).1 (st_k3_t1 (F := Ideal) 𝒱 c bd i arg1 harg1 arg2 harg2 arg3 harg3 arg4 harg4 arg5 harg5 arg6 harg6 arg7 harg7 arg8 harg8 arg9 harg9 x0 x1 X (k3_pay5 (F := Ideal), k3_pay6 (F := Ideal)) 40).2 x4 x5) 0#32 G 40)) (ix2 b n)
      = g (ix2 b n) + tileContrib x0 x1 x2 x3 x4 x5 x7 (ix2 b n) :=
  tile_value_seq arg8 arg9 x0 x1 x2 x3 x4 x5 x7 X hX G g hG
    (st_k3_t1 (F := Ideal) 𝒱 c bd i arg1 harg1 arg2 harg2 arg3 harg3 arg4 harg4 arg5 harg5 arg6 harg6 arg7 harg7 arg8 harg8 arg9 harg9 x0 x1 X (k3_pay5 (F := Ideal), k3_pay6 (F := Ideal))) rfl
    (fun k => (st_k3_t1_succ (F := Ideal) 𝒱 c bd i arg1 harg1 arg2 harg2 arg3 harg3 arg4 harg4 arg5 harg5 arg6 harg6 arg7 harg7 arg8 harg8 arg9 harg9 x0 x1 X _ k).trans (by unfold tripR_k3_t1 trip_k3_t1; rfl))
    (pb_k3_t2 (F := Ideal) 𝒱 c bd i arg1 harg1 arg2 harg2 arg3 harg3 arg4 harg4 arg5 harg5 arg6 harg6 arg7 harg7 arg8 harg8 arg9 harg9 _ _ 0#32 G) rfl
    (fun k => (pb_k3_t2_succ (F := Ideal) 𝒱 c bd i arg1 harg1 arg2 harg2 arg3 harg3 arg4 harg4 arg5 harg5 arg6 harg6 arg7 harg7 arg8 harg8 arg9 harg9 _ _ 0#32 G k).trans (by unfold tripL_k3_t2 trip_k3_t2; rfl)) b n

-- A middle point leaves what it found plus the tile's contribution.
theorem out3_B (i : grid3.Coords) (hc0 : ¬cond3_0 i) (hc1 : ¬cond3_1 i) (x0 x1 x2 : Vec Ideal S1024 .i32) (x3 : Vec Ideal S1024 .f32) (x4 x5 : Vec Ideal S64x24 .f32) (x6 : Vec Ideal S64x1 .f32) (x7 : Vec Ideal S64x40960 .f32) (xo8 : Vec Ideal S64x40960 .f32) :
    out3_B_8 (F := Ideal) c i arg1 harg1 arg2 harg2 arg3 harg3 arg4 harg4 arg5 harg5 arg6 harg6 arg7 harg7 arg8 harg8 arg9 harg9 hc0 hc1 x0 x1 x2 x3 x4 x5 x6 x7 xo8 = fun j => xo8 j + tileContrib x0 x1 x2 x3 x4 x5 x7 j := by
  unfold out3_B_8
  rw [View.read_writes_of_cover VO3_8 VO3_8.junk arg9.view (harg9.unread xo8) _
    (cover3_B_8 (F := Ideal) c i arg1 harg1 arg2 harg2 arg3 harg3 arg4 harg4 arg5 harg5 arg6 harg6 arg7 harg7 arg8 harg8 arg9 harg9 hc0 hc1 x0 x1 x2 x3 x4 x5 x6 x7 xo8)]
  unfold kernelRun3_B
  dsimp only
  sl_unfold_words
  simp only [View.readAt_eq_ld, harg1.read_unread, harg2.read_unread, harg3.read_unread, harg4.read_unread, harg5.read_unread, harg6.read_unread, harg7.read_unread, harg8.read_unread, View.ld_unit_zero (S := S1024) hz1, View.ld_unit_zero (S := S64x24) hz2,
    gather_trips3, scatter_trips3, scatter_trips']
  funext j
  obtain ⟨b, n, rfl⟩ : ∃ (b : Fin 64) (n : Fin 40960), j = ix2 b n := ⟨j 0, j 1, eq_ix2 j⟩
  exact tile_value3 Variants.none c none arg1 harg1 arg2 harg2 arg3 harg3 arg4 harg4 arg5 harg5 arg6 harg6 arg7 harg7 arg8 harg8 arg9 harg9 i x0 x1 x2 x3 x4 x5 x7 (harg8.unread x7) (harg8.read_unread x7)
    (harg9.unread xo8) xo8 (harg9.read_unread xo8) b n

-- The first point stores zero first, so it leaves zero plus the tile's contribution.
theorem out3_A (i : grid3.Coords) (hc0 : cond3_0 i) (hc1 : ¬cond3_1 i) (x0 x1 x2 : Vec Ideal S1024 .i32) (x3 : Vec Ideal S1024 .f32) (x4 x5 : Vec Ideal S64x24 .f32) (x6 : Vec Ideal S64x1 .f32) (x7 : Vec Ideal S64x40960 .f32) :
    out3_A_8 (F := Ideal) c i arg1 harg1 arg2 harg2 arg3 harg3 arg4 harg4 arg5 harg5 arg6 harg6 arg7 harg7 arg8 harg8 arg9 harg9 hc0 hc1 x0 x1 x2 x3 x4 x5 x6 x7 = fun j => (0 : EReal) + tileContrib x0 x1 x2 x3 x4 x5 x7 j := by
  unfold out3_A_8
  rw [View.read_writes_of_cover VO3_8 VO3_8.junk arg9.view arg9.view.junk _
    (cover3_A_8 (F := Ideal) c i arg1 harg1 arg2 harg2 arg3 harg3 arg4 harg4 arg5 harg5 arg6 harg6 arg7 harg7 arg8 harg8 arg9 harg9 hc0 hc1 x0 x1 x2 x3 x4 x5 x6 x7)]
  unfold kernelRun3_A
  dsimp only
  sl_unfold_words
  rw [View.writes_append]
  simp only [View.readAt_eq_ld, harg1.read_unread, harg2.read_unread, harg3.read_unread, harg4.read_unread, harg5.read_unread, harg6.read_unread, harg7.read_unread, harg8.read_unread, View.ld_unit_zero (S := S1024) hz1, View.ld_unit_zero (S := S64x24) hz2,
    gather_trips3, scatter_trips3, scatter_trips']
  funext j
  obtain ⟨b, n, rfl⟩ : ∃ (b : Fin 64) (n : Fin 40960), j = ix2 b n := ⟨j 0, j 1, eq_ix2 j⟩
  refine (tile_value3 Variants.none c none arg1 harg1 arg2 harg2 arg3 harg3 arg4 harg4 arg5 harg5 arg6 harg6 arg7 harg7 arg8 harg8 arg9 harg9 i x0 x1 x2 x3 x4 x5 x7 (harg8.unread x7) (harg8.read_unread x7)
    _ (k1_pay3 (F := Ideal)) (read_whole_store arg9 _ _ _) b n).trans ?_
  rw [pay3_apply]

-- The last point adds its tile and then the memory times the row's self-loop weight over the whole block.
theorem out3_C (i : grid3.Coords) (hc0 : ¬cond3_0 i) (hc1 : cond3_1 i) (x0 x1 x2 : Vec Ideal S1024 .i32) (x3 : Vec Ideal S1024 .f32) (x4 x5 : Vec Ideal S64x24 .f32) (x6 : Vec Ideal S64x1 .f32) (x7 : Vec Ideal S64x40960 .f32) (xo8 : Vec Ideal S64x40960 .f32) :
    out3_C_8 (F := Ideal) c i arg1 harg1 arg2 harg2 arg3 harg3 arg4 harg4 arg5 harg5 arg6 harg6 arg7 harg7 arg8 harg8 arg9 harg9 hc0 hc1 x0 x1 x2 x3 x4 x5 x6 x7 xo8 = fun j => (xo8 j + tileContrib x0 x1 x2 x3 x4 x5 x7 j) + x7 j * x6 (ix2 (j 0) 0) := by
  unfold out3_C_8
  rw [View.read_writes_eq_canon _ _ _ (cover3_C_8 (F := Ideal) c i arg1 harg1 arg2 harg2 arg3 harg3 arg4 harg4 arg5 harg5 arg6 harg6 arg7 harg7 arg8 harg8 arg9 harg9 hc0 hc1 x0 x1 x2 x3 x4 x5 x6 x7 xo8)]
  unfold kernelRun3_C
  dsimp only
  sl_unfold_words
  rw [View.canon_cons_unit_zero (S := S64x40960) hz2]
  simp only [View.readAt_eq_ld, harg1.read_unread, harg2.read_unread, harg3.read_unread, harg4.read_unread, harg5.read_unread, harg6.read_unread, harg7.read_unread, harg8.read_unread, View.ld_unit_zero (S := S1024) hz1, View.ld_unit_zero (S := S64x24) hz2,
    View.ld_unit_zero (S := S64x40960) hz2, View.ld_unit_zero (S := S64x1) hz2, gather_trips3, scatter_trips3, scatter_trips']
  funext j
  obtain ⟨b, n, rfl⟩ : ∃ (b : Fin 64) (n : Fin 40960), j = ix2 b n := ⟨j 0, j 1, eq_ix2 j⟩
  refine (pay2_apply _ _ _ b n).trans ?_
  rw [tile_value3 Variants.none c none arg1 harg1 arg2 harg2 arg3 harg3 arg4 harg4 arg5 harg5 arg6 harg6 arg7 harg7 arg8 harg8 arg9 harg9 i x0 x1 x2 x3 x4 x5 x7 (harg8.unread x7) (harg8.read_unread x7)
    (harg9.unread xo8) xo8 (harg9.read_unread xo8) b n]

end Regions

end Cert.KernelIdeal.StepCases

end
-- ==== Proof.StepArray.lean ====
/-
  The step kernel's output array after all 293 grid points is one message-passing step of its eight input arrays.
  The four edge windows' blocks at point t are entries 1024 t .. 1024 t + 1023 of their arrays; the other windows' blocks
  are their whole arrays at every point. The first point leaves zero plus tile 0's contribution and a middle point adds
  its tile's contribution to what the point before left, so after point n < 292 the block holds the accumulator over
  tiles 0 .. n (induction on the point); the last point adds tile 292's contribution and the memory times the self-loop
  weight, which is the whole step. That block is the whole output array. The three step kernels each have their own
  windows, so this is stated for each in turn (R1, R2, R3).
-/
import proofs.«408331_j31499290149149_3_alg».proof.Proof.FrameKI
import proofs.«408331_j31499290149149_3_alg».proof.Proof.Spec
import proofs.«408331_j31499290149149_3_alg».proof.Proof.StepCases
import Idealize.ShloMosaic.Lib.Pipeline.Value
import Idealize.ShloMosaic.Lib.ValueIdx
import Idealize.ShloMosaic.Lib.ValueLayout
import Idealize.ShloMosaic.Lib.Affine
import Idealize.ShloMosaic.PureOps.Ideal.Laws

set_option maxRecDepth 16384

noncomputable section

namespace Cert.KernelIdeal.StepArray

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.MsgSpec

-- The accumulator after tile n is the accumulator before it plus tile n's contribution.
theorem stepAcc_succ (eh et er : TEp.Idx → BitVec 32) (vals : TEp.Idx → EReal) (afwd arev : TA.Idx → EReal)
    (mem : TMp.Idx → EReal) (n : ℕ) (hn : n < 293) :
    stepAcc eh et er vals afwd arev mem (n + 1)
      = fun i => stepAcc eh et er vals afwd arev mem n i
          + tileContrib (blkE eh ⟨n, hn⟩) (blkE et ⟨n, hn⟩) (blkE er ⟨n, hn⟩) (blkE vals ⟨n, hn⟩) afwd arev mem i := by
  funext i
  show stepAcc eh et er vals afwd arev mem n i + (if h : n < 293 then _ else 0) = _
  rw [dif_pos hn]

namespace R1

theorem idx_facts : ∀ t : Fin cfg1.N, win1_0.index t (0 : Fin 1) = t.val ∧ win1_1.index t (0 : Fin 1) = t.val
    ∧ win1_2.index t (0 : Fin 1) = t.val ∧ win1_3.index t (0 : Fin 1) = t.val
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0) :=
  (by decide +kernel : ∀ t : Fin grid1.N, _)

abbrev tile (t : Fin cfg1.N) : Fin 293 := Fin.cast N_1 t

theorem read_e0 (t : Fin cfg1.N) (A : TEp.Idx → BitVec 32) :
    (((cfg1.win 0).blk t).view.read (Elt Ideal) A : T1024.Idx → BitVec 32) = blkE A (tile t) := by
  funext y
  show A (((cfg1.win 0).blk t).view.emb y) = A (ix1 ⟨t.val * 1024 + (y 0).val, _⟩)
  congr 1
  funext a; apply Fin.ext
  match a with
  | ⟨0, _⟩ =>
    show win1_0.index t (0 : Fin 1) * 1024 + 1 * (y 0).val = t.val * 1024 + (y 0).val
    rw [(idx_facts t).1]; omega

theorem read_e1 (t : Fin cfg1.N) (A : TEp.Idx → BitVec 32) :
    (((cfg1.win 1).blk t).view.read (Elt Ideal) A : T1024.Idx → BitVec 32) = blkE A (tile t) := by
  funext y
  show A (((cfg1.win 1).blk t).view.emb y) = A (ix1 ⟨t.val * 1024 + (y 0).val, _⟩)
  congr 1
  funext a; apply Fin.ext
  match a with
  | ⟨0, _⟩ =>
    show win1_1.index t (0 : Fin 1) * 1024 + 1 * (y 0).val = t.val * 1024 + (y 0).val
    rw [(idx_facts t).2.1]; omega

theorem read_e2 (t : Fin cfg1.N) (A : TEp.Idx → BitVec 32) :
    (((cfg1.win 2).blk t).view.read (Elt Ideal) A : T1024.Idx → BitVec 32) = blkE A (tile t) := by
  funext y
  show A (((cfg1.win 2).blk t).view.emb y) = A (ix1 ⟨t.val * 1024 + (y 0).val, _⟩)
  congr 1
  funext a; apply Fin.ext
  match a with
  | ⟨0, _⟩ =>
    show win1_2.index t (0 : Fin 1) * 1024 + 1 * (y 0).val = t.val * 1024 + (y 0).val
    rw [(idx_facts t).2.2.1]; omega

theorem read_e3 (t : Fin cfg1.N) (A : TEp.Idx → EReal) :
    (((cfg1.win 3).blk t).view.read (Elt Ideal) A : T1024.Idx → EReal) = blkE A (tile t) := by
  funext y
  show A (((cfg1.win 3).blk t).view.emb y) = A (ix1 ⟨t.val * 1024 + (y 0).val, _⟩)
  congr 1
  funext a; apply Fin.ext
  match a with
  | ⟨0, _⟩ =>
    show win1_3.index t (0 : Fin 1) * 1024 + 1 * (y 0).val = t.val * 1024 + (y 0).val
    rw [(idx_facts t).2.2.2.1]; omega

theorem read_w4 (t : Fin cfg1.N) (A : TA.Idx → EReal) :
    (((cfg1.win 4).blk t).view.read (Elt Ideal) A : TA.Idx → EReal) = A := by
  funext y
  show A (((cfg1.win 4).blk t).view.emb y) = A y
  congr 1
  funext a; apply Fin.ext
  match a with
  | ⟨0, _⟩ =>
    show win1_4.index t (0 : Fin 2) * 64 + 1 * (y 0).val = (y 0).val
    rw [(idx_facts t).2.2.2.2.1.1]; omega
  | ⟨1, _⟩ =>
    show win1_4.index t (1 : Fin 2) * 24 + 1 * (y 1).val = (y 1).val
    rw [(idx_facts t).2.2.2.2.1.2]; omega

theorem read_w5 (t : Fin cfg1.N) (A : TA.Idx → EReal) :
    (((cfg1.win 5).blk t).view.read (Elt Ideal) A : TA.Idx → EReal) = A := by
  funext y
  show A (((cfg1.win 5).blk t).view.emb y) = A y
  congr 1
  funext a; apply Fin.ext
  match a with
  | ⟨0, _⟩ =>
    show win1_5.index t (0 : Fin 2) * 64 + 1 * (y 0).val = (y 0).val
    rw [(idx_facts t).2.2.2.2.2.1.1]; omega
  | ⟨1, _⟩ =>
    show win1_5.index t (1 : Fin 2) * 24 + 1 * (y 1).val = (y 1).val
    rw [(idx_facts t).2.2.2.2.2.1.2]; omega

theorem read_w6 (t : Fin cfg1.N) (A : TS.Idx → EReal) :
    (((cfg1.win 6).blk t).view.read (Elt Ideal) A : TS.Idx → EReal) = A := by
  funext y
  show A (((cfg1.win 6).blk t).view.emb y) = A y
  congr 1
  funext a; apply Fin.ext
  match a with
  | ⟨0, _⟩ =>
    show win1_6.index t (0 : Fin 2) * 64 + 1 * (y 0).val = (y 0).val
    rw [(idx_facts t).2.2.2.2.2.2.1.1]; omega
  | ⟨1, _⟩ =>
    show win1_6.index t (1 : Fin 2) * 1 + 1 * (y 1).val = (y 1).val
    rw [(idx_facts t).2.2.2.2.2.2.1.2]; omega

theorem read_w7 (t : Fin cfg1.N) (A : TMp.Idx → EReal) :
    (((cfg1.win 7).blk t).view.read (Elt Ideal) A : TMp.Idx → EReal) = A := by
  funext y
  show A (((cfg1.win 7).blk t).view.emb y) = A y
  congr 1
  funext a; apply Fin.ext
  match a with
  | ⟨0, _⟩ =>
    show win1_7.index t (0 : Fin 2) * 64 + 1 * (y 0).val = (y 0).val
    rw [(idx_facts t).2.2.2.2.2.2.2.1.1]; omega
  | ⟨1, _⟩ =>
    show win1_7.index t (1 : Fin 2) * 40960 + 1 * (y 1).val = (y 1).val
    rw [(idx_facts t).2.2.2.2.2.2.2.1.2]; omega

theorem read_w8 (t : Fin cfg1.N) (A : TMp.Idx → EReal) :
    (((cfg1.win 8).blk t).view.read (Elt Ideal) A : TMp.Idx → EReal) = A := by
  funext y
  show A (((cfg1.win 8).blk t).view.emb y) = A y
  congr 1
  funext a; apply Fin.ext
  match a with
  | ⟨0, _⟩ =>
    show win1_8.index t (0 : Fin 2) * 64 + 1 * (y 0).val = (y 0).val
    rw [(idx_facts t).2.2.2.2.2.2.2.2.1]; omega
  | ⟨1, _⟩ =>
    show win1_8.index t (1 : Fin 2) * 40960 + 1 * (y 1).val = (y 1).val
    rw [(idx_facts t).2.2.2.2.2.2.2.2.2]; omega

abbrev tLast : Fin cfg1.N := Fin.cast N_1.symm ⟨292, by decide⟩

theorem mem_blk (t : Fin cfg1.N) (i : TMp.Idx) :
    i ∈ ((cfg1.win 8).blk t).view.set ↔ ∀ a : Fin 2, win1_8.index t a * S64x40960.size a ≤ (i a).val ∧ (i a).val < win1_8.index t a * S64x40960.size a + S64x40960.size a := by
  show i ∈ ((View.whole (Pipeline.arrRef spec1 8)).slice (win1_8.rect t)).set ↔ _
  rw [View.set_slice_whole, Rect.mem_set_unit]
  exact Iff.rfl

theorem cover (i : TMp.Idx) : ∃ t : Fin cfg1.N, (cfg1.win 8).flush t = true ∧ i ∈ ((cfg1.win 8).blk t).view.set := by
  refine ⟨tLast, (flush1_8 tLast).mpr rfl, ?_⟩
  rw [mem_blk]
  intro a
  have h0 : (i 0).val < 64 := (i 0).isLt
  have h1 : (i 1).val < 40960 := (i 1).isLt
  match a with
  | ⟨0, _⟩ =>
    show win1_8.index tLast (0 : Fin 2) * 64 ≤ (i 0).val ∧ (i 0).val < win1_8.index tLast (0 : Fin 2) * 64 + 64
    rw [(idx_facts tLast).2.2.2.2.2.2.2.2.1]; omega
  | ⟨1, _⟩ =>
    show win1_8.index tLast (1 : Fin 2) * 40960 ≤ (i 1).val ∧ (i 1).val < win1_8.index tLast (1 : Fin 2) * 40960 + 40960
    rw [(idx_facts tLast).2.2.2.2.2.2.2.2.2]; omega

section Run
variable (V : (c : Dev nD) → (b : Ref sig .tc) → Buf (Elt Ideal) ((c : Thread nD τ).loc b))

abbrev b0 (c : Dev nD) (t : Fin cfg1.N) : Vec Ideal S1024 .i32 := iblk1 (F := Ideal) V c 0 t
abbrev b1 (c : Dev nD) (t : Fin cfg1.N) : Vec Ideal S1024 .i32 := iblk1 (F := Ideal) V c 1 t
abbrev b2 (c : Dev nD) (t : Fin cfg1.N) : Vec Ideal S1024 .i32 := iblk1 (F := Ideal) V c 2 t
abbrev b3 (c : Dev nD) (t : Fin cfg1.N) : Vec Ideal S1024 .f32 := iblk1 (F := Ideal) V c 3 t
abbrev b4 (c : Dev nD) (t : Fin cfg1.N) : Vec Ideal S64x24 .f32 := iblk1 (F := Ideal) V c 4 t
abbrev b5 (c : Dev nD) (t : Fin cfg1.N) : Vec Ideal S64x24 .f32 := iblk1 (F := Ideal) V c 5 t
abbrev b6 (c : Dev nD) (t : Fin cfg1.N) : Vec Ideal S64x1 .f32 := iblk1 (F := Ideal) V c 6 t
abbrev b7 (c : Dev nD) (t : Fin cfg1.N) : Vec Ideal S64x40960 .f32 := iblk1 (F := Ideal) V c 7 t

theorem b0_eq (c : Dev nD) (t : Fin cfg1.N) (A : TEp.Idx → BitVec 32) (h : V c (Pipeline.arrRef spec1 0) = A) :
    b0 V c t = blkE A (tile t) := by subst h; exact read_e0 t _
theorem b1_eq (c : Dev nD) (t : Fin cfg1.N) (A : TEp.Idx → BitVec 32) (h : V c (Pipeline.arrRef spec1 1) = A) :
    b1 V c t = blkE A (tile t) := by subst h; exact read_e1 t _
theorem b2_eq (c : Dev nD) (t : Fin cfg1.N) (A : TEp.Idx → BitVec 32) (h : V c (Pipeline.arrRef spec1 2) = A) :
    b2 V c t = blkE A (tile t) := by subst h; exact read_e2 t _
theorem b3_eq (c : Dev nD) (t : Fin cfg1.N) (A : TEp.Idx → EReal) (h : V c (Pipeline.arrRef spec1 3) = A) :
    b3 V c t = blkE A (tile t) := by subst h; exact read_e3 t _
theorem b4_eq (c : Dev nD) (t : Fin cfg1.N) (A : TA.Idx → EReal) (h : V c (Pipeline.arrRef spec1 4) = A) :
    b4 V c t = A := by subst h; exact read_w4 t _
theorem b5_eq (c : Dev nD) (t : Fin cfg1.N) (A : TA.Idx → EReal) (h : V c (Pipeline.arrRef spec1 5) = A) :
    b5 V c t = A := by subst h; exact read_w5 t _
theorem b6_eq (c : Dev nD) (t : Fin cfg1.N) (A : TS.Idx → EReal) (h : V c (Pipeline.arrRef spec1 6) = A) :
    b6 V c t = A := by subst h; exact read_w6 t _
theorem b7_eq (c : Dev nD) (t : Fin cfg1.N) (A : TMp.Idx → EReal) (h : V c (Pipeline.arrRef spec1 7) = A) :
    b7 V c t = A := by subst h; exact read_w7 t _

theorem outsAt_eq (c : Dev nD) (eh et er : TEp.Idx → BitVec 32) (vals : TEp.Idx → EReal) (afwd arev : TA.Idx → EReal) (mem : TMp.Idx → EReal)
    (h0 : V c (Pipeline.arrRef spec1 0) = eh) (h1 : V c (Pipeline.arrRef spec1 1) = et) (h2 : V c (Pipeline.arrRef spec1 2) = er) (h3 : V c (Pipeline.arrRef spec1 3) = vals) (h4 : V c (Pipeline.arrRef spec1 4) = afwd) (h5 : V c (Pipeline.arrRef spec1 5) = arev) (h7 : V c (Pipeline.arrRef spec1 7) = mem) :
    ∀ (n : ℕ) (h : n < cfg1.N), n < 292 → outsAt1 (F := Ideal) V c n h = stepAcc eh et er vals afwd arev mem (n + 1)
  | 0, h, _ => by
    rw [outsAt1_A V c ⟨0, h⟩ (Nat.zero_mod _) (by show ¬0 % 293 = 292; omega)]
    refine (StepCases.out1_A c (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) (ms1_6 ⟨0, h⟩) (hs1_6 ⟨0, h⟩) (ms1_7 ⟨0, h⟩) (hs1_7 ⟨0, h⟩) (ms1_8 ⟨0, h⟩) (hs1_8 ⟨0, h⟩) (grid1.coords ⟨0, h⟩) _ _ (b0 V c ⟨0, h⟩) (b1 V c ⟨0, h⟩) (b2 V c ⟨0, h⟩) (b3 V c ⟨0, h⟩) (b4 V c ⟨0, h⟩) (b5 V c ⟨0, h⟩) (b6 V c ⟨0, h⟩) (b7 V c ⟨0, h⟩)).trans ?_
    rw [stepAcc_succ eh et er vals afwd arev mem 0 (by decide), b0_eq V c ⟨0, h⟩ eh h0, b1_eq V c ⟨0, h⟩ et h1, b2_eq V c ⟨0, h⟩ er h2, b3_eq V c ⟨0, h⟩ vals h3, b4_eq V c ⟨0, h⟩ afwd h4, b5_eq V c ⟨0, h⟩ arev h5, b7_eq V c ⟨0, h⟩ mem h7]
    rfl
  | n + 1, h, hlt => by
    have hB0 : ¬(⟨n + 1, h⟩ : Fin cfg1.N).val % 293 = 0 := by dsimp only; omega
    have hB1 : ¬(⟨n + 1, h⟩ : Fin cfg1.N).val % 293 = 292 := by dsimp only; omega
    rw [outsAt1_B V c ⟨n + 1, h⟩ hB0 hB1]
    refine (StepCases.out1_B c (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (ms1_7 ⟨n + 1, h⟩) (hs1_7 ⟨n + 1, h⟩) (ms1_8 ⟨n + 1, h⟩) (hs1_8 ⟨n + 1, h⟩) (grid1.coords ⟨n + 1, h⟩) _ _ (b0 V c ⟨n + 1, h⟩) (b1 V c ⟨n + 1, h⟩) (b2 V c ⟨n + 1, h⟩) (b3 V c ⟨n + 1, h⟩) (b4 V c ⟨n + 1, h⟩) (b5 V c ⟨n + 1, h⟩) (b6 V c ⟨n + 1, h⟩) (b7 V c ⟨n + 1, h⟩) (outsAt1 (F := Ideal) V c n (Nat.lt_of_succ_lt h))).trans ?_
    rw [outsAt_eq c eh et er vals afwd arev mem h0 h1 h2 h3 h4 h5 h7 n (Nat.lt_of_succ_lt h) (by omega),
      stepAcc_succ eh et er vals afwd arev mem (n + 1) (by omega), b0_eq V c ⟨n + 1, h⟩ eh h0, b1_eq V c ⟨n + 1, h⟩ et h1, b2_eq V c ⟨n + 1, h⟩ er h2, b3_eq V c ⟨n + 1, h⟩ vals h3, b4_eq V c ⟨n + 1, h⟩ afwd h4, b5_eq V c ⟨n + 1, h⟩ arev h5, b7_eq V c ⟨n + 1, h⟩ mem h7]
    rfl

theorem outsAt_last (c : Dev nD) (eh et er : TEp.Idx → BitVec 32) (vals : TEp.Idx → EReal) (afwd arev : TA.Idx → EReal) (aself : TS.Idx → EReal) (mem : TMp.Idx → EReal)
    (h0 : V c (Pipeline.arrRef spec1 0) = eh) (h1 : V c (Pipeline.arrRef spec1 1) = et) (h2 : V c (Pipeline.arrRef spec1 2) = er) (h3 : V c (Pipeline.arrRef spec1 3) = vals) (h4 : V c (Pipeline.arrRef spec1 4) = afwd) (h5 : V c (Pipeline.arrRef spec1 5) = arev) (h6 : V c (Pipeline.arrRef spec1 6) = aself) (h7 : V c (Pipeline.arrRef spec1 7) = mem) (h : 292 < cfg1.N) :
    outsAt1 (F := Ideal) V c 292 h = stepK eh et er vals afwd arev aself mem := by
  rw [outsAt1_C V c ⟨292, h⟩ (by show ¬292 % 293 = 0; omega) (by show 292 % 293 = 292; omega)]
  refine (StepCases.out1_C c (ms1_0 ⟨292, h⟩) (hs1_0 ⟨292, h⟩) (ms1_1 ⟨292, h⟩) (hs1_1 ⟨292, h⟩) (ms1_2 ⟨292, h⟩) (hs1_2 ⟨292, h⟩) (ms1_3 ⟨292, h⟩) (hs1_3 ⟨292, h⟩) (ms1_4 ⟨292, h⟩) (hs1_4 ⟨292, h⟩) (ms1_5 ⟨292, h⟩) (hs1_5 ⟨292, h⟩) (ms1_6 ⟨292, h⟩) (hs1_6 ⟨292, h⟩) (ms1_7 ⟨292, h⟩) (hs1_7 ⟨292, h⟩) (ms1_8 ⟨292, h⟩) (hs1_8 ⟨292, h⟩) (grid1.coords ⟨292, h⟩) _ _ (b0 V c ⟨292, h⟩) (b1 V c ⟨292, h⟩) (b2 V c ⟨292, h⟩) (b3 V c ⟨292, h⟩) (b4 V c ⟨292, h⟩) (b5 V c ⟨292, h⟩) (b6 V c ⟨292, h⟩) (b7 V c ⟨292, h⟩) (outsAt1 (F := Ideal) V c 291 (Nat.lt_of_succ_lt h))).trans ?_
  rw [outsAt_eq V c eh et er vals afwd arev mem h0 h1 h2 h3 h4 h5 h7 291 (Nat.lt_of_succ_lt h) (by decide)]
  show _ = fun i => stepAcc eh et er vals afwd arev mem (292 + 1) i + mem i * aself (ix2 (i 0) 0)
  rw [stepAcc_succ eh et er vals afwd arev mem 292 (by decide), b0_eq V c ⟨292, h⟩ eh h0, b1_eq V c ⟨292, h⟩ et h1, b2_eq V c ⟨292, h⟩ er h2, b3_eq V c ⟨292, h⟩ vals h3, b4_eq V c ⟨292, h⟩ afwd h4, b5_eq V c ⟨292, h⟩ arev h5, b6_eq V c ⟨292, h⟩ aself h6, b7_eq V c ⟨292, h⟩ mem h7]
  rfl

theorem flushed_eq (c : Dev nD) (eh et er : TEp.Idx → BitVec 32) (vals : TEp.Idx → EReal) (afwd arev : TA.Idx → EReal) (aself : TS.Idx → EReal) (mem : TMp.Idx → EReal)
    (h0 : V c (Pipeline.arrRef spec1 0) = eh) (h1 : V c (Pipeline.arrRef spec1 1) = et) (h2 : V c (Pipeline.arrRef spec1 2) = er) (h3 : V c (Pipeline.arrRef spec1 3) = vals) (h4 : V c (Pipeline.arrRef spec1 4) = afwd) (h5 : V c (Pipeline.arrRef spec1 5) = arev) (h6 : V c (Pipeline.arrRef spec1 6) = aself) (h7 : V c (Pipeline.arrRef spec1 7) = mem) (t : Fin cfg1.N) (hf : (cfg1.win 8).flush t = true) :
    (dat1 (F := Ideal) V c).flushed 8 t
      = ((cfg1.win 8).blk t).view.read (Elt Ideal) (stepK eh et er vals afwd arev aself mem) := by
  have hN : t.val < 293 := lt_of_lt_of_eq t.isLt (show cfg1.N = 293 from N_1)
  have h292 : t.val = 292 := by have := (flush1_8 t).mp hf; omega
  obtain rfl : t = tLast := Fin.ext h292
  show (cfg1.win 8).cut (grid1.coords tLast) ((dat1 (F := Ideal) V c).after 8 tLast) = _
  rw [after1_8]
  exact (outsAt_last V c eh et er vals afwd arev aself mem h0 h1 h2 h3 h4 h5 h6 h7 tLast.isLt).trans (read_w8 tLast _).symm

theorem step_value (c : Dev nD) (eh et er : TEp.Idx → BitVec 32) (vals : TEp.Idx → EReal) (afwd arev : TA.Idx → EReal)
    (aself : TS.Idx → EReal) (mem : TMp.Idx → EReal)
    (h0 : V c (Pipeline.arrRef spec1 0) = eh) (h1 : V c (Pipeline.arrRef spec1 1) = et) (h2 : V c (Pipeline.arrRef spec1 2) = er) (h3 : V c (Pipeline.arrRef spec1 3) = vals) (h4 : V c (Pipeline.arrRef spec1 4) = afwd) (h5 : V c (Pipeline.arrRef spec1 5) = arev) (h6 : V c (Pipeline.arrRef spec1 6) = aself) (h7 : V c (Pipeline.arrRef spec1 7) = mem) :
    (dat1 (F := Ideal) V c).arrAt 8 cfg1.N = stepK eh et er vals afwd arev aself mem :=
  (dat1 (F := Ideal) V c).arrAt_eq_of_cover 8 _
    (fun t hf => flushed_eq V c eh et er vals afwd arev aself mem h0 h1 h2 h3 h4 h5 h6 h7 t hf) cover

end Run

end R1

namespace R2

theorem idx_facts : ∀ t : Fin cfg2.N, win2_0.index t (0 : Fin 1) = t.val ∧ win2_1.index t (0 : Fin 1) = t.val
    ∧ win2_2.index t (0 : Fin 1) = t.val ∧ win2_3.index t (0 : Fin 1) = t.val
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0) :=
  (by decide +kernel : ∀ t : Fin grid2.N, _)

abbrev tile (t : Fin cfg2.N) : Fin 293 := Fin.cast N_2 t

theorem read_e0 (t : Fin cfg2.N) (A : TEp.Idx → BitVec 32) :
    (((cfg2.win 0).blk t).view.read (Elt Ideal) A : T1024.Idx → BitVec 32) = blkE A (tile t) := by
  funext y
  show A (((cfg2.win 0).blk t).view.emb y) = A (ix1 ⟨t.val * 1024 + (y 0).val, _⟩)
  congr 1
  funext a; apply Fin.ext
  match a with
  | ⟨0, _⟩ =>
    show win2_0.index t (0 : Fin 1) * 1024 + 1 * (y 0).val = t.val * 1024 + (y 0).val
    rw [(idx_facts t).1]; omega

theorem read_e1 (t : Fin cfg2.N) (A : TEp.Idx → BitVec 32) :
    (((cfg2.win 1).blk t).view.read (Elt Ideal) A : T1024.Idx → BitVec 32) = blkE A (tile t) := by
  funext y
  show A (((cfg2.win 1).blk t).view.emb y) = A (ix1 ⟨t.val * 1024 + (y 0).val, _⟩)
  congr 1
  funext a; apply Fin.ext
  match a with
  | ⟨0, _⟩ =>
    show win2_1.index t (0 : Fin 1) * 1024 + 1 * (y 0).val = t.val * 1024 + (y 0).val
    rw [(idx_facts t).2.1]; omega

theorem read_e2 (t : Fin cfg2.N) (A : TEp.Idx → BitVec 32) :
    (((cfg2.win 2).blk t).view.read (Elt Ideal) A : T1024.Idx → BitVec 32) = blkE A (tile t) := by
  funext y
  show A (((cfg2.win 2).blk t).view.emb y) = A (ix1 ⟨t.val * 1024 + (y 0).val, _⟩)
  congr 1
  funext a; apply Fin.ext
  match a with
  | ⟨0, _⟩ =>
    show win2_2.index t (0 : Fin 1) * 1024 + 1 * (y 0).val = t.val * 1024 + (y 0).val
    rw [(idx_facts t).2.2.1]; omega

theorem read_e3 (t : Fin cfg2.N) (A : TEp.Idx → EReal) :
    (((cfg2.win 3).blk t).view.read (Elt Ideal) A : T1024.Idx → EReal) = blkE A (tile t) := by
  funext y
  show A (((cfg2.win 3).blk t).view.emb y) = A (ix1 ⟨t.val * 1024 + (y 0).val, _⟩)
  congr 1
  funext a; apply Fin.ext
  match a with
  | ⟨0, _⟩ =>
    show win2_3.index t (0 : Fin 1) * 1024 + 1 * (y 0).val = t.val * 1024 + (y 0).val
    rw [(idx_facts t).2.2.2.1]; omega

theorem read_w4 (t : Fin cfg2.N) (A : TA.Idx → EReal) :
    (((cfg2.win 4).blk t).view.read (Elt Ideal) A : TA.Idx → EReal) = A := by
  funext y
  show A (((cfg2.win 4).blk t).view.emb y) = A y
  congr 1
  funext a; apply Fin.ext
  match a with
  | ⟨0, _⟩ =>
    show win2_4.index t (0 : Fin 2) * 64 + 1 * (y 0).val = (y 0).val
    rw [(idx_facts t).2.2.2.2.1.1]; omega
  | ⟨1, _⟩ =>
    show win2_4.index t (1 : Fin 2) * 24 + 1 * (y 1).val = (y 1).val
    rw [(idx_facts t).2.2.2.2.1.2]; omega

theorem read_w5 (t : Fin cfg2.N) (A : TA.Idx → EReal) :
    (((cfg2.win 5).blk t).view.read (Elt Ideal) A : TA.Idx → EReal) = A := by
  funext y
  show A (((cfg2.win 5).blk t).view.emb y) = A y
  congr 1
  funext a; apply Fin.ext
  match a with
  | ⟨0, _⟩ =>
    show win2_5.index t (0 : Fin 2) * 64 + 1 * (y 0).val = (y 0).val
    rw [(idx_facts t).2.2.2.2.2.1.1]; omega
  | ⟨1, _⟩ =>
    show win2_5.index t (1 : Fin 2) * 24 + 1 * (y 1).val = (y 1).val
    rw [(idx_facts t).2.2.2.2.2.1.2]; omega

theorem read_w6 (t : Fin cfg2.N) (A : TS.Idx → EReal) :
    (((cfg2.win 6).blk t).view.read (Elt Ideal) A : TS.Idx → EReal) = A := by
  funext y
  show A (((cfg2.win 6).blk t).view.emb y) = A y
  congr 1
  funext a; apply Fin.ext
  match a with
  | ⟨0, _⟩ =>
    show win2_6.index t (0 : Fin 2) * 64 + 1 * (y 0).val = (y 0).val
    rw [(idx_facts t).2.2.2.2.2.2.1.1]; omega
  | ⟨1, _⟩ =>
    show win2_6.index t (1 : Fin 2) * 1 + 1 * (y 1).val = (y 1).val
    rw [(idx_facts t).2.2.2.2.2.2.1.2]; omega

theorem read_w7 (t : Fin cfg2.N) (A : TMp.Idx → EReal) :
    (((cfg2.win 7).blk t).view.read (Elt Ideal) A : TMp.Idx → EReal) = A := by
  funext y
  show A (((cfg2.win 7).blk t).view.emb y) = A y
  congr 1
  funext a; apply Fin.ext
  match a with
  | ⟨0, _⟩ =>
    show win2_7.index t (0 : Fin 2) * 64 + 1 * (y 0).val = (y 0).val
    rw [(idx_facts t).2.2.2.2.2.2.2.1.1]; omega
  | ⟨1, _⟩ =>
    show win2_7.index t (1 : Fin 2) * 40960 + 1 * (y 1).val = (y 1).val
    rw [(idx_facts t).2.2.2.2.2.2.2.1.2]; omega

theorem read_w8 (t : Fin cfg2.N) (A : TMp.Idx → EReal) :
    (((cfg2.win 8).blk t).view.read (Elt Ideal) A : TMp.Idx → EReal) = A := by
  funext y
  show A (((cfg2.win 8).blk t).view.emb y) = A y
  congr 1
  funext a; apply Fin.ext
  match a with
  | ⟨0, _⟩ =>
    show win2_8.index t (0 : Fin 2) * 64 + 1 * (y 0).val = (y 0).val
    rw [(idx_facts t).2.2.2.2.2.2.2.2.1]; omega
  | ⟨1, _⟩ =>
    show win2_8.index t (1 : Fin 2) * 40960 + 1 * (y 1).val = (y 1).val
    rw [(idx_facts t).2.2.2.2.2.2.2.2.2]; omega

abbrev tLast : Fin cfg2.N := Fin.cast N_2.symm ⟨292, by decide⟩

theorem mem_blk (t : Fin cfg2.N) (i : TMp.Idx) :
    i ∈ ((cfg2.win 8).blk t).view.set ↔ ∀ a : Fin 2, win2_8.index t a * S64x40960.size a ≤ (i a).val ∧ (i a).val < win2_8.index t a * S64x40960.size a + S64x40960.size a := by
  show i ∈ ((View.whole (Pipeline.arrRef spec2 8)).slice (win2_8.rect t)).set ↔ _
  rw [View.set_slice_whole, Rect.mem_set_unit]
  exact Iff.rfl

theorem cover (i : TMp.Idx) : ∃ t : Fin cfg2.N, (cfg2.win 8).flush t = true ∧ i ∈ ((cfg2.win 8).blk t).view.set := by
  refine ⟨tLast, (flush2_8 tLast).mpr rfl, ?_⟩
  rw [mem_blk]
  intro a
  have h0 : (i 0).val < 64 := (i 0).isLt
  have h1 : (i 1).val < 40960 := (i 1).isLt
  match a with
  | ⟨0, _⟩ =>
    show win2_8.index tLast (0 : Fin 2) * 64 ≤ (i 0).val ∧ (i 0).val < win2_8.index tLast (0 : Fin 2) * 64 + 64
    rw [(idx_facts tLast).2.2.2.2.2.2.2.2.1]; omega
  | ⟨1, _⟩ =>
    show win2_8.index tLast (1 : Fin 2) * 40960 ≤ (i 1).val ∧ (i 1).val < win2_8.index tLast (1 : Fin 2) * 40960 + 40960
    rw [(idx_facts tLast).2.2.2.2.2.2.2.2.2]; omega

section Run
variable (V : (c : Dev nD) → (b : Ref sig .tc) → Buf (Elt Ideal) ((c : Thread nD τ).loc b))

abbrev b0 (c : Dev nD) (t : Fin cfg2.N) : Vec Ideal S1024 .i32 := iblk2 (F := Ideal) V c 0 t
abbrev b1 (c : Dev nD) (t : Fin cfg2.N) : Vec Ideal S1024 .i32 := iblk2 (F := Ideal) V c 1 t
abbrev b2 (c : Dev nD) (t : Fin cfg2.N) : Vec Ideal S1024 .i32 := iblk2 (F := Ideal) V c 2 t
abbrev b3 (c : Dev nD) (t : Fin cfg2.N) : Vec Ideal S1024 .f32 := iblk2 (F := Ideal) V c 3 t
abbrev b4 (c : Dev nD) (t : Fin cfg2.N) : Vec Ideal S64x24 .f32 := iblk2 (F := Ideal) V c 4 t
abbrev b5 (c : Dev nD) (t : Fin cfg2.N) : Vec Ideal S64x24 .f32 := iblk2 (F := Ideal) V c 5 t
abbrev b6 (c : Dev nD) (t : Fin cfg2.N) : Vec Ideal S64x1 .f32 := iblk2 (F := Ideal) V c 6 t
abbrev b7 (c : Dev nD) (t : Fin cfg2.N) : Vec Ideal S64x40960 .f32 := iblk2 (F := Ideal) V c 7 t

theorem b0_eq (c : Dev nD) (t : Fin cfg2.N) (A : TEp.Idx → BitVec 32) (h : V c (Pipeline.arrRef spec2 0) = A) :
    b0 V c t = blkE A (tile t) := by subst h; exact read_e0 t _
theorem b1_eq (c : Dev nD) (t : Fin cfg2.N) (A : TEp.Idx → BitVec 32) (h : V c (Pipeline.arrRef spec2 1) = A) :
    b1 V c t = blkE A (tile t) := by subst h; exact read_e1 t _
theorem b2_eq (c : Dev nD) (t : Fin cfg2.N) (A : TEp.Idx → BitVec 32) (h : V c (Pipeline.arrRef spec2 2) = A) :
    b2 V c t = blkE A (tile t) := by subst h; exact read_e2 t _
theorem b3_eq (c : Dev nD) (t : Fin cfg2.N) (A : TEp.Idx → EReal) (h : V c (Pipeline.arrRef spec2 3) = A) :
    b3 V c t = blkE A (tile t) := by subst h; exact read_e3 t _
theorem b4_eq (c : Dev nD) (t : Fin cfg2.N) (A : TA.Idx → EReal) (h : V c (Pipeline.arrRef spec2 4) = A) :
    b4 V c t = A := by subst h; exact read_w4 t _
theorem b5_eq (c : Dev nD) (t : Fin cfg2.N) (A : TA.Idx → EReal) (h : V c (Pipeline.arrRef spec2 5) = A) :
    b5 V c t = A := by subst h; exact read_w5 t _
theorem b6_eq (c : Dev nD) (t : Fin cfg2.N) (A : TS.Idx → EReal) (h : V c (Pipeline.arrRef spec2 6) = A) :
    b6 V c t = A := by subst h; exact read_w6 t _
theorem b7_eq (c : Dev nD) (t : Fin cfg2.N) (A : TMp.Idx → EReal) (h : V c (Pipeline.arrRef spec2 7) = A) :
    b7 V c t = A := by subst h; exact read_w7 t _

theorem outsAt_eq (c : Dev nD) (eh et er : TEp.Idx → BitVec 32) (vals : TEp.Idx → EReal) (afwd arev : TA.Idx → EReal) (mem : TMp.Idx → EReal)
    (h0 : V c (Pipeline.arrRef spec2 0) = eh) (h1 : V c (Pipeline.arrRef spec2 1) = et) (h2 : V c (Pipeline.arrRef spec2 2) = er) (h3 : V c (Pipeline.arrRef spec2 3) = vals) (h4 : V c (Pipeline.arrRef spec2 4) = afwd) (h5 : V c (Pipeline.arrRef spec2 5) = arev) (h7 : V c (Pipeline.arrRef spec2 7) = mem) :
    ∀ (n : ℕ) (h : n < cfg2.N), n < 292 → outsAt2 (F := Ideal) V c n h = stepAcc eh et er vals afwd arev mem (n + 1)
  | 0, h, _ => by
    rw [outsAt2_A V c ⟨0, h⟩ (Nat.zero_mod _) (by show ¬0 % 293 = 292; omega)]
    refine (StepCases.out2_A c (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) (ms2_6 ⟨0, h⟩) (hs2_6 ⟨0, h⟩) (ms2_7 ⟨0, h⟩) (hs2_7 ⟨0, h⟩) (ms2_8 ⟨0, h⟩) (hs2_8 ⟨0, h⟩) (grid2.coords ⟨0, h⟩) _ _ (b0 V c ⟨0, h⟩) (b1 V c ⟨0, h⟩) (b2 V c ⟨0, h⟩) (b3 V c ⟨0, h⟩) (b4 V c ⟨0, h⟩) (b5 V c ⟨0, h⟩) (b6 V c ⟨0, h⟩) (b7 V c ⟨0, h⟩)).trans ?_
    rw [stepAcc_succ eh et er vals afwd arev mem 0 (by decide), b0_eq V c ⟨0, h⟩ eh h0, b1_eq V c ⟨0, h⟩ et h1, b2_eq V c ⟨0, h⟩ er h2, b3_eq V c ⟨0, h⟩ vals h3, b4_eq V c ⟨0, h⟩ afwd h4, b5_eq V c ⟨0, h⟩ arev h5, b7_eq V c ⟨0, h⟩ mem h7]
    rfl
  | n + 1, h, hlt => by
    have hB0 : ¬(⟨n + 1, h⟩ : Fin cfg2.N).val % 293 = 0 := by dsimp only; omega
    have hB1 : ¬(⟨n + 1, h⟩ : Fin cfg2.N).val % 293 = 292 := by dsimp only; omega
    rw [outsAt2_B V c ⟨n + 1, h⟩ hB0 hB1]
    refine (StepCases.out2_B c (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) (ms2_7 ⟨n + 1, h⟩) (hs2_7 ⟨n + 1, h⟩) (ms2_8 ⟨n + 1, h⟩) (hs2_8 ⟨n + 1, h⟩) (grid2.coords ⟨n + 1, h⟩) _ _ (b0 V c ⟨n + 1, h⟩) (b1 V c ⟨n + 1, h⟩) (b2 V c ⟨n + 1, h⟩) (b3 V c ⟨n + 1, h⟩) (b4 V c ⟨n + 1, h⟩) (b5 V c ⟨n + 1, h⟩) (b6 V c ⟨n + 1, h⟩) (b7 V c ⟨n + 1, h⟩) (outsAt2 (F := Ideal) V c n (Nat.lt_of_succ_lt h))).trans ?_
    rw [outsAt_eq c eh et er vals afwd arev mem h0 h1 h2 h3 h4 h5 h7 n (Nat.lt_of_succ_lt h) (by omega),
      stepAcc_succ eh et er vals afwd arev mem (n + 1) (by omega), b0_eq V c ⟨n + 1, h⟩ eh h0, b1_eq V c ⟨n + 1, h⟩ et h1, b2_eq V c ⟨n + 1, h⟩ er h2, b3_eq V c ⟨n + 1, h⟩ vals h3, b4_eq V c ⟨n + 1, h⟩ afwd h4, b5_eq V c ⟨n + 1, h⟩ arev h5, b7_eq V c ⟨n + 1, h⟩ mem h7]
    rfl

theorem outsAt_last (c : Dev nD) (eh et er : TEp.Idx → BitVec 32) (vals : TEp.Idx → EReal) (afwd arev : TA.Idx → EReal) (aself : TS.Idx → EReal) (mem : TMp.Idx → EReal)
    (h0 : V c (Pipeline.arrRef spec2 0) = eh) (h1 : V c (Pipeline.arrRef spec2 1) = et) (h2 : V c (Pipeline.arrRef spec2 2) = er) (h3 : V c (Pipeline.arrRef spec2 3) = vals) (h4 : V c (Pipeline.arrRef spec2 4) = afwd) (h5 : V c (Pipeline.arrRef spec2 5) = arev) (h6 : V c (Pipeline.arrRef spec2 6) = aself) (h7 : V c (Pipeline.arrRef spec2 7) = mem) (h : 292 < cfg2.N) :
    outsAt2 (F := Ideal) V c 292 h = stepK eh et er vals afwd arev aself mem := by
  rw [outsAt2_C V c ⟨292, h⟩ (by show ¬292 % 293 = 0; omega) (by show 292 % 293 = 292; omega)]
  refine (StepCases.out2_C c (ms2_0 ⟨292, h⟩) (hs2_0 ⟨292, h⟩) (ms2_1 ⟨292, h⟩) (hs2_1 ⟨292, h⟩) (ms2_2 ⟨292, h⟩) (hs2_2 ⟨292, h⟩) (ms2_3 ⟨292, h⟩) (hs2_3 ⟨292, h⟩) (ms2_4 ⟨292, h⟩) (hs2_4 ⟨292, h⟩) (ms2_5 ⟨292, h⟩) (hs2_5 ⟨292, h⟩) (ms2_6 ⟨292, h⟩) (hs2_6 ⟨292, h⟩) (ms2_7 ⟨292, h⟩) (hs2_7 ⟨292, h⟩) (ms2_8 ⟨292, h⟩) (hs2_8 ⟨292, h⟩) (grid2.coords ⟨292, h⟩) _ _ (b0 V c ⟨292, h⟩) (b1 V c ⟨292, h⟩) (b2 V c ⟨292, h⟩) (b3 V c ⟨292, h⟩) (b4 V c ⟨292, h⟩) (b5 V c ⟨292, h⟩) (b6 V c ⟨292, h⟩) (b7 V c ⟨292, h⟩) (outsAt2 (F := Ideal) V c 291 (Nat.lt_of_succ_lt h))).trans ?_
  rw [outsAt_eq V c eh et er vals afwd arev mem h0 h1 h2 h3 h4 h5 h7 291 (Nat.lt_of_succ_lt h) (by decide)]
  show _ = fun i => stepAcc eh et er vals afwd arev mem (292 + 1) i + mem i * aself (ix2 (i 0) 0)
  rw [stepAcc_succ eh et er vals afwd arev mem 292 (by decide), b0_eq V c ⟨292, h⟩ eh h0, b1_eq V c ⟨292, h⟩ et h1, b2_eq V c ⟨292, h⟩ er h2, b3_eq V c ⟨292, h⟩ vals h3, b4_eq V c ⟨292, h⟩ afwd h4, b5_eq V c ⟨292, h⟩ arev h5, b6_eq V c ⟨292, h⟩ aself h6, b7_eq V c ⟨292, h⟩ mem h7]
  rfl

theorem flushed_eq (c : Dev nD) (eh et er : TEp.Idx → BitVec 32) (vals : TEp.Idx → EReal) (afwd arev : TA.Idx → EReal) (aself : TS.Idx → EReal) (mem : TMp.Idx → EReal)
    (h0 : V c (Pipeline.arrRef spec2 0) = eh) (h1 : V c (Pipeline.arrRef spec2 1) = et) (h2 : V c (Pipeline.arrRef spec2 2) = er) (h3 : V c (Pipeline.arrRef spec2 3) = vals) (h4 : V c (Pipeline.arrRef spec2 4) = afwd) (h5 : V c (Pipeline.arrRef spec2 5) = arev) (h6 : V c (Pipeline.arrRef spec2 6) = aself) (h7 : V c (Pipeline.arrRef spec2 7) = mem) (t : Fin cfg2.N) (hf : (cfg2.win 8).flush t = true) :
    (dat2 (F := Ideal) V c).flushed 8 t
      = ((cfg2.win 8).blk t).view.read (Elt Ideal) (stepK eh et er vals afwd arev aself mem) := by
  have hN : t.val < 293 := lt_of_lt_of_eq t.isLt (show cfg2.N = 293 from N_2)
  have h292 : t.val = 292 := by have := (flush2_8 t).mp hf; omega
  obtain rfl : t = tLast := Fin.ext h292
  show (cfg2.win 8).cut (grid2.coords tLast) ((dat2 (F := Ideal) V c).after 8 tLast) = _
  rw [after2_8]
  exact (outsAt_last V c eh et er vals afwd arev aself mem h0 h1 h2 h3 h4 h5 h6 h7 tLast.isLt).trans (read_w8 tLast _).symm

theorem step_value (c : Dev nD) (eh et er : TEp.Idx → BitVec 32) (vals : TEp.Idx → EReal) (afwd arev : TA.Idx → EReal)
    (aself : TS.Idx → EReal) (mem : TMp.Idx → EReal)
    (h0 : V c (Pipeline.arrRef spec2 0) = eh) (h1 : V c (Pipeline.arrRef spec2 1) = et) (h2 : V c (Pipeline.arrRef spec2 2) = er) (h3 : V c (Pipeline.arrRef spec2 3) = vals) (h4 : V c (Pipeline.arrRef spec2 4) = afwd) (h5 : V c (Pipeline.arrRef spec2 5) = arev) (h6 : V c (Pipeline.arrRef spec2 6) = aself) (h7 : V c (Pipeline.arrRef spec2 7) = mem) :
    (dat2 (F := Ideal) V c).arrAt 8 cfg2.N = stepK eh et er vals afwd arev aself mem :=
  (dat2 (F := Ideal) V c).arrAt_eq_of_cover 8 _
    (fun t hf => flushed_eq V c eh et er vals afwd arev aself mem h0 h1 h2 h3 h4 h5 h6 h7 t hf) cover

end Run

end R2

namespace R3

theorem idx_facts : ∀ t : Fin cfg3.N, win3_0.index t (0 : Fin 1) = t.val ∧ win3_1.index t (0 : Fin 1) = t.val
    ∧ win3_2.index t (0 : Fin 1) = t.val ∧ win3_3.index t (0 : Fin 1) = t.val
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = 0 ∧ win3_7.index t (1 : Fin 2) = 0)
    ∧ (win3_8.index t (0 : Fin 2) = 0 ∧ win3_8.index t (1 : Fin 2) = 0) :=
  (by decide +kernel : ∀ t : Fin grid3.N, _)

abbrev tile (t : Fin cfg3.N) : Fin 293 := Fin.cast N_3 t

theorem read_e0 (t : Fin cfg3.N) (A : TEp.Idx → BitVec 32) :
    (((cfg3.win 0).blk t).view.read (Elt Ideal) A : T1024.Idx → BitVec 32) = blkE A (tile t) := by
  funext y
  show A (((cfg3.win 0).blk t).view.emb y) = A (ix1 ⟨t.val * 1024 + (y 0).val, _⟩)
  congr 1
  funext a; apply Fin.ext
  match a with
  | ⟨0, _⟩ =>
    show win3_0.index t (0 : Fin 1) * 1024 + 1 * (y 0).val = t.val * 1024 + (y 0).val
    rw [(idx_facts t).1]; omega

theorem read_e1 (t : Fin cfg3.N) (A : TEp.Idx → BitVec 32) :
    (((cfg3.win 1).blk t).view.read (Elt Ideal) A : T1024.Idx → BitVec 32) = blkE A (tile t) := by
  funext y
  show A (((cfg3.win 1).blk t).view.emb y) = A (ix1 ⟨t.val * 1024 + (y 0).val, _⟩)
  congr 1
  funext a; apply Fin.ext
  match a with
  | ⟨0, _⟩ =>
    show win3_1.index t (0 : Fin 1) * 1024 + 1 * (y 0).val = t.val * 1024 + (y 0).val
    rw [(idx_facts t).2.1]; omega

theorem read_e2 (t : Fin cfg3.N) (A : TEp.Idx → BitVec 32) :
    (((cfg3.win 2).blk t).view.read (Elt Ideal) A : T1024.Idx → BitVec 32) = blkE A (tile t) := by
  funext y
  show A (((cfg3.win 2).blk t).view.emb y) = A (ix1 ⟨t.val * 1024 + (y 0).val, _⟩)
  congr 1
  funext a; apply Fin.ext
  match a with
  | ⟨0, _⟩ =>
    show win3_2.index t (0 : Fin 1) * 1024 + 1 * (y 0).val = t.val * 1024 + (y 0).val
    rw [(idx_facts t).2.2.1]; omega

theorem read_e3 (t : Fin cfg3.N) (A : TEp.Idx → EReal) :
    (((cfg3.win 3).blk t).view.read (Elt Ideal) A : T1024.Idx → EReal) = blkE A (tile t) := by
  funext y
  show A (((cfg3.win 3).blk t).view.emb y) = A (ix1 ⟨t.val * 1024 + (y 0).val, _⟩)
  congr 1
  funext a; apply Fin.ext
  match a with
  | ⟨0, _⟩ =>
    show win3_3.index t (0 : Fin 1) * 1024 + 1 * (y 0).val = t.val * 1024 + (y 0).val
    rw [(idx_facts t).2.2.2.1]; omega

theorem read_w4 (t : Fin cfg3.N) (A : TA.Idx → EReal) :
    (((cfg3.win 4).blk t).view.read (Elt Ideal) A : TA.Idx → EReal) = A := by
  funext y
  show A (((cfg3.win 4).blk t).view.emb y) = A y
  congr 1
  funext a; apply Fin.ext
  match a with
  | ⟨0, _⟩ =>
    show win3_4.index t (0 : Fin 2) * 64 + 1 * (y 0).val = (y 0).val
    rw [(idx_facts t).2.2.2.2.1.1]; omega
  | ⟨1, _⟩ =>
    show win3_4.index t (1 : Fin 2) * 24 + 1 * (y 1).val = (y 1).val
    rw [(idx_facts t).2.2.2.2.1.2]; omega

theorem read_w5 (t : Fin cfg3.N) (A : TA.Idx → EReal) :
    (((cfg3.win 5).blk t).view.read (Elt Ideal) A : TA.Idx → EReal) = A := by
  funext y
  show A (((cfg3.win 5).blk t).view.emb y) = A y
  congr 1
  funext a; apply Fin.ext
  match a with
  | ⟨0, _⟩ =>
    show win3_5.index t (0 : Fin 2) * 64 + 1 * (y 0).val = (y 0).val
    rw [(idx_facts t).2.2.2.2.2.1.1]; omega
  | ⟨1, _⟩ =>
    show win3_5.index t (1 : Fin 2) * 24 + 1 * (y 1).val = (y 1).val
    rw [(idx_facts t).2.2.2.2.2.1.2]; omega

theorem read_w6 (t : Fin cfg3.N) (A : TS.Idx → EReal) :
    (((cfg3.win 6).blk t).view.read (Elt Ideal) A : TS.Idx → EReal) = A := by
  funext y
  show A (((cfg3.win 6).blk t).view.emb y) = A y
  congr 1
  funext a; apply Fin.ext
  match a with
  | ⟨0, _⟩ =>
    show win3_6.index t (0 : Fin 2) * 64 + 1 * (y 0).val = (y 0).val
    rw [(idx_facts t).2.2.2.2.2.2.1.1]; omega
  | ⟨1, _⟩ =>
    show win3_6.index t (1 : Fin 2) * 1 + 1 * (y 1).val = (y 1).val
    rw [(idx_facts t).2.2.2.2.2.2.1.2]; omega

theorem read_w7 (t : Fin cfg3.N) (A : TMp.Idx → EReal) :
    (((cfg3.win 7).blk t).view.read (Elt Ideal) A : TMp.Idx → EReal) = A := by
  funext y
  show A (((cfg3.win 7).blk t).view.emb y) = A y
  congr 1
  funext a; apply Fin.ext
  match a with
  | ⟨0, _⟩ =>
    show win3_7.index t (0 : Fin 2) * 64 + 1 * (y 0).val = (y 0).val
    rw [(idx_facts t).2.2.2.2.2.2.2.1.1]; omega
  | ⟨1, _⟩ =>
    show win3_7.index t (1 : Fin 2) * 40960 + 1 * (y 1).val = (y 1).val
    rw [(idx_facts t).2.2.2.2.2.2.2.1.2]; omega

theorem read_w8 (t : Fin cfg3.N) (A : TMp.Idx → EReal) :
    (((cfg3.win 8).blk t).view.read (Elt Ideal) A : TMp.Idx → EReal) = A := by
  funext y
  show A (((cfg3.win 8).blk t).view.emb y) = A y
  congr 1
  funext a; apply Fin.ext
  match a with
  | ⟨0, _⟩ =>
    show win3_8.index t (0 : Fin 2) * 64 + 1 * (y 0).val = (y 0).val
    rw [(idx_facts t).2.2.2.2.2.2.2.2.1]; omega
  | ⟨1, _⟩ =>
    show win3_8.index t (1 : Fin 2) * 40960 + 1 * (y 1).val = (y 1).val
    rw [(idx_facts t).2.2.2.2.2.2.2.2.2]; omega

abbrev tLast : Fin cfg3.N := Fin.cast N_3.symm ⟨292, by decide⟩

theorem mem_blk (t : Fin cfg3.N) (i : TMp.Idx) :
    i ∈ ((cfg3.win 8).blk t).view.set ↔ ∀ a : Fin 2, win3_8.index t a * S64x40960.size a ≤ (i a).val ∧ (i a).val < win3_8.index t a * S64x40960.size a + S64x40960.size a := by
  show i ∈ ((View.whole (Pipeline.arrRef spec3 8)).slice (win3_8.rect t)).set ↔ _
  rw [View.set_slice_whole, Rect.mem_set_unit]
  exact Iff.rfl

theorem cover (i : TMp.Idx) : ∃ t : Fin cfg3.N, (cfg3.win 8).flush t = true ∧ i ∈ ((cfg3.win 8).blk t).view.set := by
  refine ⟨tLast, (flush3_8 tLast).mpr rfl, ?_⟩
  rw [mem_blk]
  intro a
  have h0 : (i 0).val < 64 := (i 0).isLt
  have h1 : (i 1).val < 40960 := (i 1).isLt
  match a with
  | ⟨0, _⟩ =>
    show win3_8.index tLast (0 : Fin 2) * 64 ≤ (i 0).val ∧ (i 0).val < win3_8.index tLast (0 : Fin 2) * 64 + 64
    rw [(idx_facts tLast).2.2.2.2.2.2.2.2.1]; omega
  | ⟨1, _⟩ =>
    show win3_8.index tLast (1 : Fin 2) * 40960 ≤ (i 1).val ∧ (i 1).val < win3_8.index tLast (1 : Fin 2) * 40960 + 40960
    rw [(idx_facts tLast).2.2.2.2.2.2.2.2.2]; omega

section Run
variable (V : (c : Dev nD) → (b : Ref sig .tc) → Buf (Elt Ideal) ((c : Thread nD τ).loc b))

abbrev b0 (c : Dev nD) (t : Fin cfg3.N) : Vec Ideal S1024 .i32 := iblk3 (F := Ideal) V c 0 t
abbrev b1 (c : Dev nD) (t : Fin cfg3.N) : Vec Ideal S1024 .i32 := iblk3 (F := Ideal) V c 1 t
abbrev b2 (c : Dev nD) (t : Fin cfg3.N) : Vec Ideal S1024 .i32 := iblk3 (F := Ideal) V c 2 t
abbrev b3 (c : Dev nD) (t : Fin cfg3.N) : Vec Ideal S1024 .f32 := iblk3 (F := Ideal) V c 3 t
abbrev b4 (c : Dev nD) (t : Fin cfg3.N) : Vec Ideal S64x24 .f32 := iblk3 (F := Ideal) V c 4 t
abbrev b5 (c : Dev nD) (t : Fin cfg3.N) : Vec Ideal S64x24 .f32 := iblk3 (F := Ideal) V c 5 t
abbrev b6 (c : Dev nD) (t : Fin cfg3.N) : Vec Ideal S64x1 .f32 := iblk3 (F := Ideal) V c 6 t
abbrev b7 (c : Dev nD) (t : Fin cfg3.N) : Vec Ideal S64x40960 .f32 := iblk3 (F := Ideal) V c 7 t

theorem b0_eq (c : Dev nD) (t : Fin cfg3.N) (A : TEp.Idx → BitVec 32) (h : V c (Pipeline.arrRef spec3 0) = A) :
    b0 V c t = blkE A (tile t) := by subst h; exact read_e0 t _
theorem b1_eq (c : Dev nD) (t : Fin cfg3.N) (A : TEp.Idx → BitVec 32) (h : V c (Pipeline.arrRef spec3 1) = A) :
    b1 V c t = blkE A (tile t) := by subst h; exact read_e1 t _
theorem b2_eq (c : Dev nD) (t : Fin cfg3.N) (A : TEp.Idx → BitVec 32) (h : V c (Pipeline.arrRef spec3 2) = A) :
    b2 V c t = blkE A (tile t) := by subst h; exact read_e2 t _
theorem b3_eq (c : Dev nD) (t : Fin cfg3.N) (A : TEp.Idx → EReal) (h : V c (Pipeline.arrRef spec3 3) = A) :
    b3 V c t = blkE A (tile t) := by subst h; exact read_e3 t _
theorem b4_eq (c : Dev nD) (t : Fin cfg3.N) (A : TA.Idx → EReal) (h : V c (Pipeline.arrRef spec3 4) = A) :
    b4 V c t = A := by subst h; exact read_w4 t _
theorem b5_eq (c : Dev nD) (t : Fin cfg3.N) (A : TA.Idx → EReal) (h : V c (Pipeline.arrRef spec3 5) = A) :
    b5 V c t = A := by subst h; exact read_w5 t _
theorem b6_eq (c : Dev nD) (t : Fin cfg3.N) (A : TS.Idx → EReal) (h : V c (Pipeline.arrRef spec3 6) = A) :
    b6 V c t = A := by subst h; exact read_w6 t _
theorem b7_eq (c : Dev nD) (t : Fin cfg3.N) (A : TMp.Idx → EReal) (h : V c (Pipeline.arrRef spec3 7) = A) :
    b7 V c t = A := by subst h; exact read_w7 t _

theorem outsAt_eq (c : Dev nD) (eh et er : TEp.Idx → BitVec 32) (vals : TEp.Idx → EReal) (afwd arev : TA.Idx → EReal) (mem : TMp.Idx → EReal)
    (h0 : V c (Pipeline.arrRef spec3 0) = eh) (h1 : V c (Pipeline.arrRef spec3 1) = et) (h2 : V c (Pipeline.arrRef spec3 2) = er) (h3 : V c (Pipeline.arrRef spec3 3) = vals) (h4 : V c (Pipeline.arrRef spec3 4) = afwd) (h5 : V c (Pipeline.arrRef spec3 5) = arev) (h7 : V c (Pipeline.arrRef spec3 7) = mem) :
    ∀ (n : ℕ) (h : n < cfg3.N), n < 292 → outsAt3 (F := Ideal) V c n h = stepAcc eh et er vals afwd arev mem (n + 1)
  | 0, h, _ => by
    rw [outsAt3_A V c ⟨0, h⟩ (Nat.zero_mod _) (by show ¬0 % 293 = 292; omega)]
    refine (StepCases.out3_A c (ms3_0 ⟨0, h⟩) (hs3_0 ⟨0, h⟩) (ms3_1 ⟨0, h⟩) (hs3_1 ⟨0, h⟩) (ms3_2 ⟨0, h⟩) (hs3_2 ⟨0, h⟩) (ms3_3 ⟨0, h⟩) (hs3_3 ⟨0, h⟩) (ms3_4 ⟨0, h⟩) (hs3_4 ⟨0, h⟩) (ms3_5 ⟨0, h⟩) (hs3_5 ⟨0, h⟩) (ms3_6 ⟨0, h⟩) (hs3_6 ⟨0, h⟩) (ms3_7 ⟨0, h⟩) (hs3_7 ⟨0, h⟩) (ms3_8 ⟨0, h⟩) (hs3_8 ⟨0, h⟩) (grid3.coords ⟨0, h⟩) _ _ (b0 V c ⟨0, h⟩) (b1 V c ⟨0, h⟩) (b2 V c ⟨0, h⟩) (b3 V c ⟨0, h⟩) (b4 V c ⟨0, h⟩) (b5 V c ⟨0, h⟩) (b6 V c ⟨0, h⟩) (b7 V c ⟨0, h⟩)).trans ?_
    rw [stepAcc_succ eh et er vals afwd arev mem 0 (by decide), b0_eq V c ⟨0, h⟩ eh h0, b1_eq V c ⟨0, h⟩ et h1, b2_eq V c ⟨0, h⟩ er h2, b3_eq V c ⟨0, h⟩ vals h3, b4_eq V c ⟨0, h⟩ afwd h4, b5_eq V c ⟨0, h⟩ arev h5, b7_eq V c ⟨0, h⟩ mem h7]
    rfl
  | n + 1, h, hlt => by
    have hB0 : ¬(⟨n + 1, h⟩ : Fin cfg3.N).val % 293 = 0 := by dsimp only; omega
    have hB1 : ¬(⟨n + 1, h⟩ : Fin cfg3.N).val % 293 = 292 := by dsimp only; omega
    rw [outsAt3_B V c ⟨n + 1, h⟩ hB0 hB1]
    refine (StepCases.out3_B c (ms3_0 ⟨n + 1, h⟩) (hs3_0 ⟨n + 1, h⟩) (ms3_1 ⟨n + 1, h⟩) (hs3_1 ⟨n + 1, h⟩) (ms3_2 ⟨n + 1, h⟩) (hs3_2 ⟨n + 1, h⟩) (ms3_3 ⟨n + 1, h⟩) (hs3_3 ⟨n + 1, h⟩) (ms3_4 ⟨n + 1, h⟩) (hs3_4 ⟨n + 1, h⟩) (ms3_5 ⟨n + 1, h⟩) (hs3_5 ⟨n + 1, h⟩) (ms3_6 ⟨n + 1, h⟩) (hs3_6 ⟨n + 1, h⟩) (ms3_7 ⟨n + 1, h⟩) (hs3_7 ⟨n + 1, h⟩) (ms3_8 ⟨n + 1, h⟩) (hs3_8 ⟨n + 1, h⟩) (grid3.coords ⟨n + 1, h⟩) _ _ (b0 V c ⟨n + 1, h⟩) (b1 V c ⟨n + 1, h⟩) (b2 V c ⟨n + 1, h⟩) (b3 V c ⟨n + 1, h⟩) (b4 V c ⟨n + 1, h⟩) (b5 V c ⟨n + 1, h⟩) (b6 V c ⟨n + 1, h⟩) (b7 V c ⟨n + 1, h⟩) (outsAt3 (F := Ideal) V c n (Nat.lt_of_succ_lt h))).trans ?_
    rw [outsAt_eq c eh et er vals afwd arev mem h0 h1 h2 h3 h4 h5 h7 n (Nat.lt_of_succ_lt h) (by omega),
      stepAcc_succ eh et er vals afwd arev mem (n + 1) (by omega), b0_eq V c ⟨n + 1, h⟩ eh h0, b1_eq V c ⟨n + 1, h⟩ et h1, b2_eq V c ⟨n + 1, h⟩ er h2, b3_eq V c ⟨n + 1, h⟩ vals h3, b4_eq V c ⟨n + 1, h⟩ afwd h4, b5_eq V c ⟨n + 1, h⟩ arev h5, b7_eq V c ⟨n + 1, h⟩ mem h7]
    rfl

theorem outsAt_last (c : Dev nD) (eh et er : TEp.Idx → BitVec 32) (vals : TEp.Idx → EReal) (afwd arev : TA.Idx → EReal) (aself : TS.Idx → EReal) (mem : TMp.Idx → EReal)
    (h0 : V c (Pipeline.arrRef spec3 0) = eh) (h1 : V c (Pipeline.arrRef spec3 1) = et) (h2 : V c (Pipeline.arrRef spec3 2) = er) (h3 : V c (Pipeline.arrRef spec3 3) = vals) (h4 : V c (Pipeline.arrRef spec3 4) = afwd) (h5 : V c (Pipeline.arrRef spec3 5) = arev) (h6 : V c (Pipeline.arrRef spec3 6) = aself) (h7 : V c (Pipeline.arrRef spec3 7) = mem) (h : 292 < cfg3.N) :
    outsAt3 (F := Ideal) V c 292 h = stepK eh et er vals afwd arev aself mem := by
  rw [outsAt3_C V c ⟨292, h⟩ (by show ¬292 % 293 = 0; omega) (by show 292 % 293 = 292; omega)]
  refine (StepCases.out3_C c (ms3_0 ⟨292, h⟩) (hs3_0 ⟨292, h⟩) (ms3_1 ⟨292, h⟩) (hs3_1 ⟨292, h⟩) (ms3_2 ⟨292, h⟩) (hs3_2 ⟨292, h⟩) (ms3_3 ⟨292, h⟩) (hs3_3 ⟨292, h⟩) (ms3_4 ⟨292, h⟩) (hs3_4 ⟨292, h⟩) (ms3_5 ⟨292, h⟩) (hs3_5 ⟨292, h⟩) (ms3_6 ⟨292, h⟩) (hs3_6 ⟨292, h⟩) (ms3_7 ⟨292, h⟩) (hs3_7 ⟨292, h⟩) (ms3_8 ⟨292, h⟩) (hs3_8 ⟨292, h⟩) (grid3.coords ⟨292, h⟩) _ _ (b0 V c ⟨292, h⟩) (b1 V c ⟨292, h⟩) (b2 V c ⟨292, h⟩) (b3 V c ⟨292, h⟩) (b4 V c ⟨292, h⟩) (b5 V c ⟨292, h⟩) (b6 V c ⟨292, h⟩) (b7 V c ⟨292, h⟩) (outsAt3 (F := Ideal) V c 291 (Nat.lt_of_succ_lt h))).trans ?_
  rw [outsAt_eq V c eh et er vals afwd arev mem h0 h1 h2 h3 h4 h5 h7 291 (Nat.lt_of_succ_lt h) (by decide)]
  show _ = fun i => stepAcc eh et er vals afwd arev mem (292 + 1) i + mem i * aself (ix2 (i 0) 0)
  rw [stepAcc_succ eh et er vals afwd arev mem 292 (by decide), b0_eq V c ⟨292, h⟩ eh h0, b1_eq V c ⟨292, h⟩ et h1, b2_eq V c ⟨292, h⟩ er h2, b3_eq V c ⟨292, h⟩ vals h3, b4_eq V c ⟨292, h⟩ afwd h4, b5_eq V c ⟨292, h⟩ arev h5, b6_eq V c ⟨292, h⟩ aself h6, b7_eq V c ⟨292, h⟩ mem h7]
  rfl

theorem flushed_eq (c : Dev nD) (eh et er : TEp.Idx → BitVec 32) (vals : TEp.Idx → EReal) (afwd arev : TA.Idx → EReal) (aself : TS.Idx → EReal) (mem : TMp.Idx → EReal)
    (h0 : V c (Pipeline.arrRef spec3 0) = eh) (h1 : V c (Pipeline.arrRef spec3 1) = et) (h2 : V c (Pipeline.arrRef spec3 2) = er) (h3 : V c (Pipeline.arrRef spec3 3) = vals) (h4 : V c (Pipeline.arrRef spec3 4) = afwd) (h5 : V c (Pipeline.arrRef spec3 5) = arev) (h6 : V c (Pipeline.arrRef spec3 6) = aself) (h7 : V c (Pipeline.arrRef spec3 7) = mem) (t : Fin cfg3.N) (hf : (cfg3.win 8).flush t = true) :
    (dat3 (F := Ideal) V c).flushed 8 t
      = ((cfg3.win 8).blk t).view.read (Elt Ideal) (stepK eh et er vals afwd arev aself mem) := by
  have hN : t.val < 293 := lt_of_lt_of_eq t.isLt (show cfg3.N = 293 from N_3)
  have h292 : t.val = 292 := by have := (flush3_8 t).mp hf; omega
  obtain rfl : t = tLast := Fin.ext h292
  show (cfg3.win 8).cut (grid3.coords tLast) ((dat3 (F := Ideal) V c).after 8 tLast) = _
  rw [after3_8]
  exact (outsAt_last V c eh et er vals afwd arev aself mem h0 h1 h2 h3 h4 h5 h6 h7 tLast.isLt).trans (read_w8 tLast _).symm

theorem step_value (c : Dev nD) (eh et er : TEp.Idx → BitVec 32) (vals : TEp.Idx → EReal) (afwd arev : TA.Idx → EReal)
    (aself : TS.Idx → EReal) (mem : TMp.Idx → EReal)
    (h0 : V c (Pipeline.arrRef spec3 0) = eh) (h1 : V c (Pipeline.arrRef spec3 1) = et) (h2 : V c (Pipeline.arrRef spec3 2) = er) (h3 : V c (Pipeline.arrRef spec3 3) = vals) (h4 : V c (Pipeline.arrRef spec3 4) = afwd) (h5 : V c (Pipeline.arrRef spec3 5) = arev) (h6 : V c (Pipeline.arrRef spec3 6) = aself) (h7 : V c (Pipeline.arrRef spec3 7) = mem) :
    (dat3 (F := Ideal) V c).arrAt 8 cfg3.N = stepK eh et er vals afwd arev aself mem :=
  (dat3 (F := Ideal) V c).arrAt_eq_of_cover 8 _
    (fun t hf => flushed_eq V c eh et er vals afwd arev aself mem h0 h1 h2 h3 h4 h5 h6 h7 t hf) cover

end Run

end R3

end Cert.KernelIdeal.StepArray

end
-- ==== Proof.KernelValue.lean ====
/-
  The kernel program's two results, over the extended reals, as functions of its eight inputs. Each step's output array is one tiled step
  of what the step found in its input arrays, so the third step's output is the tiled memory after three steps, and the
  results are the closing operations of its first 40000 columns.
-/
import proofs.«408331_j31499290149149_3_alg».proof.Proof.FrameKI
import proofs.«408331_j31499290149149_3_alg».proof.Proof.RunValues
import proofs.«408331_j31499290149149_3_alg».proof.Proof.TailValue
import proofs.«408331_j31499290149149_3_alg».proof.Proof.Entry01
import proofs.«408331_j31499290149149_3_alg».proof.Proof.Entry23
import proofs.«408331_j31499290149149_3_alg».proof.Proof.KillValue
import proofs.«408331_j31499290149149_3_alg».proof.Proof.StepArray
import proofs.«408331_j31499290149149_3_alg».proof.Proof.Spec

noncomputable section

namespace Cert.KernelIdeal.KValue

open Cert.KernelIdeal Cert.KernelIdeal.Gen Cert.KernelIdeal.GenP Cert.MsgSpec Idealize.ShloMosaic Idealize.SL.Sem

variable (m : (ℓ : Loc nD τ sig) → Buf (Elt Ideal) ℓ) (ρ : Dev nD → PrngReg)

abbrev qh (c : Dev nD) : T64.Idx → BitVec 32 := m ((c.tc : Thread nD τ).loc main_arg0)
abbrev qr (c : Dev nD) : T64.Idx → BitVec 32 := m ((c.tc : Thread nD τ).loc main_arg1)
abbrev tt (c : Dev nD) : T64.Idx → BitVec 32 := m ((c.tc : Thread nD τ).loc main_arg2)
abbrev attention (c : Dev nD) : TAttn3.Idx → EReal := m ((c.tc : Thread nD τ).loc main_arg3)
abbrev eh (c : Dev nD) : TE.Idx → BitVec 32 := m ((c.tc : Thread nD τ).loc main_arg4)
abbrev et (c : Dev nD) : TE.Idx → BitVec 32 := m ((c.tc : Thread nD τ).loc main_arg5)
abbrev er (c : Dev nD) : TE.Idx → BitVec 32 := m ((c.tc : Thread nD τ).loc main_arg6)
abbrev ev (c : Dev nD) : TE.Idx → EReal := m ((c.tc : Thread nD τ).loc main_arg7)

abbrev valsOf (c : Dev nD) : TEp.Idx → EReal :=
  killK (qh m c) (tt m c) (qr m c) (padE (eh m c) (-1#32)) (padE (et m c) (-1#32)) (padE (er m c) 0#32) (padE (ev m c) (0 : EReal))

abbrev stepOf (c : Dev nD) (s : Fin 3) (mem : TMp.Idx → EReal) : TMp.Idx → EReal :=
  stepK (padE (eh m c) (-1#32)) (padE (et m c) (-1#32)) (padE (er m c) 0#32) (valsOf m c)
    (sliceFwd (attnStep (attention m c) s)) (sliceRev (attnStep (attention m c) s)) (sliceSelf (attnStep (attention m c) s)) mem

theorem vals_eq (c : Dev nD) : (dat0 (V8 m ρ) c).arrAt 7 cfg0.N = valsOf m c :=
  KillValue.kill_value (V8 m ρ) c (qh m c) (tt m c) (qr m c) (padE (eh m c) (-1#32)) (padE (et m c) (-1#32)) (padE (er m c) 0#32) (padE (ev m c) (0 : EReal))
    (Entry01.V8_w0 m ρ c) (Entry01.V8_w1 m ρ c) (Entry01.V8_w2 m ρ c)
    (Entry01.V8_w3 m ρ c) (Entry01.V8_w4 m ρ c) (Entry01.V8_w5 m ρ c) (Entry01.V8_w6 m ρ c)

theorem mem1_eq (c : Dev nD) : (dat1 (V11 m ρ) c).arrAt 8 cfg1.N = stepOf m c 0 (onehotK (qh m c)) :=
  StepArray.R1.step_value (V11 m ρ) c (padE (eh m c) (-1#32)) (padE (et m c) (-1#32)) (padE (er m c) 0#32) (valsOf m c)
    (sliceFwd (attnStep (attention m c) 0)) (sliceRev (attnStep (attention m c) 0)) (sliceSelf (attnStep (attention m c) 0)) (onehotK (qh m c))
    (Entry01.V11_w0 m ρ c) (Entry01.V11_w1 m ρ c) (Entry01.V11_w2 m ρ c)
    ((Entry01.V11_w3 m ρ c).trans (vals_eq m ρ c)) (Entry01.V11_w4 m ρ c) (Entry01.V11_w5 m ρ c) (Entry01.V11_w6 m ρ c) (Entry01.V11_w7 m ρ c)

theorem mem2_eq (c : Dev nD) : (dat2 (V13 m ρ) c).arrAt 8 cfg2.N = stepOf m c 1 (stepOf m c 0 (onehotK (qh m c))) :=
  StepArray.R2.step_value (V13 m ρ) c (padE (eh m c) (-1#32)) (padE (et m c) (-1#32)) (padE (er m c) 0#32) (valsOf m c)
    (sliceFwd (attnStep (attention m c) 1)) (sliceRev (attnStep (attention m c) 1)) (sliceSelf (attnStep (attention m c) 1)) (stepOf m c 0 (onehotK (qh m c)))
    (Entry23.V13_w0 m ρ c) (Entry23.V13_w1 m ρ c) (Entry23.V13_w2 m ρ c)
    ((Entry23.V13_w3 m ρ c).trans (vals_eq m ρ c)) (Entry23.V13_w4 m ρ c) (Entry23.V13_w5 m ρ c) (Entry23.V13_w6 m ρ c)
    ((Entry23.V13_w7 m ρ c).trans (mem1_eq m ρ c))

theorem mem3_eq (c : Dev nD) : (dat3 (V15 m ρ) c).arrAt 8 cfg3.N
    = memK3 (qh m c) (qr m c) (tt m c) (attention m c) (eh m c) (et m c) (er m c) (ev m c) :=
  (StepArray.R3.step_value (V15 m ρ) c (padE (eh m c) (-1#32)) (padE (et m c) (-1#32)) (padE (er m c) 0#32) (valsOf m c)
    (sliceFwd (attnStep (attention m c) 2)) (sliceRev (attnStep (attention m c) 2)) (sliceSelf (attnStep (attention m c) 2))
    (stepOf m c 1 (stepOf m c 0 (onehotK (qh m c))))
    (Entry23.V15_w0 m ρ c) (Entry23.V15_w1 m ρ c) (Entry23.V15_w2 m ρ c)
    ((Entry23.V15_w3 m ρ c).trans (vals_eq m ρ c)) (Entry23.V15_w4 m ρ c) (Entry23.V15_w5 m ρ c) (Entry23.V15_w6 m ρ c)
    ((Entry23.V15_w7 m ρ c).trans (mem2_eq m ρ c))).trans rfl

theorem run_value : θ_run defs (onTc (τ := τ) (main (F := Ideal))) ⟨m, fun _ => 0, ρ⟩ (fun r => ∀ c : Dev nD,
      r.2.mem ((c.tc : Thread nD τ).loc main_v51)
        = Tail.tailLoss (F := Ideal) (cutM (memK3 (qh m c) (qr m c) (tt m c) (attention m c) (eh m c) (et m c) (er m c) (ev m c))) (tt m c)
      ∧ r.2.mem ((c.tc : Thread nD τ).loc main_v30)
        = Tail.tailMem (F := Ideal) (cutM (memK3 (qh m c) (qr m c) (tt m c) (attention m c) (eh m c) (et m c) (er m c) (ev m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c).1.trans ((Tail.W17_v51 m ρ c).trans (by rw [Tail.W16_v23, Tail.W16_arg2, mem3_eq, Tail.sliceM_apply])),
     (h c).2.1.trans ((Tail.W17_v30 m ρ c).trans (by rw [Tail.W16_v23, mem3_eq, Tail.sliceM_apply])),
     (h c).2.2⟩)
    (RunV.run_results m ρ)

end Cert.KernelIdeal.KValue

end
-- ==== Proof.RunRI.lean ====
/-
  The reference program's operations, in order, as eight stretches in a row (a called function's operations stand in its
  call's place), and its run: on every device every buffer ends at the fold of the operations' results over its launch
  contents.
-/
import proofs.«408331_j31499290149149_3_alg».proof.Proof.Gen.ReferenceIdeal
import Idealize.ShloMosaic.Lib.StableHlo.Run

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

-- Every edge compared with every query, reduced over the queries.
abbrev S0a : List (HloOp τ sig (Elt F)) :=
  [ unary main_arg4 main_v0 (broadcastInDim S1x300000 ![1] bcast_S300000_S1x300000_1),
    unary main_arg0 main_v1 (broadcastInDim S64x1 ![0] bcast_S64_S64x1_0),
    unary main_v0 main_v2 (broadcastInDim S64x300000 ![0, 1] bcast_S1x300000_S64x300000_0_1),
    unary main_v1 main_v3 (broadcastInDim S64x300000 ![0, 1] bcast_S64x1_S64x300000_0_1),
    binary main_v2 main_v3 main_v4 (cmpi .eq),
    unary main_arg5 main_v5 (broadcastInDim S1x300000 ![1] bcast_S300000_S1x300000_1),
    unary main_arg2 main_v6 (broadcastInDim S64x1 ![0] bcast_S64_S64x1_0),
    unary main_v5 main_v7 (broadcastInDim S64x300000 ![0, 1] bcast_S1x300000_S64x300000_0_1),
    unary main_v6 main_v8 (broadcastInDim S64x300000 ![0, 1] bcast_S64x1_S64x300000_0_1),
    binary main_v7 main_v8 main_v9 (cmpi .eq),
    binary main_v4 main_v9 main_v10 (andi),
    unary main_arg6 main_v11 (broadcastInDim S1x300000 ![1] bcast_S300000_S1x300000_1),
    unary main_arg1 main_v12 (broadcastInDim S64x1 ![0] bcast_S64_S64x1_0),
    unary main_v11 main_v13 (broadcastInDim S64x300000 ![0, 1] bcast_S1x300000_S64x300000_0_1),
    unary main_v12 main_v14 (broadcastInDim S64x300000 ![0, 1] bcast_S64x1_S64x300000_0_1),
    binary main_v13 main_v14 main_v15 (cmpi .eq),
    binary main_v10 main_v15 main_v16 (andi),
    nullary main_c (constantI S_ 1 0#1),
    binary main_v16 main_c main_v17 ((fun x v => Host.reduce IntOp.ori x v reducesTo_S64x300000_S300000_d0 h_S_)) ]

-- The edge values with the query triples' own edges zeroed.
abbrev S0b : List (HloOp τ sig (Elt F)) :=
  [ nullary main_cst (constant S_ .f32 0x00000000#32),
    TRef.unary (TRef.of (T := ⟨S_, .f32⟩) main_cst) (TRef.of (T := ⟨S_, .f32⟩) main_call0_v0) id,
    TRef.unary (TRef.of (T := ⟨S_, .f32⟩) main_call0_v0) (TRef.of (T := ⟨S300000, .f32⟩) main_call0_v1) (broadcastInDim S300000 ![] bcast_S_S300000),
    TRef.ternary (TRef.of (T := ⟨S300000, .i1⟩) main_v17) (TRef.of (T := ⟨S300000, .f32⟩) main_call0_v1) (TRef.of (T := ⟨S300000, .f32⟩) main_arg7) (TRef.of (T := ⟨S300000, .f32⟩) main_v18) select ]

-- The start memory.
abbrev S0c : List (HloOp τ sig (Elt F)) :=
  [ TRef.unary (TRef.of (T := ⟨S64, .i32⟩) main_arg0) (TRef.of (T := ⟨S64x1, .i32⟩) main_call1_v0) (broadcastInDim S64x1 ![0] bcast_S64_S64x1_0),
    TRef.nullary (TRef.of (T := ⟨S1x40000, .i32⟩) main_call1_v1) (iotaInDim S1x40000 32 1),
    TRef.unary (TRef.of (T := ⟨S64x1, .i32⟩) main_call1_v0) (TRef.of (T := ⟨S64x40000, .i32⟩) main_call1_v2) (broadcastInDim S64x40000 ![0, 1] bcast_S64x1_S64x40000_0_1),
    TRef.unary (TRef.of (T := ⟨S1x40000, .i32⟩) main_call1_v1) (TRef.of (T := ⟨S64x40000, .i32⟩) main_call1_v3) (broadcastInDim S64x40000 ![0, 1] bcast_S1x40000_S64x40000_0_1),
    TRef.binary (TRef.of (T := ⟨S64x40000, .i32⟩) main_call1_v2) (TRef.of (T := ⟨S64x40000, .i32⟩) main_call1_v3) (TRef.of (T := ⟨S64x40000, .i1⟩) main_call1_v4) (cmpi .eq),
    TRef.unary (TRef.of (T := ⟨S64x40000, .i1⟩) main_call1_v4) (TRef.of (T := ⟨S64x40000, .f32⟩) main_v19) (uitofp .f32) ]

-- The first message-passing step.
abbrev S1 : List (HloOp τ sig (Elt F)) :=
  [ unary main_arg3 main_v20 ((extractStridedSlice S64x1x48 ![0, 0, 0] · slices_S64x3x48_S64x1x48_0_0_0)),
    reshape main_v20 main_v21 rfl shapeCasts_S64x1x48_S64x48,
    nullary main_c_0 (constantI S_ 32 0#32),
    unary main_c_0 main_v22 (broadcastInDim S300000 ![] bcast_S_S300000),
    binary main_arg6 main_v22 main_v23 (cmpi .slt),
    nullary main_c_1 (constantI S_ 32 48#32),
    unary main_c_1 main_v24 (broadcastInDim S300000 ![] bcast_S_S300000),
    binary main_arg6 main_v24 main_v25 (addi),
    ternary main_v23 main_v25 main_arg6 main_v26 (select),
    unary main_v26 main_v27 (broadcastInDim S300000x1 ![0] bcast_S300000_S300000x1_0),
    binary main_v21 main_v27 main_v28 ((fun x i => Host.gather gather_S64x48_S300000x1_S64x300000_0_1_n_n_1_1_641 x i)),
    nullary main_c_2 (constantI S_ 32 24#32),
    unary main_c_2 main_v29 (broadcastInDim S300000 ![] bcast_S_S300000),
    binary main_arg6 main_v29 main_v30 (addi),
    nullary main_c_3 (constantI S_ 32 0#32),
    unary main_c_3 main_v31 (broadcastInDim S300000 ![] bcast_S_S300000),
    binary main_v30 main_v31 main_v32 (cmpi .slt),
    nullary main_c_4 (constantI S_ 32 48#32),
    unary main_c_4 main_v33 (broadcastInDim S300000 ![] bcast_S_S300000),
    binary main_v30 main_v33 main_v34 (addi),
    ternary main_v32 main_v34 main_v30 main_v35 (select),
    unary main_v35 main_v36 (broadcastInDim S300000x1 ![0] bcast_S300000_S300000x1_0),
    binary main_v21 main_v36 main_v37 ((fun x i => Host.gather gather_S64x48_S300000x1_S64x300000_0_1_n_n_1_1_641 x i)),
    nullary main_c_5 (constantI S_ 32 0#32),
    unary main_c_5 main_v38 (broadcastInDim S300000 ![] bcast_S_S300000),
    binary main_arg4 main_v38 main_v39 (cmpi .slt),
    nullary main_c_6 (constantI S_ 32 40000#32),
    unary main_c_6 main_v40 (broadcastInDim S300000 ![] bcast_S_S300000),
    binary main_arg4 main_v40 main_v41 (addi),
    ternary main_v39 main_v41 main_arg4 main_v42 (select),
    unary main_v42 main_v43 (broadcastInDim S300000x1 ![0] bcast_S300000_S300000x1_0),
    binary main_v19 main_v43 main_v44 ((fun x i => Host.gather gather_S64x40000_S300000x1_S64x300000_0_1_n_n_1_1_641 x i)),
    unary main_v18 main_v45 (broadcastInDim S1x300000 ![1] bcast_S300000_S1x300000_1),
    unary main_v45 main_v46 (broadcastInDim S64x300000 ![0, 1] bcast_S1x300000_S64x300000_0_1),
    binary main_v44 main_v46 main_v47 (mulf),
    nullary main_c_7 (constantI S_ 32 0#32),
    unary main_c_7 main_v48 (broadcastInDim S300000 ![] bcast_S_S300000),
    binary main_arg5 main_v48 main_v49 (cmpi .slt),
    nullary main_c_8 (constantI S_ 32 40000#32),
    unary main_c_8 main_v50 (broadcastInDim S300000 ![] bcast_S_S300000),
    binary main_arg5 main_v50 main_v51 (addi),
    ternary main_v49 main_v51 main_arg5 main_v52 (select),
    unary main_v52 main_v53 (broadcastInDim S300000x1 ![0] bcast_S300000_S300000x1_0),
    binary main_v19 main_v53 main_v54 ((fun x i => Host.gather gather_S64x40000_S300000x1_S64x300000_0_1_n_n_1_1_641 x i)),
    unary main_v18 main_v55 (broadcastInDim S1x300000 ![1] bcast_S300000_S1x300000_1),
    unary main_v55 main_v56 (broadcastInDim S64x300000 ![0, 1] bcast_S1x300000_S64x300000_0_1),
    binary main_v54 main_v56 main_v57 (mulf),
    binary main_v47 main_v28 main_v58 (mulf),
    unary main_v58 main_v59 ((transpose S300000x64 [1, 0] · transposes_S64x300000_S300000x64_1_0)),
    nullary main_cst_9 (constant S_ .f32 0x00000000#32),
    unary main_cst_9 main_v60 (broadcastInDim S40000x64 ![] bcast_S_S40000x64),
    unary main_arg5 main_v61 (broadcastInDim S300000x1 ![0] bcast_S300000_S300000x1_0),
    ternary main_v60 main_v61 main_v59 main_v62 ((fun x i u => Host.scatterAdd scatter_S40000x64_S300000x1_S300000x64_1_0_0_1 x i u)),
    unary main_v62 main_v63 ((transpose S64x40000 [1, 0] · transposes_S40000x64_S64x40000_1_0)),
    binary main_v57 main_v37 main_v64 (mulf),
    unary main_v64 main_v65 ((transpose S300000x64 [1, 0] · transposes_S64x300000_S300000x64_1_0)),
    nullary main_cst_10 (constant S_ .f32 0x00000000#32),
    unary main_cst_10 main_v66 (broadcastInDim S40000x64 ![] bcast_S_S40000x64),
    unary main_arg4 main_v67 (broadcastInDim S300000x1 ![0] bcast_S300000_S300000x1_0),
    ternary main_v66 main_v67 main_v65 main_v68 ((fun x i u => Host.scatterAdd scatter_S40000x64_S300000x1_S300000x64_1_0_0_1 x i u)),
    unary main_v68 main_v69 ((transpose S64x40000 [1, 0] · transposes_S40000x64_S64x40000_1_0)),
    binary main_v63 main_v69 main_v70 (addf),
    unary main_v21 main_v71 ((extractStridedSlice S64x1 ![0, 47] · slices_S64x48_S64x1_0_47)),
    unary main_v71 main_v72 (broadcastInDim S64x40000 ![0, 1] bcast_S64x1_S64x40000_0_1),
    binary main_v19 main_v72 main_v73 (mulf),
    binary main_v70 main_v73 main_v74 (addf) ]

-- The second step.
abbrev S2 : List (HloOp τ sig (Elt F)) :=
  [ unary main_arg3 main_v75 ((extractStridedSlice S64x1x48 ![0, 1, 0] · slices_S64x3x48_S64x1x48_0_1_0)),
    reshape main_v75 main_v76 rfl shapeCasts_S64x1x48_S64x48,
    nullary main_c_11 (constantI S_ 32 0#32),
    unary main_c_11 main_v77 (broadcastInDim S300000 ![] bcast_S_S300000),
    binary main_arg6 main_v77 main_v78 (cmpi .slt),
    nullary main_c_12 (constantI S_ 32 48#32),
    unary main_c_12 main_v79 (broadcastInDim S300000 ![] bcast_S_S300000),
    binary main_arg6 main_v79 main_v80 (addi),
    ternary main_v78 main_v80 main_arg6 main_v81 (select),
    unary main_v81 main_v82 (broadcastInDim S300000x1 ![0] bcast_S300000_S300000x1_0),
    binary main_v76 main_v82 main_v83 ((fun x i => Host.gather gather_S64x48_S300000x1_S64x300000_0_1_n_n_1_1_641 x i)),
    nullary main_c_13 (constantI S_ 32 24#32),
    unary main_c_13 main_v84 (broadcastInDim S300000 ![] bcast_S_S300000),
    binary main_arg6 main_v84 main_v85 (addi),
    nullary main_c_14 (constantI S_ 32 0#32),
    unary main_c_14 main_v86 (broadcastInDim S300000 ![] bcast_S_S300000),
    binary main_v85 main_v86 main_v87 (cmpi .slt),
    nullary main_c_15 (constantI S_ 32 48#32),
    unary main_c_15 main_v88 (broadcastInDim S300000 ![] bcast_S_S300000),
    binary main_v85 main_v88 main_v89 (addi),
    ternary main_v87 main_v89 main_v85 main_v90 (select),
    unary main_v90 main_v91 (broadcastInDim S300000x1 ![0] bcast_S300000_S300000x1_0),
    binary main_v76 main_v91 main_v92 ((fun x i => Host.gather gather_S64x48_S300000x1_S64x300000_0_1_n_n_1_1_641 x i)),
    nullary main_c_16 (constantI S_ 32 0#32),
    unary main_c_16 main_v93 (broadcastInDim S300000 ![] bcast_S_S300000),
    binary main_arg4 main_v93 main_v94 (cmpi .slt),
    nullary main_c_17 (constantI S_ 32 40000#32),
    unary main_c_17 main_v95 (broadcastInDim S300000 ![] bcast_S_S300000),
    binary main_arg4 main_v95 main_v96 (addi),
    ternary main_v94 main_v96 main_arg4 main_v97 (select),
    unary main_v97 main_v98 (broadcastInDim S300000x1 ![0] bcast_S300000_S300000x1_0),
    binary main_v74 main_v98 main_v99 ((fun x i => Host.gather gather_S64x40000_S300000x1_S64x300000_0_1_n_n_1_1_641 x i)),
    unary main_v18 main_v100 (broadcastInDim S1x300000 ![1] bcast_S300000_S1x300000_1),
    unary main_v100 main_v101 (broadcastInDim S64x300000 ![0, 1] bcast_S1x300000_S64x300000_0_1),
    binary main_v99 main_v101 main_v102 (mulf),
    nullary main_c_18 (constantI S_ 32 0#32),
    unary main_c_18 main_v103 (broadcastInDim S300000 ![] bcast_S_S300000),
    binary main_arg5 main_v103 main_v104 (cmpi .slt),
    nullary main_c_19 (constantI S_ 32 40000#32),
    unary main_c_19 main_v105 (broadcastInDim S300000 ![] bcast_S_S300000),
    binary main_arg5 main_v105 main_v106 (addi),
    ternary main_v104 main_v106 main_arg5 main_v107 (select),
    unary main_v107 main_v108 (broadcastInDim S300000x1 ![0] bcast_S300000_S300000x1_0),
    binary main_v74 main_v108 main_v109 ((fun x i => Host.gather gather_S64x40000_S300000x1_S64x300000_0_1_n_n_1_1_641 x i)),
    unary main_v18 main_v110 (broadcastInDim S1x300000 ![1] bcast_S300000_S1x300000_1),
    unary main_v110 main_v111 (broadcastInDim S64x300000 ![0, 1] bcast_S1x300000_S64x300000_0_1),
    binary main_v109 main_v111 main_v112 (mulf),
    binary main_v102 main_v83 main_v113 (mulf),
    unary main_v113 main_v114 ((transpose S300000x64 [1, 0] · transposes_S64x300000_S300000x64_1_0)),
    nullary main_cst_20 (constant S_ .f32 0x00000000#32),
    unary main_cst_20 main_v115 (broadcastInDim S40000x64 ![] bcast_S_S40000x64),
    unary main_arg5 main_v116 (broadcastInDim S300000x1 ![0] bcast_S300000_S300000x1_0),
    ternary main_v115 main_v116 main_v114 main_v117 ((fun x i u => Host.scatterAdd scatter_S40000x64_S300000x1_S300000x64_1_0_0_1 x i u)),
    unary main_v117 main_v118 ((transpose S64x40000 [1, 0] · transposes_S40000x64_S64x40000_1_0)),
    binary main_v112 main_v92 main_v119 (mulf),
    unary main_v119 main_v120 ((transpose S300000x64 [1, 0] · transposes_S64x300000_S300000x64_1_0)),
    nullary main_cst_21 (constant S_ .f32 0x00000000#32),
    unary main_cst_21 main_v121 (broadcastInDim S40000x64 ![] bcast_S_S40000x64),
    unary main_arg4 main_v122 (broadcastInDim S300000x1 ![0] bcast_S300000_S300000x1_0),
    ternary main_v121 main_v122 main_v120 main_v123 ((fun x i u => Host.scatterAdd scatter_S40000x64_S300000x1_S300000x64_1_0_0_1 x i u)),
    unary main_v123 main_v124 ((transpose S64x40000 [1, 0] · transposes_S40000x64_S64x40000_1_0)),
    binary main_v118 main_v124 main_v125 (addf),
    unary main_v76 main_v126 ((extractStridedSlice S64x1 ![0, 47] · slices_S64x48_S64x1_0_47)),
    unary main_v126 main_v127 (broadcastInDim S64x40000 ![0, 1] bcast_S64x1_S64x40000_0_1),
    binary main_v74 main_v127 main_v128 (mulf),
    binary main_v125 main_v128 main_v129 (addf) ]

-- The third step.
abbrev S3 : List (HloOp τ sig (Elt F)) :=
  [ unary main_arg3 main_v130 ((extractStridedSlice S64x1x48 ![0, 2, 0] · slices_S64x3x48_S64x1x48_0_2_0)),
    reshape main_v130 main_v131 rfl shapeCasts_S64x1x48_S64x48,
    nullary main_c_22 (constantI S_ 32 0#32),
    unary main_c_22 main_v132 (broadcastInDim S300000 ![] bcast_S_S300000),
    binary main_arg6 main_v132 main_v133 (cmpi .slt),
    nullary main_c_23 (constantI S_ 32 48#32),
    unary main_c_23 main_v134 (broadcastInDim S300000 ![] bcast_S_S300000),
    binary main_arg6 main_v134 main_v135 (addi),
    ternary main_v133 main_v135 main_arg6 main_v136 (select),
    unary main_v136 main_v137 (broadcastInDim S300000x1 ![0] bcast_S300000_S300000x1_0),
    binary main_v131 main_v137 main_v138 ((fun x i => Host.gather gather_S64x48_S300000x1_S64x300000_0_1_n_n_1_1_641 x i)),
    nullary main_c_24 (constantI S_ 32 24#32),
    unary main_c_24 main_v139 (broadcastInDim S300000 ![] bcast_S_S300000),
    binary main_arg6 main_v139 main_v140 (addi),
    nullary main_c_25 (constantI S_ 32 0#32),
    unary main_c_25 main_v141 (broadcastInDim S300000 ![] bcast_S_S300000),
    binary main_v140 main_v141 main_v142 (cmpi .slt),
    nullary main_c_26 (constantI S_ 32 48#32),
    unary main_c_26 main_v143 (broadcastInDim S300000 ![] bcast_S_S300000),
    binary main_v140 main_v143 main_v144 (addi),
    ternary main_v142 main_v144 main_v140 main_v145 (select),
    unary main_v145 main_v146 (broadcastInDim S300000x1 ![0] bcast_S300000_S300000x1_0),
    binary main_v131 main_v146 main_v147 ((fun x i => Host.gather gather_S64x48_S300000x1_S64x300000_0_1_n_n_1_1_641 x i)),
    nullary main_c_27 (constantI S_ 32 0#32),
    unary main_c_27 main_v148 (broadcastInDim S300000 ![] bcast_S_S300000),
    binary main_arg4 main_v148 main_v149 (cmpi .slt),
    nullary main_c_28 (constantI S_ 32 40000#32),
    unary main_c_28 main_v150 (broadcastInDim S300000 ![] bcast_S_S300000),
    binary main_arg4 main_v150 main_v151 (addi),
    ternary main_v149 main_v151 main_arg4 main_v152 (select),
    unary main_v152 main_v153 (broadcastInDim S300000x1 ![0] bcast_S300000_S300000x1_0),
    binary main_v129 main_v153 main_v154 ((fun x i => Host.gather gather_S64x40000_S300000x1_S64x300000_0_1_n_n_1_1_641 x i)),
    unary main_v18 main_v155 (broadcastInDim S1x300000 ![1] bcast_S300000_S1x300000_1),
    unary main_v155 main_v156 (broadcastInDim S64x300000 ![0, 1] bcast_S1x300000_S64x300000_0_1),
    binary main_v154 main_v156 main_v157 (mulf),
    nullary main_c_29 (constantI S_ 32 0#32),
    unary main_c_29 main_v158 (broadcastInDim S300000 ![] bcast_S_S300000),
    binary main_arg5 main_v158 main_v159 (cmpi .slt),
    nullary main_c_30 (constantI S_ 32 40000#32),
    unary main_c_30 main_v160 (broadcastInDim S300000 ![] bcast_S_S300000),
    binary main_arg5 main_v160 main_v161 (addi),
    ternary main_v159 main_v161 main_arg5 main_v162 (select),
    unary main_v162 main_v163 (broadcastInDim S300000x1 ![0] bcast_S300000_S300000x1_0),
    binary main_v129 main_v163 main_v164 ((fun x i => Host.gather gather_S64x40000_S300000x1_S64x300000_0_1_n_n_1_1_641 x i)),
    unary main_v18 main_v165 (broadcastInDim S1x300000 ![1] bcast_S300000_S1x300000_1),
    unary main_v165 main_v166 (broadcastInDim S64x300000 ![0, 1] bcast_S1x300000_S64x300000_0_1),
    binary main_v164 main_v166 main_v167 (mulf),
    binary main_v157 main_v138 main_v168 (mulf),
    unary main_v168 main_v169 ((transpose S300000x64 [1, 0] · transposes_S64x300000_S300000x64_1_0)),
    nullary main_cst_31 (constant S_ .f32 0x00000000#32),
    unary main_cst_31 main_v170 (broadcastInDim S40000x64 ![] bcast_S_S40000x64),
    unary main_arg5 main_v171 (broadcastInDim S300000x1 ![0] bcast_S300000_S300000x1_0),
    ternary main_v170 main_v171 main_v169 main_v172 ((fun x i u => Host.scatterAdd scatter_S40000x64_S300000x1_S300000x64_1_0_0_1 x i u)),
    unary main_v172 main_v173 ((transpose S64x40000 [1, 0] · transposes_S40000x64_S64x40000_1_0)),
    binary main_v167 main_v147 main_v174 (mulf),
    unary main_v174 main_v175 ((transpose S300000x64 [1, 0] · transposes_S64x300000_S300000x64_1_0)),
    nullary main_cst_32 (constant S_ .f32 0x00000000#32),
    unary main_cst_32 main_v176 (broadcastInDim S40000x64 ![] bcast_S_S40000x64),
    unary main_arg4 main_v177 (broadcastInDim S300000x1 ![0] bcast_S300000_S300000x1_0),
    ternary main_v176 main_v177 main_v175 main_v178 ((fun x i u => Host.scatterAdd scatter_S40000x64_S300000x1_S300000x64_1_0_0_1 x i u)),
    unary main_v178 main_v179 ((transpose S64x40000 [1, 0] · transposes_S40000x64_S64x40000_1_0)),
    binary main_v173 main_v179 main_v180 (addf),
    unary main_v131 main_v181 ((extractStridedSlice S64x1 ![0, 47] · slices_S64x48_S64x1_0_47)),
    unary main_v181 main_v182 (broadcastInDim S64x40000 ![0, 1] bcast_S64x1_S64x40000_0_1),
    binary main_v129 main_v182 main_v183 (mulf),
    binary main_v180 main_v183 main_v184 (addf) ]

-- The row normalisation and the two index columns of the target read.
abbrev S4a : List (HloOp τ sig (Elt F)) :=
  [ nullary main_cst_33 (constant S_ .f32 0x00000000#32),
    binary main_v184 main_cst_33 main_v185 ((fun x v => Host.reduceAdd x v reducesTo_S64x40000_S64_d1 h_S_)),
    unary main_v185 main_v186 (broadcastInDim S64x1 ![0] bcast_S64_S64x1_0),
    nullary main_cst_34 (constant S_ .f32 0x1E3CE508#32),
    unary main_cst_34 main_v187 (broadcastInDim S64x1 ![] bcast_S_S64x1),
    binary main_v187 main_v186 main_v188 (maximumf),
    unary main_v188 main_v189 (broadcastInDim S64x40000 ![0, 1] bcast_S64x1_S64x40000_0_1),
    binary main_v184 main_v189 main_v190 (Host.divf),
    nullary main_v191 (iotaInDim S64 32 0),
    nullary main_c_35 (constantI S_ 32 0#32),
    unary main_c_35 main_v192 (broadcastInDim S64 ![] bcast_S_S64),
    binary main_v191 main_v192 main_v193 (cmpi .slt),
    nullary main_c_36 (constantI S_ 32 64#32),
    unary main_c_36 main_v194 (broadcastInDim S64 ![] bcast_S_S64),
    binary main_v191 main_v194 main_v195 (addi),
    ternary main_v193 main_v195 main_v191 main_v196 (select),
    nullary main_c_37 (constantI S_ 32 0#32),
    unary main_c_37 main_v197 (broadcastInDim S64 ![] bcast_S_S64),
    binary main_arg2 main_v197 main_v198 (cmpi .slt),
    nullary main_c_38 (constantI S_ 32 40000#32),
    unary main_c_38 main_v199 (broadcastInDim S64 ![] bcast_S_S64),
    binary main_arg2 main_v199 main_v200 (addi),
    ternary main_v198 main_v200 main_arg2 main_v201 (select),
    unary main_v196 main_v202 (broadcastInDim S64x1 ![0] bcast_S64_S64x1_0),
    unary main_v201 main_v203 (broadcastInDim S64x1 ![0] bcast_S64_S64x1_0) ]

-- The target read and the loss.
abbrev S4b : List (HloOp τ sig (Elt F)) :=
  [ binary main_v202 main_v203 main_v204 ((fun a b => concatenate S64x2 1 [⟨S64x1, a⟩, ⟨S64x1, b⟩] concatenates_S64x1_S64x1_S64x2_d1)),
    binary main_v190 main_v204 main_v205 ((fun x i => Host.gather gather_S64x40000_S64x2_S64_n_01_n_n_01_1_11 x i)),
    nullary main_cst_39 (constant S_ .f32 0x1E3CE508#32),
    unary main_cst_39 main_v206 (broadcastInDim S64 ![] bcast_S_S64),
    binary main_v206 main_v205 main_v207 (maximumf),
    unary main_v207 main_v208 (Host.log),
    nullary main_cst_40 (constant S_ .f32 0x00000000#32),
    binary main_v208 main_cst_40 main_v209 ((fun x v => Host.reduceAdd x v reducesTo_S64_S_d0 h_S_)),
    nullary main_cst_41 (constant S_ .f32 0x42800000#32),
    binary main_v209 main_cst_41 main_v210 (Host.divf),
    unary main_v210 main_v211 (Host.negf) ]

-- The program's operations are the eight stretches in a row.
abbrev ops : List (HloOp τ sig (Elt F)) := S0a ++ (S0b ++ (S0c ++ (S1 ++ (S2 ++ (S3 ++ (S4a ++ S4b))))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig := by
  simp only [ops, List.forall_append]
  exact ⟨⟨unary_bufs_sub .., unary_bufs_sub .., unary_bufs_sub .., unary_bufs_sub .., binary_bufs_sub .., unary_bufs_sub .., unary_bufs_sub .., unary_bufs_sub .., unary_bufs_sub .., binary_bufs_sub .., binary_bufs_sub .., unary_bufs_sub .., unary_bufs_sub .., unary_bufs_sub .., unary_bufs_sub .., binary_bufs_sub .., binary_bufs_sub .., nullary_bufs_sub .., binary_bufs_sub ..⟩,
    ⟨nullary_bufs_sub .., unary_bufs_sub .., unary_bufs_sub .., ternary_bufs_sub ..⟩,
    ⟨unary_bufs_sub .., nullary_bufs_sub .., unary_bufs_sub .., unary_bufs_sub .., binary_bufs_sub .., unary_bufs_sub ..⟩,
    ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., binary_bufs_sub .., unary_bufs_sub .., nullary_bufs_sub .., unary_bufs_sub .., unary_bufs_sub .., ternary_bufs_sub .., unary_bufs_sub .., binary_bufs_sub .., unary_bufs_sub .., nullary_bufs_sub .., unary_bufs_sub .., unary_bufs_sub .., ternary_bufs_sub .., unary_bufs_sub .., binary_bufs_sub .., unary_bufs_sub .., unary_bufs_sub .., binary_bufs_sub .., binary_bufs_sub ..⟩,
    ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., binary_bufs_sub .., unary_bufs_sub .., nullary_bufs_sub .., unary_bufs_sub .., unary_bufs_sub .., ternary_bufs_sub .., unary_bufs_sub .., binary_bufs_sub .., unary_bufs_sub .., nullary_bufs_sub .., unary_bufs_sub .., unary_bufs_sub .., ternary_bufs_sub .., unary_bufs_sub .., binary_bufs_sub .., unary_bufs_sub .., unary_bufs_sub .., binary_bufs_sub .., binary_bufs_sub ..⟩,
    ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., binary_bufs_sub .., unary_bufs_sub .., nullary_bufs_sub .., unary_bufs_sub .., unary_bufs_sub .., ternary_bufs_sub .., unary_bufs_sub .., binary_bufs_sub .., unary_bufs_sub .., nullary_bufs_sub .., unary_bufs_sub .., unary_bufs_sub .., ternary_bufs_sub .., unary_bufs_sub .., binary_bufs_sub .., unary_bufs_sub .., unary_bufs_sub .., binary_bufs_sub .., binary_bufs_sub ..⟩,
    ⟨nullary_bufs_sub .., binary_bufs_sub .., unary_bufs_sub .., nullary_bufs_sub .., unary_bufs_sub .., binary_bufs_sub .., unary_bufs_sub .., binary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩,
    ⟨binary_bufs_sub .., binary_bufs_sub .., nullary_bufs_sub .., unary_bufs_sub .., binary_bufs_sub .., unary_bufs_sub .., nullary_bufs_sub .., binary_bufs_sub .., nullary_bufs_sub .., binary_bufs_sub .., unary_bufs_sub ..⟩⟩

theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

end Cert.ReferenceIdeal.ValueP

end
-- ==== Proof.ReadRI.lean ====
/-
  The reference program's stages as functions of its eight arguments. One message-passing step is the same operations
  three times over, so it is one function (stepOps) of an attention slice, a memory and the edge values, and the closing
  operations are two functions of the last memory. The stages with an index lemma (val_<buffer>_apply reads the stage at
  an index) are the comparison with the queries, the start memory, the three attention slices and the target's columns.
-/
import proofs.«408331_j31499290149149_3_alg».proof.Proof.RunRI
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

def wrapW (n : BitVec 32) (w : (⟨S300000, .i32⟩ : BufTy).Contents (Elt F)) : (⟨S300000, .i32⟩ : BufTy).Contents (Elt F) :=
  select (cmpi .slt (w) (broadcastInDim S300000 ![] bcast_S_S300000 (constantI S_ 32 0#32)))
    (addi (w) (broadcastInDim S300000 ![] bcast_S_S300000 (constantI S_ 32 n))) (w)

def colIdx (w : (⟨S300000, .i32⟩ : BufTy).Contents (Elt F)) : (⟨S300000x1, .i32⟩ : BufTy).Contents (Elt F) :=
  broadcastInDim S300000x1 ![0] bcast_S300000_S300000x1_0 (w)

def valsB (vals : (⟨S300000, .f32⟩ : BufTy).Contents (Elt F)) : (⟨S64x300000, .f32⟩ : BufTy).Contents (Elt F) :=
  broadcastInDim S64x300000 ![0, 1] bcast_S1x300000_S64x300000_0_1 (broadcastInDim S1x300000 ![1] bcast_S300000_S1x300000_1 (vals))

def msgOps (a : (⟨S64x48, .f32⟩ : BufTy).Contents (Elt F)) (mem : (⟨S64x40000, .f32⟩ : BufTy).Contents (Elt F))
    (vals : (⟨S300000, .f32⟩ : BufTy).Contents (Elt F)) (src rel : (⟨S300000, .i32⟩ : BufTy).Contents (Elt F)) :
    (⟨S64x300000, .f32⟩ : BufTy).Contents (Elt F) :=
  mulf (mulf (Host.gather gather_S64x40000_S300000x1_S64x300000_0_1_n_n_1_1_641 (mem) (colIdx (F := F) (wrapW (F := F) 40000#32 src))) (valsB (F := F) vals))
    (Host.gather gather_S64x48_S300000x1_S64x300000_0_1_n_n_1_1_641 (a) (colIdx (F := F) rel))

def segOps (upd : (⟨S64x300000, .f32⟩ : BufTy).Contents (Elt F)) (dst : (⟨S300000, .i32⟩ : BufTy).Contents (Elt F)) :
    (⟨S64x40000, .f32⟩ : BufTy).Contents (Elt F) :=
  transpose S64x40000 [1, 0]
    (Host.scatterAdd scatter_S40000x64_S300000x1_S300000x64_1_0_0_1
      (broadcastInDim S40000x64 ![] bcast_S_S40000x64 (constant S_ .f32 0x00000000#32))
      (colIdx (F := F) dst)
      (transpose S300000x64 [1, 0] (upd) transposes_S64x300000_S300000x64_1_0))
    transposes_S40000x64_S64x40000_1_0

def stepOps (a : (⟨S64x48, .f32⟩ : BufTy).Contents (Elt F)) (mem : (⟨S64x40000, .f32⟩ : BufTy).Contents (Elt F))
    (vals : (⟨S300000, .f32⟩ : BufTy).Contents (Elt F)) (x4 x5 x6 : (⟨S300000, .i32⟩ : BufTy).Contents (Elt F)) :
    (⟨S64x40000, .f32⟩ : BufTy).Contents (Elt F) :=
  addf
    (addf (segOps (F := F) (msgOps (F := F) a mem vals x4 (wrapW (F := F) 48#32 x6)) x5)
      (segOps (F := F) (msgOps (F := F) a mem vals x5
        (wrapW (F := F) 48#32 (addi (x6) (broadcastInDim S300000 ![] bcast_S_S300000 (constantI S_ 32 24#32))))) x4))
    (mulf (mem) (broadcastInDim S64x40000 ![0, 1] bcast_S64x1_S64x40000_0_1 (extractStridedSlice S64x1 ![0, 47] (a) slices_S64x48_S64x1_0_47)))

def tailMemR (y : FVec F S64x40000 .f32) : FVec F S64x40000 .f32 :=
  Host.divf y
    (broadcastInDim S64x40000 ![0, 1] bcast_S64x1_S64x40000_0_1
      (maximumf
        (broadcastInDim S64x1 ![] bcast_S_S64x1 (constant (F := F) S_ .f32 0x1E3CE508#32))
        (broadcastInDim S64x1 ![0] bcast_S64_S64x1_0
          (Host.reduceAdd y (constant (F := F) S_ .f32 0x00000000#32) reducesTo_S64x40000_S64_d1 h_S_))))

def tailRowIxR : IVec S64 32 :=
  select (cmpi .slt (iotaInDim S64 32 0) (broadcastInDim S64 ![] bcast_S_S64 (constantI S_ 32 0#32)))
    (addi (iotaInDim S64 32 0) (broadcastInDim S64 ![] bcast_S_S64 (constantI S_ 32 64#32)))
    (iotaInDim S64 32 0)

def tailColIxR (t : IVec S64 32) : IVec S64 32 :=
  select (cmpi .slt t (broadcastInDim S64 ![] bcast_S_S64 (constantI S_ 32 0#32)))
    (addi t (broadcastInDim S64 ![] bcast_S_S64 (constantI S_ 32 40000#32)))
    t

def tailLossR (y : FVec F S64x40000 .f32) (t : IVec S64 32) : FVec F S_ .f32 :=
  Host.negf
    (Host.divf
      (Host.reduceAdd
        (Host.log
          (maximumf
            (broadcastInDim S64 ![] bcast_S_S64 (constant (F := F) S_ .f32 0x1E3CE508#32))
            (Host.gather gather_S64x40000_S64x2_S64_n_01_n_n_01_1_11 (tailMemR y)
              (concatenate S64x2 1
                [⟨S64x1, broadcastInDim S64x1 ![0] bcast_S64_S64x1_0 tailRowIxR⟩,
                 ⟨S64x1, broadcastInDim S64x1 ![0] bcast_S64_S64x1_0 (tailColIxR t)⟩]
                concatenates_S64x1_S64x1_S64x2_d1))))
        (constant (F := F) S_ .f32 0x00000000#32) reducesTo_S64_S_d0 h_S_)
      (constant (F := F) S_ .f32 0x42800000#32))

end Cert.ReferenceIdeal.RefValue

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]
variable (x0 x1 x2 : (⟨S64, .i32⟩ : BufTy).Contents (Elt F)) (x3 : (⟨S64x3x48, .f32⟩ : BufTy).Contents (Elt F)) (x4 x5 x6 : (⟨S300000, .i32⟩ : BufTy).Contents (Elt F)) (x7 : (⟨S300000, .f32⟩ : BufTy).Contents (Elt F))

def val_main_v0 : (⟨S1x300000, .i32⟩ : BufTy).Contents (Elt F) :=
  broadcastInDim S1x300000 ![1] bcast_S300000_S1x300000_1 (x4)
abbrev idx_main_v0 (i : S1x300000.Idx) : S300000.Idx := fun a => match a with
  | ⟨0, _⟩ => ⟨(i 1).val, (i 1).isLt⟩
theorem val_main_v0_apply (i : S1x300000.Idx) :
    val_main_v0 (F := F) x4 i = x4 (idx_main_v0 i) := by
  unfold val_main_v0
  exact broadcastInDim_apply _ bcast_S300000_S1x300000_1 x4 i (idx_main_v0 i) (fun a => match a with
    | ⟨0, _⟩ => by show (i 1).val = if (300000 : Nat) = 1 then 0 else (i 1).val; rw [if_neg (by decide)])

def val_main_v1 : (⟨S64x1, .i32⟩ : BufTy).Contents (Elt F) :=
  broadcastInDim S64x1 ![0] bcast_S64_S64x1_0 (x0)
abbrev idx_main_v1 (i : S64x1.Idx) : S64.Idx := fun a => match a with
  | ⟨0, _⟩ => ⟨(i 0).val, (i 0).isLt⟩
theorem val_main_v1_apply (i : S64x1.Idx) :
    val_main_v1 (F := F) x0 i = x0 (idx_main_v1 i) := by
  unfold val_main_v1
  exact broadcastInDim_apply _ bcast_S64_S64x1_0 x0 i (idx_main_v1 i) (fun a => match a with
    | ⟨0, _⟩ => by show (i 0).val = if (64 : Nat) = 1 then 0 else (i 0).val; rw [if_neg (by decide)])

def val_main_v2 : (⟨S64x300000, .i32⟩ : BufTy).Contents (Elt F) :=
  broadcastInDim S64x300000 ![0, 1] bcast_S1x300000_S64x300000_0_1 (val_main_v0 (F := F) x4)
abbrev idx_main_v2 (i : S64x300000.Idx) : S1x300000.Idx := fun a => match a with
  | ⟨0, _⟩ => ⟨0, Nat.one_pos⟩
  | ⟨1, _⟩ => ⟨(i 1).val, (i 1).isLt⟩
theorem val_main_v2_apply (i : S64x300000.Idx) :
    val_main_v2 (F := F) x4 i = val_main_v0 (F := F) x4 (idx_main_v2 i) := by
  unfold val_main_v2
  generalize val_main_v0 (F := F) x4 = y
  exact broadcastInDim_apply _ bcast_S1x300000_S64x300000_0_1 y i (idx_main_v2 i) (fun a => match a with
    | ⟨0, _⟩ => by show 0 = if (1 : Nat) = 1 then 0 else (i 0).val; rw [if_pos rfl]
    | ⟨1, _⟩ => by show (i 1).val = if (300000 : Nat) = 1 then 0 else (i 1).val; rw [if_neg (by decide)])

def val_main_v3 : (⟨S64x300000, .i32⟩ : BufTy).Contents (Elt F) :=
  broadcastInDim S64x300000 ![0, 1] bcast_S64x1_S64x300000_0_1 (val_main_v1 (F := F) x0)
abbrev idx_main_v3 (i : S64x300000.Idx) : S64x1.Idx := fun a => match a with
  | ⟨0, _⟩ => ⟨(i 0).val, (i 0).isLt⟩
  | ⟨1, _⟩ => ⟨0, Nat.one_pos⟩
theorem val_main_v3_apply (i : S64x300000.Idx) :
    val_main_v3 (F := F) x0 i = val_main_v1 (F := F) x0 (idx_main_v3 i) := by
  unfold val_main_v3
  generalize val_main_v1 (F := F) x0 = y
  exact broadcastInDim_apply _ bcast_S64x1_S64x300000_0_1 y i (idx_main_v3 i) (fun a => match a with
    | ⟨0, _⟩ => by show (i 0).val = if (64 : Nat) = 1 then 0 else (i 0).val; rw [if_neg (by decide)]
    | ⟨1, _⟩ => by show 0 = if (1 : Nat) = 1 then 0 else (i 1).val; rw [if_pos rfl])

def val_main_v4 : (⟨S64x300000, .i1⟩ : BufTy).Contents (Elt F) :=
  cmpi .eq (val_main_v2 (F := F) x4) (val_main_v3 (F := F) x0)
theorem val_main_v4_apply (i : S64x300000.Idx) :
    val_main_v4 (F := F) x0 x4 i = IntOp.cmpi .eq (val_main_v2 (F := F) x4 i) (val_main_v3 (F := F) x0 i) := rfl

def val_main_v5 : (⟨S1x300000, .i32⟩ : BufTy).Contents (Elt F) :=
  broadcastInDim S1x300000 ![1] bcast_S300000_S1x300000_1 (x5)
abbrev idx_main_v5 (i : S1x300000.Idx) : S300000.Idx := fun a => match a with
  | ⟨0, _⟩ => ⟨(i 1).val, (i 1).isLt⟩
theorem val_main_v5_apply (i : S1x300000.Idx) :
    val_main_v5 (F := F) x5 i = x5 (idx_main_v5 i) := by
  unfold val_main_v5
  exact broadcastInDim_apply _ bcast_S300000_S1x300000_1 x5 i (idx_main_v5 i) (fun a => match a with
    | ⟨0, _⟩ => by show (i 1).val = if (300000 : Nat) = 1 then 0 else (i 1).val; rw [if_neg (by decide)])

def val_main_v6 : (⟨S64x1, .i32⟩ : BufTy).Contents (Elt F) :=
  broadcastInDim S64x1 ![0] bcast_S64_S64x1_0 (x2)
abbrev idx_main_v6 (i : S64x1.Idx) : S64.Idx := fun a => match a with
  | ⟨0, _⟩ => ⟨(i 0).val, (i 0).isLt⟩
theorem val_main_v6_apply (i : S64x1.Idx) :
    val_main_v6 (F := F) x2 i = x2 (idx_main_v6 i) := by
  unfold val_main_v6
  exact broadcastInDim_apply _ bcast_S64_S64x1_0 x2 i (idx_main_v6 i) (fun a => match a with
    | ⟨0, _⟩ => by show (i 0).val = if (64 : Nat) = 1 then 0 else (i 0).val; rw [if_neg (by decide)])

def val_main_v7 : (⟨S64x300000, .i32⟩ : BufTy).Contents (Elt F) :=
  broadcastInDim S64x300000 ![0, 1] bcast_S1x300000_S64x300000_0_1 (val_main_v5 (F := F) x5)
abbrev idx_main_v7 (i : S64x300000.Idx) : S1x300000.Idx := fun a => match a with
  | ⟨0, _⟩ => ⟨0, Nat.one_pos⟩
  | ⟨1, _⟩ => ⟨(i 1).val, (i 1).isLt⟩
theorem val_main_v7_apply (i : S64x300000.Idx) :
    val_main_v7 (F := F) x5 i = val_main_v5 (F := F) x5 (idx_main_v7 i) := by
  unfold val_main_v7
  generalize val_main_v5 (F := F) x5 = y
  exact broadcastInDim_apply _ bcast_S1x300000_S64x300000_0_1 y i (idx_main_v7 i) (fun a => match a with
    | ⟨0, _⟩ => by show 0 = if (1 : Nat) = 1 then 0 else (i 0).val; rw [if_pos rfl]
    | ⟨1, _⟩ => by show (i 1).val = if (300000 : Nat) = 1 then 0 else (i 1).val; rw [if_neg (by decide)])

def val_main_v8 : (⟨S64x300000, .i32⟩ : BufTy).Contents (Elt F) :=
  broadcastInDim S64x300000 ![0, 1] bcast_S64x1_S64x300000_0_1 (val_main_v6 (F := F) x2)
abbrev idx_main_v8 (i : S64x300000.Idx) : S64x1.Idx := fun a => match a with
  | ⟨0, _⟩ => ⟨(i 0).val, (i 0).isLt⟩
  | ⟨1, _⟩ => ⟨0, Nat.one_pos⟩
theorem val_main_v8_apply (i : S64x300000.Idx) :
    val_main_v8 (F := F) x2 i = val_main_v6 (F := F) x2 (idx_main_v8 i) := by
  unfold val_main_v8
  generalize val_main_v6 (F := F) x2 = y
  exact broadcastInDim_apply _ bcast_S64x1_S64x300000_0_1 y i (idx_main_v8 i) (fun a => match a with
    | ⟨0, _⟩ => by show (i 0).val = if (64 : Nat) = 1 then 0 else (i 0).val; rw [if_neg (by decide)]
    | ⟨1, _⟩ => by show 0 = if (1 : Nat) = 1 then 0 else (i 1).val; rw [if_pos rfl])

def val_main_v9 : (⟨S64x300000, .i1⟩ : BufTy).Contents (Elt F) :=
  cmpi .eq (val_main_v7 (F := F) x5) (val_main_v8 (F := F) x2)
theorem val_main_v9_apply (i : S64x300000.Idx) :
    val_main_v9 (F := F) x2 x5 i = IntOp.cmpi .eq (val_main_v7 (F := F) x5 i) (val_main_v8 (F := F) x2 i) := rfl

def val_main_v10 : (⟨S64x300000, .i1⟩ : BufTy).Contents (Elt F) :=
  andi (val_main_v4 (F := F) x0 x4) (val_main_v9 (F := F) x2 x5)
theorem val_main_v10_apply (i : S64x300000.Idx) :
    val_main_v10 (F := F) x0 x2 x4 x5 i = IntOp.andi (val_main_v4 (F := F) x0 x4 i) (val_main_v9 (F := F) x2 x5 i) := rfl

def val_main_v11 : (⟨S1x300000, .i32⟩ : BufTy).Contents (Elt F) :=
  broadcastInDim S1x300000 ![1] bcast_S300000_S1x300000_1 (x6)
abbrev idx_main_v11 (i : S1x300000.Idx) : S300000.Idx := fun a => match a with
  | ⟨0, _⟩ => ⟨(i 1).val, (i 1).isLt⟩
theorem val_main_v11_apply (i : S1x300000.Idx) :
    val_main_v11 (F := F) x6 i = x6 (idx_main_v11 i) := by
  unfold val_main_v11
  exact broadcastInDim_apply _ bcast_S300000_S1x300000_1 x6 i (idx_main_v11 i) (fun a => match a with
    | ⟨0, _⟩ => by show (i 1).val = if (300000 : Nat) = 1 then 0 else (i 1).val; rw [if_neg (by decide)])

def val_main_v12 : (⟨S64x1, .i32⟩ : BufTy).Contents (Elt F) :=
  broadcastInDim S64x1 ![0] bcast_S64_S64x1_0 (x1)
abbrev idx_main_v12 (i : S64x1.Idx) : S64.Idx := fun a => match a with
  | ⟨0, _⟩ => ⟨(i 0).val, (i 0).isLt⟩
theorem val_main_v12_apply (i : S64x1.Idx) :
    val_main_v12 (F := F) x1 i = x1 (idx_main_v12 i) := by
  unfold val_main_v12
  exact broadcastInDim_apply _ bcast_S64_S64x1_0 x1 i (idx_main_v12 i) (fun a => match a with
    | ⟨0, _⟩ => by show (i 0).val = if (64 : Nat) = 1 then 0 else (i 0).val; rw [if_neg (by decide)])

def val_main_v13 : (⟨S64x300000, .i32⟩ : BufTy).Contents (Elt F) :=
  broadcastInDim S64x300000 ![0, 1] bcast_S1x300000_S64x300000_0_1 (val_main_v11 (F := F) x6)
abbrev idx_main_v13 (i : S64x300000.Idx) : S1x300000.Idx := fun a => match a with
  | ⟨0, _⟩ => ⟨0, Nat.one_pos⟩
  | ⟨1, _⟩ => ⟨(i 1).val, (i 1).isLt⟩
theorem val_main_v13_apply (i : S64x300000.Idx) :
    val_main_v13 (F := F) x6 i = val_main_v11 (F := F) x6 (idx_main_v13 i) := by
  unfold val_main_v13
  generalize val_main_v11 (F := F) x6 = y
  exact broadcastInDim_apply _ bcast_S1x300000_S64x300000_0_1 y i (idx_main_v13 i) (fun a => match a with
    | ⟨0, _⟩ => by show 0 = if (1 : Nat) = 1 then 0 else (i 0).val; rw [if_pos rfl]
    | ⟨1, _⟩ => by show (i 1).val = if (300000 : Nat) = 1 then 0 else (i 1).val; rw [if_neg (by decide)])

def val_main_v14 : (⟨S64x300000, .i32⟩ : BufTy).Contents (Elt F) :=
  broadcastInDim S64x300000 ![0, 1] bcast_S64x1_S64x300000_0_1 (val_main_v12 (F := F) x1)
abbrev idx_main_v14 (i : S64x300000.Idx) : S64x1.Idx := fun a => match a with
  | ⟨0, _⟩ => ⟨(i 0).val, (i 0).isLt⟩
  | ⟨1, _⟩ => ⟨0, Nat.one_pos⟩
theorem val_main_v14_apply (i : S64x300000.Idx) :
    val_main_v14 (F := F) x1 i = val_main_v12 (F := F) x1 (idx_main_v14 i) := by
  unfold val_main_v14
  generalize val_main_v12 (F := F) x1 = y
  exact broadcastInDim_apply _ bcast_S64x1_S64x300000_0_1 y i (idx_main_v14 i) (fun a => match a with
    | ⟨0, _⟩ => by show (i 0).val = if (64 : Nat) = 1 then 0 else (i 0).val; rw [if_neg (by decide)]
    | ⟨1, _⟩ => by show 0 = if (1 : Nat) = 1 then 0 else (i 1).val; rw [if_pos rfl])

def val_main_v15 : (⟨S64x300000, .i1⟩ : BufTy).Contents (Elt F) :=
  cmpi .eq (val_main_v13 (F := F) x6) (val_main_v14 (F := F) x1)
theorem val_main_v15_apply (i : S64x300000.Idx) :
    val_main_v15 (F := F) x1 x6 i = IntOp.cmpi .eq (val_main_v13 (F := F) x6 i) (val_main_v14 (F := F) x1 i) := rfl

def val_main_v16 : (⟨S64x300000, .i1⟩ : BufTy).Contents (Elt F) :=
  andi (val_main_v10 (F := F) x0 x2 x4 x5) (val_main_v15 (F := F) x1 x6)
theorem val_main_v16_apply (i : S64x300000.Idx) :
    val_main_v16 (F := F) x0 x1 x2 x4 x5 x6 i = IntOp.andi (val_main_v10 (F := F) x0 x2 x4 x5 i) (val_main_v15 (F := F) x1 x6 i) := rfl

def val_main_c : (⟨S_, .i1⟩ : BufTy).Contents (Elt F) :=
  constantI S_ 1 0#1
def val_main_v17 : (⟨S300000, .i1⟩ : BufTy).Contents (Elt F) :=
  Host.reduce IntOp.ori (val_main_v16 (F := F) x0 x1 x2 x4 x5 x6) (val_main_c (F := F)) reducesTo_S64x300000_S300000_d0 h_S_

def val_main_cst : (⟨S_, .f32⟩ : BufTy).Contents (Elt F) :=
  constant S_ .f32 0x00000000#32
def val_main_call0_v0 : (⟨S_, .f32⟩ : BufTy).Contents (Elt F) :=
  id (val_main_cst (F := F))
def val_main_call0_v1 : (⟨S300000, .f32⟩ : BufTy).Contents (Elt F) :=
  broadcastInDim S300000 ![] bcast_S_S300000 (val_main_call0_v0 (F := F))
def val_main_v18 : (⟨S300000, .f32⟩ : BufTy).Contents (Elt F) :=
  select (val_main_v17 (F := F) x0 x1 x2 x4 x5 x6) (val_main_call0_v1 (F := F)) (x7)
theorem val_main_v18_apply (i : S300000.Idx) :
    val_main_v18 (F := F) x0 x1 x2 x4 x5 x6 x7 i = Scalar.select (val_main_v17 (F := F) x0 x1 x2 x4 x5 x6 i) (val_main_call0_v1 (F := F) i) (x7 i) := rfl

def val_main_call1_v0 : (⟨S64x1, .i32⟩ : BufTy).Contents (Elt F) :=
  broadcastInDim S64x1 ![0] bcast_S64_S64x1_0 (x0)
abbrev idx_main_call1_v0 (i : S64x1.Idx) : S64.Idx := fun a => match a with
  | ⟨0, _⟩ => ⟨(i 0).val, (i 0).isLt⟩
theorem val_main_call1_v0_apply (i : S64x1.Idx) :
    val_main_call1_v0 (F := F) x0 i = x0 (idx_main_call1_v0 i) := by
  unfold val_main_call1_v0
  exact broadcastInDim_apply _ bcast_S64_S64x1_0 x0 i (idx_main_call1_v0 i) (fun a => match a with
    | ⟨0, _⟩ => by show (i 0).val = if (64 : Nat) = 1 then 0 else (i 0).val; rw [if_neg (by decide)])

def val_main_call1_v1 : (⟨S1x40000, .i32⟩ : BufTy).Contents (Elt F) :=
  iotaInDim S1x40000 32 1
theorem val_main_call1_v1_apply (i : S1x40000.Idx) :
    val_main_call1_v1 (F := F) i = BitVec.ofNat 32 (i 1).val := rfl

def val_main_call1_v2 : (⟨S64x40000, .i32⟩ : BufTy).Contents (Elt F) :=
  broadcastInDim S64x40000 ![0, 1] bcast_S64x1_S64x40000_0_1 (val_main_call1_v0 (F := F) x0)
abbrev idx_main_call1_v2 (i : S64x40000.Idx) : S64x1.Idx := fun a => match a with
  | ⟨0, _⟩ => ⟨(i 0).val, (i 0).isLt⟩
  | ⟨1, _⟩ => ⟨0, Nat.one_pos⟩
theorem val_main_call1_v2_apply (i : S64x40000.Idx) :
    val_main_call1_v2 (F := F) x0 i = val_main_call1_v0 (F := F) x0 (idx_main_call1_v2 i) := by
  unfold val_main_call1_v2
  generalize val_main_call1_v0 (F := F) x0 = y
  exact broadcastInDim_apply _ bcast_S64x1_S64x40000_0_1 y i (idx_main_call1_v2 i) (fun a => match a with
    | ⟨0, _⟩ => by show (i 0).val = if (64 : Nat) = 1 then 0 else (i 0).val; rw [if_neg (by decide)]
    | ⟨1, _⟩ => by show 0 = if (1 : Nat) = 1 then 0 else (i 1).val; rw [if_pos rfl])

def val_main_call1_v3 : (⟨S64x40000, .i32⟩ : BufTy).Contents (Elt F) :=
  broadcastInDim S64x40000 ![0, 1] bcast_S1x40000_S64x40000_0_1 (val_main_call1_v1 (F := F))
abbrev idx_main_call1_v3 (i : S64x40000.Idx) : S1x40000.Idx := fun a => match a with
  | ⟨0, _⟩ => ⟨0, Nat.one_pos⟩
  | ⟨1, _⟩ => ⟨(i 1).val, (i 1).isLt⟩
theorem val_main_call1_v3_apply (i : S64x40000.Idx) :
    val_main_call1_v3 (F := F) i = val_main_call1_v1 (F := F) (idx_main_call1_v3 i) := by
  unfold val_main_call1_v3
  generalize val_main_call1_v1 (F := F) = y
  exact broadcastInDim_apply _ bcast_S1x40000_S64x40000_0_1 y i (idx_main_call1_v3 i) (fun a => match a with
    | ⟨0, _⟩ => by show 0 = if (1 : Nat) = 1 then 0 else (i 0).val; rw [if_pos rfl]
    | ⟨1, _⟩ => by show (i 1).val = if (40000 : Nat) = 1 then 0 else (i 1).val; rw [if_neg (by decide)])

def val_main_call1_v4 : (⟨S64x40000, .i1⟩ : BufTy).Contents (Elt F) :=
  cmpi .eq (val_main_call1_v2 (F := F) x0) (val_main_call1_v3 (F := F))
theorem val_main_call1_v4_apply (i : S64x40000.Idx) :
    val_main_call1_v4 (F := F) x0 i = IntOp.cmpi .eq (val_main_call1_v2 (F := F) x0 i) (val_main_call1_v3 (F := F) i) := rfl

def val_main_v19 : (⟨S64x40000, .f32⟩ : BufTy).Contents (Elt F) :=
  uitofp .f32 (val_main_call1_v4 (F := F) x0)
theorem val_main_v19_apply (i : S64x40000.Idx) :
    val_main_v19 (F := F) x0 i = FloatOps.uitofp .f32 (val_main_call1_v4 (F := F) x0 i) := rfl

def val_main_v20 : (⟨S64x1x48, .f32⟩ : BufTy).Contents (Elt F) :=
  extractStridedSlice S64x1x48 ![0, 0, 0] (x3) slices_S64x3x48_S64x1x48_0_0_0
abbrev idx_main_v20 (i : S64x1x48.Idx) : S64x3x48.Idx := fun a => match a with
  | ⟨0, _⟩ => ⟨(i 0).val, (i 0).isLt⟩
  | ⟨1, _⟩ => ⟨(i 1).val, by have h1 : (i 1).val < 1 := (i 1).isLt; show (i 1).val < 3; omega⟩
  | ⟨2, _⟩ => ⟨(i 2).val, (i 2).isLt⟩
theorem val_main_v20_apply (i : S64x1x48.Idx) :
    val_main_v20 (F := F) x3 i = x3 (idx_main_v20 i) := by
  unfold val_main_v20
  exact extractStridedSlice_apply ![0, 0, 0] x3 slices_S64x3x48_S64x1x48_0_0_0 i (idx_main_v20 i) (fun a => match a with
    | ⟨0, _⟩ => by show (i 0).val = 0 + (i 0).val; omega
    | ⟨1, _⟩ => by show (i 1).val = 0 + (i 1).val; omega
    | ⟨2, _⟩ => by show (i 2).val = 0 + (i 2).val; omega)

def val_main_v21 : (⟨S64x48, .f32⟩ : BufTy).Contents (Elt F) :=
  shapeCast _ (val_main_v20 (F := F) x3) shapeCasts_S64x1x48_S64x48
abbrev idx_main_v21 (i : S64x48.Idx) : S64x1x48.Idx := fun a => match a with
  | ⟨0, _⟩ => ⟨((i 0).val * 48 + (i 1).val) / 48, by have h0 : (i 0).val < 64 := (i 0).isLt; have h1 : (i 1).val < 48 := (i 1).isLt; show ((i 0).val * 48 + (i 1).val) / 48 < 64; omega⟩
  | ⟨1, _⟩ => ⟨0, Nat.one_pos⟩
  | ⟨2, _⟩ => ⟨((i 0).val * 48 + (i 1).val) % 48, by have h0 : (i 0).val < 64 := (i 0).isLt; have h1 : (i 1).val < 48 := (i 1).isLt; show ((i 0).val * 48 + (i 1).val) % 48 < 48; omega⟩
theorem val_main_v21_apply (i : S64x48.Idx) :
    val_main_v21 (F := F) x3 i = val_main_v20 (F := F) x3 (idx_main_v21 i) := by
  unfold val_main_v21
  generalize val_main_v20 (F := F) x3 = y
  exact shapeCast_apply y shapeCasts_S64x1x48_S64x48 i (idx_main_v21 i)
    (by rewrite [Shape.rowMajor_val_three, Shape.rowMajor_val_two]; have h0 : (i 0).val < 64 := (i 0).isLt; have h1 : (i 1).val < 48 := (i 1).isLt; show (((i 0).val * 48 + (i 1).val) / 48 * 1 + 0) * 48 + ((i 0).val * 48 + (i 1).val) % 48 = (i 0).val * 48 + (i 1).val; omega)

def val_main_v74 : (⟨S64x40000, .f32⟩ : BufTy).Contents (Elt F) :=
  RefValue.stepOps (F := F) (val_main_v21 (F := F) x3) (val_main_v19 (F := F) x0) (val_main_v18 (F := F) x0 x1 x2 x4 x5 x6 x7) x4 x5 x6
def val_main_v75 : (⟨S64x1x48, .f32⟩ : BufTy).Contents (Elt F) :=
  extractStridedSlice S64x1x48 ![0, 1, 0] (x3) slices_S64x3x48_S64x1x48_0_1_0
abbrev idx_main_v75 (i : S64x1x48.Idx) : S64x3x48.Idx := fun a => match a with
  | ⟨0, _⟩ => ⟨(i 0).val, (i 0).isLt⟩
  | ⟨1, _⟩ => ⟨1 + (i 1).val, by have h1 : (i 1).val < 1 := (i 1).isLt; show 1 + (i 1).val < 3; omega⟩
  | ⟨2, _⟩ => ⟨(i 2).val, (i 2).isLt⟩
theorem val_main_v75_apply (i : S64x1x48.Idx) :
    val_main_v75 (F := F) x3 i = x3 (idx_main_v75 i) := by
  unfold val_main_v75
  exact extractStridedSlice_apply ![0, 1, 0] x3 slices_S64x3x48_S64x1x48_0_1_0 i (idx_main_v75 i) (fun a => match a with
    | ⟨0, _⟩ => by show (i 0).val = 0 + (i 0).val; omega
    | ⟨1, _⟩ => by show 1 + (i 1).val = 1 + (i 1).val; omega
    | ⟨2, _⟩ => by show (i 2).val = 0 + (i 2).val; omega)

def val_main_v76 : (⟨S64x48, .f32⟩ : BufTy).Contents (Elt F) :=
  shapeCast _ (val_main_v75 (F := F) x3) shapeCasts_S64x1x48_S64x48
abbrev idx_main_v76 (i : S64x48.Idx) : S64x1x48.Idx := fun a => match a with
  | ⟨0, _⟩ => ⟨((i 0).val * 48 + (i 1).val) / 48, by have h0 : (i 0).val < 64 := (i 0).isLt; have h1 : (i 1).val < 48 := (i 1).isLt; show ((i 0).val * 48 + (i 1).val) / 48 < 64; omega⟩
  | ⟨1, _⟩ => ⟨0, Nat.one_pos⟩
  | ⟨2, _⟩ => ⟨((i 0).val * 48 + (i 1).val) % 48, by have h0 : (i 0).val < 64 := (i 0).isLt; have h1 : (i 1).val < 48 := (i 1).isLt; show ((i 0).val * 48 + (i 1).val) % 48 < 48; omega⟩
theorem val_main_v76_apply (i : S64x48.Idx) :
    val_main_v76 (F := F) x3 i = val_main_v75 (F := F) x3 (idx_main_v76 i) := by
  unfold val_main_v76
  generalize val_main_v75 (F := F) x3 = y
  exact shapeCast_apply y shapeCasts_S64x1x48_S64x48 i (idx_main_v76 i)
    (by rewrite [Shape.rowMajor_val_three, Shape.rowMajor_val_two]; have h0 : (i 0).val < 64 := (i 0).isLt; have h1 : (i 1).val < 48 := (i 1).isLt; show (((i 0).val * 48 + (i 1).val) / 48 * 1 + 0) * 48 + ((i 0).val * 48 + (i 1).val) % 48 = (i 0).val * 48 + (i 1).val; omega)

def val_main_v129 : (⟨S64x40000, .f32⟩ : BufTy).Contents (Elt F) :=
  RefValue.stepOps (F := F) (val_main_v76 (F := F) x3) (val_main_v74 (F := F) x0 x1 x2 x3 x4 x5 x6 x7) (val_main_v18 (F := F) x0 x1 x2 x4 x5 x6 x7) x4 x5 x6
def val_main_v130 : (⟨S64x1x48, .f32⟩ : BufTy).Contents (Elt F) :=
  extractStridedSlice S64x1x48 ![0, 2, 0] (x3) slices_S64x3x48_S64x1x48_0_2_0
abbrev idx_main_v130 (i : S64x1x48.Idx) : S64x3x48.Idx := fun a => match a with
  | ⟨0, _⟩ => ⟨(i 0).val, (i 0).isLt⟩
  | ⟨1, _⟩ => ⟨2 + (i 1).val, by have h1 : (i 1).val < 1 := (i 1).isLt; show 2 + (i 1).val < 3; omega⟩
  | ⟨2, _⟩ => ⟨(i 2).val, (i 2).isLt⟩
theorem val_main_v130_apply (i : S64x1x48.Idx) :
    val_main_v130 (F := F) x3 i = x3 (idx_main_v130 i) := by
  unfold val_main_v130
  exact extractStridedSlice_apply ![0, 2, 0] x3 slices_S64x3x48_S64x1x48_0_2_0 i (idx_main_v130 i) (fun a => match a with
    | ⟨0, _⟩ => by show (i 0).val = 0 + (i 0).val; omega
    | ⟨1, _⟩ => by show 2 + (i 1).val = 2 + (i 1).val; omega
    | ⟨2, _⟩ => by show (i 2).val = 0 + (i 2).val; omega)

def val_main_v131 : (⟨S64x48, .f32⟩ : BufTy).Contents (Elt F) :=
  shapeCast _ (val_main_v130 (F := F) x3) shapeCasts_S64x1x48_S64x48
abbrev idx_main_v131 (i : S64x48.Idx) : S64x1x48.Idx := fun a => match a with
  | ⟨0, _⟩ => ⟨((i 0).val * 48 + (i 1).val) / 48, by have h0 : (i 0).val < 64 := (i 0).isLt; have h1 : (i 1).val < 48 := (i 1).isLt; show ((i 0).val * 48 + (i 1).val) / 48 < 64; omega⟩
  | ⟨1, _⟩ => ⟨0, Nat.one_pos⟩
  | ⟨2, _⟩ => ⟨((i 0).val * 48 + (i 1).val) % 48, by have h0 : (i 0).val < 64 := (i 0).isLt; have h1 : (i 1).val < 48 := (i 1).isLt; show ((i 0).val * 48 + (i 1).val) % 48 < 48; omega⟩
theorem val_main_v131_apply (i : S64x48.Idx) :
    val_main_v131 (F := F) x3 i = val_main_v130 (F := F) x3 (idx_main_v131 i) := by
  unfold val_main_v131
  generalize val_main_v130 (F := F) x3 = y
  exact shapeCast_apply y shapeCasts_S64x1x48_S64x48 i (idx_main_v131 i)
    (by rewrite [Shape.rowMajor_val_three, Shape.rowMajor_val_two]; have h0 : (i 0).val < 64 := (i 0).isLt; have h1 : (i 1).val < 48 := (i 1).isLt; show (((i 0).val * 48 + (i 1).val) / 48 * 1 + 0) * 48 + ((i 0).val * 48 + (i 1).val) % 48 = (i 0).val * 48 + (i 1).val; omega)

def val_main_v184 : (⟨S64x40000, .f32⟩ : BufTy).Contents (Elt F) :=
  RefValue.stepOps (F := F) (val_main_v131 (F := F) x3) (val_main_v129 (F := F) x0 x1 x2 x3 x4 x5 x6 x7) (val_main_v18 (F := F) x0 x1 x2 x4 x5 x6 x7) x4 x5 x6
def val_main_v190 : (⟨S64x40000, .f32⟩ : BufTy).Contents (Elt F) :=
  RefValue.tailMemR (F := F) (val_main_v184 (F := F) x0 x1 x2 x3 x4 x5 x6 x7)
def val_main_v191 : (⟨S64, .i32⟩ : BufTy).Contents (Elt F) :=
  iotaInDim S64 32 0
def val_main_c_35 : (⟨S_, .i32⟩ : BufTy).Contents (Elt F) :=
  constantI S_ 32 0#32
def val_main_v192 : (⟨S64, .i32⟩ : BufTy).Contents (Elt F) :=
  broadcastInDim S64 ![] bcast_S_S64 (val_main_c_35 (F := F))
def val_main_v193 : (⟨S64, .i1⟩ : BufTy).Contents (Elt F) :=
  cmpi .slt (val_main_v191 (F := F)) (val_main_v192 (F := F))
def val_main_c_36 : (⟨S_, .i32⟩ : BufTy).Contents (Elt F) :=
  constantI S_ 32 64#32
def val_main_v194 : (⟨S64, .i32⟩ : BufTy).Contents (Elt F) :=
  broadcastInDim S64 ![] bcast_S_S64 (val_main_c_36 (F := F))
def val_main_v195 : (⟨S64, .i32⟩ : BufTy).Contents (Elt F) :=
  addi (val_main_v191 (F := F)) (val_main_v194 (F := F))
def val_main_v196 : (⟨S64, .i32⟩ : BufTy).Contents (Elt F) :=
  select (val_main_v193 (F := F)) (val_main_v195 (F := F)) (val_main_v191 (F := F))
def val_main_c_37 : (⟨S_, .i32⟩ : BufTy).Contents (Elt F) :=
  constantI S_ 32 0#32
def val_main_v197 : (⟨S64, .i32⟩ : BufTy).Contents (Elt F) :=
  broadcastInDim S64 ![] bcast_S_S64 (val_main_c_37 (F := F))
def val_main_v198 : (⟨S64, .i1⟩ : BufTy).Contents (Elt F) :=
  cmpi .slt (x2) (val_main_v197 (F := F))
def val_main_c_38 : (⟨S_, .i32⟩ : BufTy).Contents (Elt F) :=
  constantI S_ 32 40000#32
def val_main_v199 : (⟨S64, .i32⟩ : BufTy).Contents (Elt F) :=
  broadcastInDim S64 ![] bcast_S_S64 (val_main_c_38 (F := F))
def val_main_v200 : (⟨S64, .i32⟩ : BufTy).Contents (Elt F) :=
  addi (x2) (val_main_v199 (F := F))
def val_main_v201 : (⟨S64, .i32⟩ : BufTy).Contents (Elt F) :=
  select (val_main_v198 (F := F) x2) (val_main_v200 (F := F) x2) (x2)
def val_main_v202 : (⟨S64x1, .i32⟩ : BufTy).Contents (Elt F) :=
  broadcastInDim S64x1 ![0] bcast_S64_S64x1_0 (val_main_v196 (F := F))
def val_main_v203 : (⟨S64x1, .i32⟩ : BufTy).Contents (Elt F) :=
  broadcastInDim S64x1 ![0] bcast_S64_S64x1_0 (val_main_v201 (F := F) x2)
def val_main_v211 : (⟨S_, .f32⟩ : BufTy).Contents (Elt F) :=
  RefValue.tailLossR (F := F) (val_main_v184 (F := F) x0 x1 x2 x3 x4 x5 x6 x7) x2

end Cert.ReferenceIdeal.ReadP

end
-- ==== Proof.RefOps.lean ====
/-
  The reference's gather and scatter-add read at one element. A gather at an index inside the table reads the table there.
  A scatter-add gives, at (n, b), the entry plus the sum over the edges whose index is n of the update at (e, b). A word
  below 2^31 is not negative, so the wrap of negative indices leaves it unchanged.
-/
import proofs.«408331_j31499290149149_3_alg».proof.ReferenceIdeal
import Idealize.ShloMosaic.Lib.ValueIdx
import Idealize.ShloMosaic.Lib.StableHlo.Predicate

noncomputable section

namespace Cert.ReferenceIdeal.RefOps

open Cert.ReferenceIdeal Idealize.ShloMosaic Idealize.ShloMosaic.ValueIdx Idealize.ShloMosaic.StableHlo.Predicate
open scoped BigOperators

theorem wrap_nonneg (w n : BitVec 32) (h : w.toNat < 2 ^ 31) :
    Scalar.select (IntOp.cmpi .slt w 0#32) (IntOp.addi w n) w = w := by
  unfold Scalar.select
  rw [if_neg]
  intro hc
  have := (slt_iff_toNat (a := w) (b := 0#32) h (by decide)).1 hc
  simp at this

theorem gather_attn_apply [Facts] (a : FVec Ideal S64x48 .f32) (idx : IVec S300000x1 32) (b : Fin 64) (e : Fin 300000)
    (hlt : (idx (ix2 e 0)).toNat < 48) :
    Host.gather gather_S64x48_S300000x1_S64x300000_0_1_n_n_1_1_641 a idx (ix2 b e) = a (ix2 b ⟨(idx (ix2 e 0)).toNat, hlt⟩) := by
  unfold Host.gather
  congr 1
  funext c
  refine Fin.ext ?_
  match c with
  | ⟨0, _⟩ =>
    show GatherDims.start _ (ix2 b e) idx 0 + GatherDims.batchCoord _ (ix2 b e) 0 + GatherDims.offCoord _ (ix2 b e) 0 = b.val
    rw [GatherDims.batchCoord_eq_zero _ _ _ List.not_mem_nil]
    unfold GatherDims.start
    rw [dif_neg (show (0 : Fin 2) ∉ (gather_S64x48_S300000x1_S64x300000_0_1_n_n_1_1_641).startIndexMap from (by show (0 : Fin 2) ∉ ([1] : List (Fin 2)); decide))]
    unfold GatherDims.offCoord
    rw [dif_pos ((GatherDims.mem_sKept _ _).2 ⟨show (0 : Fin 2) ∉ ([1] : List (Fin 2)) from by decide, List.not_mem_nil⟩)]
    simp only [Nat.zero_add]
    rfl
  | ⟨1, _⟩ =>
    show GatherDims.start _ (ix2 b e) idx 1 + GatherDims.batchCoord _ (ix2 b e) 1 + GatherDims.offCoord _ (ix2 b e) 1 = (idx (ix2 e 0)).toNat
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (gather_S64x48_S300000x1_S64x300000_0_1_n_n_1_1_641).startIndexMap from List.mem_singleton.mpr rfl)]
    have hsi : (gather_S64x48_S300000x1_S64x300000_0_1_n_n_1_1_641).siIdx (ix2 b e) ⟨List.idxOf (1 : Fin 2) (gather_S64x48_S300000x1_S64x300000_0_1_n_n_1_1_641).startIndexMap,
        List.idxOf_lt_length_iff.2 (List.mem_singleton.mpr rfl)⟩ = ix2 e 0 := by
      funext q; refine Fin.ext ?_
      match q with
      | ⟨0, _⟩ => rfl
      | ⟨1, _⟩ => rfl
    rw [hsi, toInt_eq_toNat_of_lt (by omega)]
    show min (idx (ix2 e 0)).toNat (48 - 1) = _
    omega

theorem gather_mem_apply [Facts] (mem : FVec Ideal S64x40000 .f32) (idx : IVec S300000x1 32) (b : Fin 64) (e : Fin 300000)
    (hlt : (idx (ix2 e 0)).toNat < 40000) :
    Host.gather gather_S64x40000_S300000x1_S64x300000_0_1_n_n_1_1_641 mem idx (ix2 b e) = mem (ix2 b ⟨(idx (ix2 e 0)).toNat, hlt⟩) := by
  unfold Host.gather
  congr 1
  funext c
  refine Fin.ext ?_
  match c with
  | ⟨0, _⟩ =>
    show GatherDims.start _ (ix2 b e) idx 0 + GatherDims.batchCoord _ (ix2 b e) 0 + GatherDims.offCoord _ (ix2 b e) 0 = b.val
    rw [GatherDims.batchCoord_eq_zero _ _ _ List.not_mem_nil]
    unfold GatherDims.start
    rw [dif_neg (show (0 : Fin 2) ∉ (gather_S64x40000_S300000x1_S64x300000_0_1_n_n_1_1_641).startIndexMap from (by show (0 : Fin 2) ∉ ([1] : List (Fin 2)); decide))]
    unfold GatherDims.offCoord
    rw [dif_pos ((GatherDims.mem_sKept _ _).2 ⟨show (0 : Fin 2) ∉ ([1] : List (Fin 2)) from by decide, List.not_mem_nil⟩)]
    simp only [Nat.zero_add]
    rfl
  | ⟨1, _⟩ =>
    show GatherDims.start _ (ix2 b e) idx 1 + GatherDims.batchCoord _ (ix2 b e) 1 + GatherDims.offCoord _ (ix2 b e) 1 = (idx (ix2 e 0)).toNat
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (gather_S64x40000_S300000x1_S64x300000_0_1_n_n_1_1_641).startIndexMap from List.mem_singleton.mpr rfl)]
    have hsi : (gather_S64x40000_S300000x1_S64x300000_0_1_n_n_1_1_641).siIdx (ix2 b e) ⟨List.idxOf (1 : Fin 2) (gather_S64x40000_S300000x1_S64x300000_0_1_n_n_1_1_641).startIndexMap,
        List.idxOf_lt_length_iff.2 (List.mem_singleton.mpr rfl)⟩ = ix2 e 0 := by
      funext q; refine Fin.ext ?_
      match q with
      | ⟨0, _⟩ => rfl
      | ⟨1, _⟩ => rfl
    rw [hsi, toInt_eq_toNat_of_lt (by omega)]
    show min (idx (ix2 e 0)).toNat (40000 - 1) = _
    omega

private theorem sc_start0 [Facts] (idx : IVec S300000x1 32) (j : S300000x64.Idx) :
    ScatterDims.start scatter_S40000x64_S300000x1_S300000x64_1_0_0_1 j idx 0 = (idx (ix2 (j 0) 0)).toInt := by
  unfold ScatterDims.start
  rw [dif_pos (show (0 : Fin 2) ∈ (scatter_S40000x64_S300000x1_S300000x64_1_0_0_1).scatterDimsToOperandDims from List.mem_singleton.mpr rfl)]
  congr 2
  funext q; refine Fin.ext ?_
  match q with
  | ⟨0, _⟩ => rfl
  | ⟨1, _⟩ => rfl

private theorem sc_start1 [Facts] (idx : IVec S300000x1 32) (j : S300000x64.Idx) :
    ScatterDims.start scatter_S40000x64_S300000x1_S300000x64_1_0_0_1 j idx 1 = 0 := by
  unfold ScatterDims.start
  rw [dif_neg (show (1 : Fin 2) ∉ (scatter_S40000x64_S300000x1_S300000x64_1_0_0_1).scatterDimsToOperandDims from (by show (1 : Fin 2) ∉ ([0] : List (Fin 2)); decide))]

private theorem sc_window0 [Facts] (j : S300000x64.Idx) : ScatterDims.window scatter_S40000x64_S300000x1_S300000x64_1_0_0_1 j 0 = 0 := by
  unfold ScatterDims.window
  rw [dif_neg (show (0 : Fin 2) ∉ (scatter_S40000x64_S300000x1_S300000x64_1_0_0_1).sKept from (by show (0 : Fin 2) ∉ Shape.kept S40000x64 ([0] : List (Fin 2)); simp [Shape.kept]))]

private theorem sc_window1 [Facts] (j : S300000x64.Idx) : ScatterDims.window scatter_S40000x64_S300000x1_S300000x64_1_0_0_1 j 1 = (j 1).val := by
  unfold ScatterDims.window
  rw [dif_pos (show (1 : Fin 2) ∈ (scatter_S40000x64_S300000x1_S300000x64_1_0_0_1).sKept from (by show (1 : Fin 2) ∈ Shape.kept S40000x64 ([0] : List (Fin 2)); simp [Shape.kept]))]
  rfl

private theorem sc_resultIdx [Facts] (idx : IVec S300000x1 32) (j : S300000x64.Idx)
    (h : (idx (ix2 (j 0) 0)).toNat < 40000) :
    ScatterDims.resultIdx? scatter_S40000x64_S300000x1_S300000x64_1_0_0_1 j idx = some (ix2 ⟨(idx (ix2 (j 0) 0)).toNat, h⟩ (j 1)) := by
  have hti : (idx (ix2 (j 0) 0)).toInt = ((idx (ix2 (j 0) 0)).toNat : Int) := toInt_eq_toNat_of_lt (by omega)
  have h1 : (j 1).val < 64 := (j 1).isLt
  unfold ScatterDims.resultIdx?
  rw [dif_pos]
  · congr 1
    funext a
    refine Fin.ext ?_
    match a with
    | ⟨0, _⟩ =>
      show (ScatterDims.start scatter_S40000x64_S300000x1_S300000x64_1_0_0_1 j idx 0 + (ScatterDims.window scatter_S40000x64_S300000x1_S300000x64_1_0_0_1 j 0 : Int)).toNat = (idx (ix2 (j 0) 0)).toNat
      rw [sc_start0, sc_window0, hti]; simp
    | ⟨1, _⟩ =>
      show (ScatterDims.start scatter_S40000x64_S300000x1_S300000x64_1_0_0_1 j idx 1 + (ScatterDims.window scatter_S40000x64_S300000x1_S300000x64_1_0_0_1 j 1 : Int)).toNat = (j 1).val
      rw [sc_start1, sc_window1]; simp
  · intro a
    match a with
    | ⟨0, _⟩ =>
      show 0 ≤ ScatterDims.start scatter_S40000x64_S300000x1_S300000x64_1_0_0_1 j idx 0 + (ScatterDims.window scatter_S40000x64_S300000x1_S300000x64_1_0_0_1 j 0 : Int) ∧ ScatterDims.start scatter_S40000x64_S300000x1_S300000x64_1_0_0_1 j idx 0 + (ScatterDims.window scatter_S40000x64_S300000x1_S300000x64_1_0_0_1 j 0 : Int) < (40000 : Nat)
      rw [sc_start0, sc_window0, hti]; omega
    | ⟨1, _⟩ =>
      show 0 ≤ ScatterDims.start scatter_S40000x64_S300000x1_S300000x64_1_0_0_1 j idx 1 + (ScatterDims.window scatter_S40000x64_S300000x1_S300000x64_1_0_0_1 j 1 : Int) ∧ ScatterDims.start scatter_S40000x64_S300000x1_S300000x64_1_0_0_1 j idx 1 + (ScatterDims.window scatter_S40000x64_S300000x1_S300000x64_1_0_0_1 j 1 : Int) < (64 : Nat)
      rw [sc_start1, sc_window1]; omega

private theorem sc_lands_iff [Facts] (idx : IVec S300000x1 32) (e : Fin 300000) (c : Fin 64) (n : Fin 40000) (b : Fin 64)
    (h : (idx (ix2 e 0)).toNat < 40000) :
    ScatterDims.resultIdx? scatter_S40000x64_S300000x1_S300000x64_1_0_0_1 (ix2 e c) idx = some (ix2 n b) ↔ (idx (ix2 e 0) = BitVec.ofNat 32 n.val ∧ c = b) := by
  rw [sc_resultIdx idx (ix2 e c) h]
  have hn : n.val < 40000 := n.isLt
  constructor
  · intro hs
    have hf := Option.some.inj hs
    have h0 := congrArg (fun f => (f 0).val) hf
    have h1 := congrArg (fun f => f 1) hf
    refine ⟨?_, h1⟩
    apply BitVec.eq_of_toNat_eq
    rw [BitVec.toNat_ofNat]
    have h0' : (idx (ix2 e 0)).toNat = n.val := h0
    omega
  · rintro ⟨hA, rfl⟩
    congr 1
    funext a
    match a with
    | ⟨0, _⟩ =>
      refine Fin.ext ?_
      show (idx (ix2 e 0)).toNat = n.val
      rw [hA, BitVec.toNat_ofNat]; omega
    | ⟨1, _⟩ => rfl

private theorem sum_filter_univ {ι M : Type} [Fintype ι] [AddCommMonoid M] (p : ι → Prop) [DecidablePred p] (f : ι → M) :
    ∑ j ∈ Finset.univ.filter p, f j = ∑ j, if p j then f j else 0 := Finset.sum_filter _ _

private theorem sc_sum [Facts] (idx : IVec S300000x1 32) (upd : FVec Ideal S300000x64 .f32)
    (n : Fin 40000) (b : Fin 64) (hidx : ∀ e : Fin 300000, (idx (ix2 e 0)).toNat < 40000) :
    ∑ j ∈ Finset.univ.filter (fun j => ScatterDims.resultIdx? scatter_S40000x64_S300000x1_S300000x64_1_0_0_1 j idx = some (ix2 n b)), upd j
      = ∑ e : Fin 300000, (if idx (ix2 e 0) = BitVec.ofNat 32 n.val then upd (ix2 e b) else 0) := by
  refine (sum_filter_univ _ _).trans ?_
  refine (sum_idx2 _).trans ?_
  refine Finset.sum_congr rfl fun e _ => ?_
  by_cases hA : idx (ix2 e 0) = BitVec.ofNat 32 n.val
  · rw [if_pos hA, Finset.sum_eq_single b]
    · exact if_pos ((sc_lands_iff idx e b n b (hidx e)).2 ⟨hA, rfl⟩)
    · intro c _ hc
      exact if_neg fun hs => hc ((sc_lands_iff idx e c n b (hidx e)).1 hs).2
    · intro hb; exact absurd (Finset.mem_univ b) hb
  · rw [if_neg hA]
    refine Finset.sum_eq_zero fun c _ => ?_
    exact if_neg fun hs => hA ((sc_lands_iff idx e c n b (hidx e)).1 hs).1

theorem scatter_seg_apply [Facts] (x : FVec Ideal S40000x64 .f32) (idx : IVec S300000x1 32) (upd : FVec Ideal S300000x64 .f32)
    (n : Fin 40000) (b : Fin 64) (hidx : ∀ e : Fin 300000, (idx (ix2 e 0)).toNat < 40000) :
    Host.scatterAdd scatter_S40000x64_S300000x1_S300000x64_1_0_0_1 x idx upd (ix2 n b)
      = x (ix2 n b) + ∑ e : Fin 300000, (if idx (ix2 e 0) = BitVec.ofNat 32 n.val then upd (ix2 e b) else 0) :=
  congrArg (x (ix2 n b) + ·) (sc_sum idx upd n b hidx)

end Cert.ReferenceIdeal.RefOps

end
-- ==== Proof.RefValue.lean ====
/-
  The reference's results read through its stages. One step is the same operations three times over; it is stated once
  (stepOps) and is the direct spelling's step once every edge's head, tail and relation are in range. After the three
  steps come the closing operations, which the kernel program shares.
-/
import proofs.«408331_j31499290149149_3_alg».proof.Proof.RunRI
import proofs.«408331_j31499290149149_3_alg».proof.Proof.ReadRI
import proofs.«408331_j31499290149149_3_alg».proof.Proof.Spec
import proofs.«408331_j31499290149149_3_alg».proof.Proof.RefOps
import Idealize.ShloMosaic.Lib.Pipeline.Value
import Idealize.ShloMosaic.PureOps.Ideal.Laws
import Idealize.ShloMosaic.Lib.ValueIdx
import Idealize.ShloMosaic.Lib.StableHlo.Predicate
import Idealize.ShloMosaic.Lib.ReduceAll

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.MsgSpec
open scoped BigOperators

section AtIdeal

theorem wrapW_apply (n : BitVec 32) (w : TE.Idx → BitVec 32) (e : Fin 300000) (h : (w (ix1 e)).toNat < 2 ^ 31) :
    wrapW (F := Ideal) n w (ix1 e) = w (ix1 e) :=
  RefOps.wrap_nonneg (w (ix1 e)) n h

theorem colIdx_apply (w : TE.Idx → BitVec 32) (e : Fin 300000) : colIdx (F := Ideal) w (ix2 e 0) = w (ix1 e) := by
  unfold colIdx
  exact broadcastInDim_apply _ bcast_S300000_S300000x1_0 w (ix2 e 0) (ix1 e) (fun a => match a with
    | ⟨0, _⟩ => by show e.val = if (300000 : Nat) = 1 then 0 else e.val; rw [if_neg (by decide)])

theorem valsB_apply (vals : TE.Idx → EReal) (b : Fin 64) (e : Fin 300000) : valsB (F := Ideal) vals (ix2 b e) = vals (ix1 e) := by
  unfold valsB
  rw [broadcastInDim_apply _ bcast_S1x300000_S64x300000_0_1 _ (ix2 b e) (ix2 (0 : Fin 1) e) (fun a => match a with
    | ⟨0, _⟩ => by show 0 = if (1 : Nat) = 1 then 0 else b.val; rw [if_pos rfl]
    | ⟨1, _⟩ => by show e.val = if (300000 : Nat) = 1 then 0 else e.val; rw [if_neg (by decide)])]
  exact broadcastInDim_apply _ bcast_S300000_S1x300000_1 vals (ix2 (0 : Fin 1) e) (ix1 e) (fun a => match a with
    | ⟨0, _⟩ => by show e.val = if (300000 : Nat) = 1 then 0 else e.val; rw [if_neg (by decide)])

theorem gather_mem_at (mem : TM.Idx → EReal) (idx : IVec S300000x1 32) (b : Fin 64) (e : Fin 300000) (w : BitVec 32)
    (hw : idx (ix2 e 0) = w) (hlt : w.toNat < 40000) :
    Host.gather gather_S64x40000_S300000x1_S64x300000_0_1_n_n_1_1_641 mem idx (ix2 b e) = memAt mem b w := by
  subst hw
  rw [RefOps.gather_mem_apply mem idx b e hlt]
  unfold memAt
  rw [dif_pos hlt]

theorem gather_attn_at (a : TAttn.Idx → EReal) (idx : IVec S300000x1 32) (b : Fin 64) (e : Fin 300000) (w : BitVec 32)
    (hw : idx (ix2 e 0) = w) (hlt : w.toNat < 48) :
    Host.gather gather_S64x48_S300000x1_S64x300000_0_1_n_n_1_1_641 a idx (ix2 b e) = attAt a b w.toNat := by
  subst hw
  rw [RefOps.gather_attn_apply a idx b e hlt]
  unfold attAt
  rw [dif_pos hlt]

theorem msgOps_apply (a : TAttn.Idx → EReal) (mem : TM.Idx → EReal) (vals : TE.Idx → EReal) (src rel : TE.Idx → BitVec 32)
    (b : Fin 64) (e : Fin 300000) (hsrc : (src (ix1 e)).toNat < 40000) (hrel : (rel (ix1 e)).toNat < 48) :
    msgOps (F := Ideal) a mem vals src rel (ix2 b e)
      = memAt mem b (src (ix1 e)) * vals (ix1 e) * attAt a b (rel (ix1 e)).toNat := by
  unfold msgOps
  rw [mulf_apply, mulf_apply, valsB_apply]
  rw [gather_mem_at mem _ b e (src (ix1 e)) (by rw [colIdx_apply, wrapW_apply _ _ _ (by omega)]) hsrc,
    gather_attn_at a _ b e (rel (ix1 e)) (colIdx_apply _ _) hrel]

theorem segOps_apply (upd : S64x300000.Idx → EReal) (dst : TE.Idx → BitVec 32)
    (hdst : ∀ e : Fin 300000, (dst (ix1 e)).toNat < 40000) (b : Fin 64) (n : Fin 40000) :
    segOps (F := Ideal) upd dst (ix2 b n) = ∑ e : Fin 300000, ind (dst (ix1 e) = BitVec.ofNat 32 n.val) * upd (ix2 b e) := by
  unfold segOps
  rw [transpose_apply [1, 0] _ transposes_S40000x64_S64x40000_1_0 (ix2 b n) (ix2 n b) (fun c => match c with
    | ⟨0, _⟩ => rfl
    | ⟨1, _⟩ => rfl)]
  rw [RefOps.scatter_seg_apply _ _ _ n b (fun e => by rw [colIdx_apply]; exact hdst e)]
  have hz : broadcastInDim S40000x64 ![] bcast_S_S40000x64 (constant (F := Ideal) S_ .f32 0x00000000#32) (ix2 n b) = (0 : EReal) :=
    Ideal.ofBits_zero_f32
  rw [hz, zero_add]
  refine Finset.sum_congr rfl fun e _ => ?_
  rw [colIdx_apply, transpose_apply [1, 0] upd transposes_S64x300000_S300000x64_1_0 (ix2 e b) (ix2 b e) (fun c => match c with
    | ⟨0, _⟩ => rfl
    | ⟨1, _⟩ => rfl)]
  by_cases h : dst (ix1 e) = BitVec.ofNat 32 n.val
  · rw [if_pos h, ind_true h, one_mul]
  · rw [if_neg h, ind_false h, zero_mul]

theorem rev_rel (x6 : TE.Idx → BitVec 32) (e : Fin 300000) (h : (x6 (ix1 e)).toNat < 24) :
    (addi x6 (broadcastInDim S300000 ![] bcast_S_S300000 (constantI S_ 32 24#32)) (ix1 e)).toNat = (x6 (ix1 e)).toNat + 24 := by
  show (x6 (ix1 e) + 24#32).toNat = _
  rw [BitVec.toNat_add]
  show ((x6 (ix1 e)).toNat + 24) % 2 ^ 32 = _
  omega

theorem stepOps_eq (a : TAttn.Idx → EReal) (mem : TM.Idx → EReal) (vals : TE.Idx → EReal) (x4 x5 x6 : TE.Idx → BitVec 32)
    (hr : InRange x4 x5 x6) :
    stepOps (F := Ideal) a mem vals x4 x5 x6 = stepR a x4 x5 x6 vals mem := by
  funext i
  obtain ⟨b, n, rfl⟩ : ∃ b n, i = ix2 b n := ⟨i 0, i 1, eq_ix2 i⟩
  unfold stepOps
  rw [addf_apply, addf_apply, mulf_apply]
  rw [segOps_apply _ x5 (fun e => (hr e).2.1) b n, segOps_apply _ x4 (fun e => (hr e).1) b n]
  show _ = ((∑ e : Fin 300000, ind (x5 (ix1 e) = BitVec.ofNat 32 n.val)
        * (memAt mem b (x4 (ix1 e)) * vals (ix1 e) * attAt a b (x6 (ix1 e)).toNat))
     + (∑ e : Fin 300000, ind (x4 (ix1 e) = BitVec.ofNat 32 n.val)
        * (memAt mem b (x5 (ix1 e)) * vals (ix1 e) * attAt a b ((x6 (ix1 e)).toNat + 24))))
    + mem (ix2 b n) * a (ix2 b ⟨47, by decide⟩)
  refine congrArg₂ (· + ·) (congrArg₂ (· + ·) (Finset.sum_congr rfl fun e _ => ?_) (Finset.sum_congr rfl fun e _ => ?_))
    (congrArg (mem (ix2 b n) * ·) ?_)
  ·
    have h6 : (x6 (ix1 e)).toNat < 24 := (hr e).2.2
    have hw : wrapW (F := Ideal) 48#32 x6 (ix1 e) = x6 (ix1 e) := wrapW_apply _ _ _ (by omega)
    rw [msgOps_apply a mem vals x4 _ b e (hr e).1 (by rw [hw]; omega), hw]
  ·
    have h6 : (x6 (ix1 e)).toNat < 24 := (hr e).2.2
    have h24 := rev_rel x6 e h6
    have hw : wrapW (F := Ideal) 48#32 (addi x6 (broadcastInDim S300000 ![] bcast_S_S300000 (constantI S_ 32 24#32))) (ix1 e)
        = addi x6 (broadcastInDim S300000 ![] bcast_S_S300000 (constantI S_ 32 24#32)) (ix1 e) :=
      wrapW_apply _ _ _ (by rw [h24]; omega)
    rw [msgOps_apply a mem vals x5 _ b e (hr e).2.1 (by rw [hw, h24]; omega), hw, h24]
  ·
    rw [broadcastInDim_apply _ bcast_S64x1_S64x40000_0_1 _ (ix2 b n) (ix2 b (0 : Fin 1)) (fun c => match c with
      | ⟨0, _⟩ => by show b.val = if (64 : Nat) = 1 then 0 else b.val; rw [if_neg (by decide)]
      | ⟨1, _⟩ => by show 0 = if (1 : Nat) = 1 then 0 else n.val; rw [if_pos rfl])]
    exact extractStridedSlice_apply ![0, 47] a slices_S64x48_S64x1_0_47 (ix2 b (0 : Fin 1)) (ix2 b ⟨47, by decide⟩) (fun c => match c with
      | ⟨0, _⟩ => by show b.val = 0 + b.val; omega
      | ⟨1, _⟩ => by show 47 = 47 + 0; rfl)

theorem foldl_ori_eq_one {ι : Type} (f : ι → BitVec 1) :
    ∀ (l : List ι) (init : BitVec 1), l.foldl (fun r n => IntOp.ori r (f n)) init = 1#1 ↔ init = 1#1 ∨ ∃ n ∈ l, f n = 1#1
  | [], init => by simp
  | a :: l, init => by
    rw [List.foldl_cons, foldl_ori_eq_one f l, IntOp.ori_eq_one]
    constructor
    · rintro ((h | h) | ⟨n, hn, h⟩)
      · exact Or.inl h
      · exact Or.inr ⟨a, List.mem_cons_self, h⟩
      · exact Or.inr ⟨n, List.mem_cons_of_mem _ hn, h⟩
    · rintro (h | ⟨n, hn, h⟩)
      · exact Or.inl (Or.inl h)
      · rcases List.mem_cons.1 hn with rfl | hn
        · exact Or.inl (Or.inr h)
        · exact Or.inr ⟨n, hn, h⟩

theorem reduce_ori_eq_one {s t u : Shape} {axes : List (Fin s.rank)} (x : s.Idx → BitVec 1) (init : u.Idx → BitVec 1)
    (h : s.ReducesTo axes t) (hu : 0 < u.numel) (j : t.Idx) :
    Host.reduce IntOp.ori x init h hu j = 1#1 ↔ init (Shape.Idx.first hu) = 1#1 ∨ ∃ i : s.Idx, h.drop i = j ∧ x i = 1#1 := by
  rw [Host.reduce_eq_foldl, foldl_ori_eq_one]
  refine or_congr Iff.rfl ⟨fun ⟨i, hi, hx⟩ => ⟨i, ?_, hx⟩, fun ⟨i, hi, hx⟩ => ⟨i, ?_, hx⟩⟩
  · rw [List.mem_filter] at hi
    simpa using hi.2
  · rw [List.mem_filter]
    exact ⟨List.mem_map.2 ⟨s.rowMajor i, List.mem_finRange _, Equiv.symm_apply_apply _ _⟩, by simp [hi]⟩

theorem drop_query (i : S64x300000.Idx) : reducesTo_S64x300000_S300000_d0.drop i = ix1 (i 1) := by
  funext c
  match c with
  | ⟨0, _⟩ => exact Fin.ext rfl

theorem ix1_of_val {n : Nat} (k : (⟨1, ![n]⟩ : Shape).Idx) (e : Fin n) (h : (k 0).val = e.val) : k = ix1 e := by
  funext a
  match a with
  | ⟨0, _⟩ => exact Fin.ext h

theorem v16_apply (x0 x1 x2 : T64.Idx → BitVec 32) (x4 x5 x6 : TE.Idx → BitVec 32) (b : Fin 64) (e : Fin 300000) :
    ReadP.val_main_v16 (F := Ideal) x0 x1 x2 x4 x5 x6 (ix2 b e) = 1#1
      ↔ (x4 (ix1 e) = x0 (ix1 b) ∧ x5 (ix1 e) = x2 (ix1 b)) ∧ x6 (ix1 e) = x1 (ix1 b) := by
  rw [ReadP.val_main_v16_apply, ReadP.val_main_v10_apply, ReadP.val_main_v4_apply, ReadP.val_main_v9_apply, ReadP.val_main_v15_apply,
    ReadP.val_main_v2_apply, ReadP.val_main_v0_apply, ReadP.val_main_v3_apply, ReadP.val_main_v1_apply,
    ReadP.val_main_v7_apply, ReadP.val_main_v5_apply, ReadP.val_main_v8_apply, ReadP.val_main_v6_apply,
    ReadP.val_main_v13_apply, ReadP.val_main_v11_apply, ReadP.val_main_v14_apply, ReadP.val_main_v12_apply]
  rw [IntOp.andi_eq_one, IntOp.andi_eq_one, Predicate.cmpi_eq_iff, Predicate.cmpi_eq_iff, Predicate.cmpi_eq_iff]
  rw [ix1_of_val (ReadP.idx_main_v0 (ReadP.idx_main_v2 (ix2 b e))) e rfl, ix1_of_val (ReadP.idx_main_v1 (ReadP.idx_main_v3 (ix2 b e))) b rfl,
    ix1_of_val (ReadP.idx_main_v5 (ReadP.idx_main_v7 (ix2 b e))) e rfl, ix1_of_val (ReadP.idx_main_v6 (ReadP.idx_main_v8 (ix2 b e))) b rfl,
    ix1_of_val (ReadP.idx_main_v11 (ReadP.idx_main_v13 (ix2 b e))) e rfl, ix1_of_val (ReadP.idx_main_v12 (ReadP.idx_main_v14 (ix2 b e))) b rfl]

theorem ref_kill (x0 x1 x2 : T64.Idx → BitVec 32) (x4 x5 x6 : TE.Idx → BitVec 32) (x7 : TE.Idx → EReal) :
    ReadP.val_main_v18 (F := Ideal) x0 x1 x2 x4 x5 x6 x7 = killR x0 x1 x2 x4 x5 x6 x7 := by
  funext i
  obtain ⟨e, rfl⟩ : ∃ e, i = ix1 e := ⟨i 0, eq_ix1 i⟩
  rw [ReadP.val_main_v18_apply]
  have hiff : ReadP.val_main_v17 (F := Ideal) x0 x1 x2 x4 x5 x6 (ix1 e) = 1#1
      ↔ ∃ b : Fin 64, (x4 (ix1 e) = x0 (ix1 b) ∧ x5 (ix1 e) = x2 (ix1 b)) ∧ x6 (ix1 e) = x1 (ix1 b) := by
    unfold ReadP.val_main_v17
    rw [reduce_ori_eq_one]
    constructor
    · rintro (h | ⟨i, hi, hx⟩)
      · exact absurd h (by decide)
      · obtain ⟨b, e', rfl⟩ : ∃ b e', i = ix2 b e' := ⟨i 0, i 1, eq_ix2 i⟩
        rw [drop_query] at hi
        have he : e' = e := congrArg (fun k : TE.Idx => k 0) hi
        subst he
        exact ⟨b, (v16_apply x0 x1 x2 x4 x5 x6 b e').1 hx⟩
    · rintro ⟨b, hb⟩
      exact Or.inr ⟨ix2 b e, drop_query _, (v16_apply x0 x1 x2 x4 x5 x6 b e).2 hb⟩
  unfold killR
  by_cases hk : ∃ b : Fin 64, (x4 (ix1 e) = x0 (ix1 b) ∧ x5 (ix1 e) = x2 (ix1 b)) ∧ x6 (ix1 e) = x1 (ix1 b)
  · rw [if_pos hk, hiff.2 hk, select_one]
    exact Ideal.ofBits_zero_f32
  · rw [if_neg hk, eq_zero_of_ne_one (fun h => hk (hiff.1 h)), select_zero]

theorem ref_onehot (x0 : T64.Idx → BitVec 32) : ReadP.val_main_v19 (F := Ideal) x0 = onehotR x0 := by
  funext i
  obtain ⟨b, n, rfl⟩ : ∃ b n, i = ix2 b n := ⟨i 0, i 1, eq_ix2 i⟩
  rw [ReadP.val_main_v19_apply, ReadP.val_main_call1_v4_apply, ReadP.val_main_call1_v2_apply, ReadP.val_main_call1_v0_apply,
    ReadP.val_main_call1_v3_apply, ReadP.val_main_call1_v1_apply]
  rw [ix1_of_val (ReadP.idx_main_call1_v0 (ReadP.idx_main_call1_v2 (ix2 b n))) b rfl]
  unfold onehotR
  show (((IntOp.cmpi .eq (x0 (ix1 b)) (BitVec.ofNat 32 n.val)).toNat : ℝ) : EReal) = ind (x0 (ix1 b) = BitVec.ofNat 32 n.val)
  by_cases h : x0 (ix1 b) = BitVec.ofNat 32 n.val
  · rw [ind_true h, Predicate.cmpi_eq_iff.2 h]
    simp
  · rw [ind_false h, eq_zero_of_ne_one (fun hc => h (Predicate.cmpi_eq_iff.1 hc))]
    simp

theorem attn_idx (b : Fin 64) (r : Fin 48) (s : Fin 3) (k : S64x3x48.Idx)
    (h0 : (k 0).val = (b.val * 48 + r.val) / 48) (h1 : (k 1).val = s.val) (h2 : (k 2).val = (b.val * 48 + r.val) % 48) :
    k = ix3 b s r := by
  have hb := b.isLt
  have hr := r.isLt
  funext a
  match a with
  | ⟨0, _⟩ => exact Fin.ext (by show (k 0).val = b.val; omega)
  | ⟨1, _⟩ => exact Fin.ext h1
  | ⟨2, _⟩ => exact Fin.ext (by show (k 2).val = r.val; omega)

theorem ref_attn0 (x3 : TAttn3.Idx → EReal) : ReadP.val_main_v21 (F := Ideal) x3 = attnStep x3 0 := by
  funext i
  obtain ⟨b, r, rfl⟩ : ∃ b r, i = ix2 b r := ⟨i 0, i 1, eq_ix2 i⟩
  rw [ReadP.val_main_v21_apply, ReadP.val_main_v20_apply]
  exact congrArg x3 (attn_idx b r 0 _ rfl rfl rfl)

section Bridge
variable {F : FTy → Type} [FloatOps F]

theorem step0_ops (x0 x1 x2 : (⟨S64, .i32⟩ : BufTy).Contents (Elt F)) (x3 : (⟨S64x3x48, .f32⟩ : BufTy).Contents (Elt F))
    (x4 x5 x6 : (⟨S300000, .i32⟩ : BufTy).Contents (Elt F)) (x7 : (⟨S300000, .f32⟩ : BufTy).Contents (Elt F)) :
    ReadP.val_main_v74 (F := F) x0 x1 x2 x3 x4 x5 x6 x7
      = stepOps (F := F) (ReadP.val_main_v21 (F := F) x3) (ReadP.val_main_v19 (F := F) x0)
          (ReadP.val_main_v18 (F := F) x0 x1 x2 x4 x5 x6 x7) x4 x5 x6 := rfl

end Bridge

theorem ref_step0 (x0 x1 x2 : T64.Idx → BitVec 32) (x3 : TAttn3.Idx → EReal) (x4 x5 x6 : TE.Idx → BitVec 32) (x7 : TE.Idx → EReal)
    (hr : InRange x4 x5 x6) :
    ReadP.val_main_v74 (F := Ideal) x0 x1 x2 x3 x4 x5 x6 x7
      = stepR (attnStep x3 0) x4 x5 x6 (killR x0 x1 x2 x4 x5 x6 x7) (onehotR x0) := by
  rw [step0_ops, stepOps_eq _ _ _ x4 x5 x6 hr, ref_attn0, ref_kill, ref_onehot]

theorem ref_attn1 (x3 : TAttn3.Idx → EReal) : ReadP.val_main_v76 (F := Ideal) x3 = attnStep x3 1 := by
  funext i
  obtain ⟨b, r, rfl⟩ : ∃ b r, i = ix2 b r := ⟨i 0, i 1, eq_ix2 i⟩
  rw [ReadP.val_main_v76_apply, ReadP.val_main_v75_apply]
  exact congrArg x3 (attn_idx b r 1 _ rfl rfl rfl)

theorem ref_attn2 (x3 : TAttn3.Idx → EReal) : ReadP.val_main_v131 (F := Ideal) x3 = attnStep x3 2 := by
  funext i
  obtain ⟨b, r, rfl⟩ : ∃ b r, i = ix2 b r := ⟨i 0, i 1, eq_ix2 i⟩
  rw [ReadP.val_main_v131_apply, ReadP.val_main_v130_apply]
  exact congrArg x3 (attn_idx b r 2 _ rfl rfl rfl)

section Bridge
variable {F : FTy → Type} [FloatOps F]

theorem step1_ops (x0 x1 x2 : (⟨S64, .i32⟩ : BufTy).Contents (Elt F)) (x3 : (⟨S64x3x48, .f32⟩ : BufTy).Contents (Elt F))
    (x4 x5 x6 : (⟨S300000, .i32⟩ : BufTy).Contents (Elt F)) (x7 : (⟨S300000, .f32⟩ : BufTy).Contents (Elt F)) :
    ReadP.val_main_v129 (F := F) x0 x1 x2 x3 x4 x5 x6 x7
      = stepOps (F := F) (ReadP.val_main_v76 (F := F) x3) (ReadP.val_main_v74 (F := F) x0 x1 x2 x3 x4 x5 x6 x7)
          (ReadP.val_main_v18 (F := F) x0 x1 x2 x4 x5 x6 x7) x4 x5 x6 := rfl

theorem step2_ops (x0 x1 x2 : (⟨S64, .i32⟩ : BufTy).Contents (Elt F)) (x3 : (⟨S64x3x48, .f32⟩ : BufTy).Contents (Elt F))
    (x4 x5 x6 : (⟨S300000, .i32⟩ : BufTy).Contents (Elt F)) (x7 : (⟨S300000, .f32⟩ : BufTy).Contents (Elt F)) :
    ReadP.val_main_v184 (F := F) x0 x1 x2 x3 x4 x5 x6 x7
      = stepOps (F := F) (ReadP.val_main_v131 (F := F) x3) (ReadP.val_main_v129 (F := F) x0 x1 x2 x3 x4 x5 x6 x7)
          (ReadP.val_main_v18 (F := F) x0 x1 x2 x4 x5 x6 x7) x4 x5 x6 := rfl

end Bridge

theorem ref_step1 (x0 x1 x2 : T64.Idx → BitVec 32) (x3 : TAttn3.Idx → EReal) (x4 x5 x6 : TE.Idx → BitVec 32) (x7 : TE.Idx → EReal)
    (hr : InRange x4 x5 x6) :
    ReadP.val_main_v129 (F := Ideal) x0 x1 x2 x3 x4 x5 x6 x7
      = stepR (attnStep x3 1) x4 x5 x6 (killR x0 x1 x2 x4 x5 x6 x7) (ReadP.val_main_v74 (F := Ideal) x0 x1 x2 x3 x4 x5 x6 x7) := by
  rw [step1_ops, stepOps_eq _ _ _ x4 x5 x6 hr, ref_attn1, ref_kill]

theorem ref_step2 (x0 x1 x2 : T64.Idx → BitVec 32) (x3 : TAttn3.Idx → EReal) (x4 x5 x6 : TE.Idx → BitVec 32) (x7 : TE.Idx → EReal)
    (hr : InRange x4 x5 x6) :
    ReadP.val_main_v184 (F := Ideal) x0 x1 x2 x3 x4 x5 x6 x7
      = stepR (attnStep x3 2) x4 x5 x6 (killR x0 x1 x2 x4 x5 x6 x7) (ReadP.val_main_v129 (F := Ideal) x0 x1 x2 x3 x4 x5 x6 x7) := by
  rw [step2_ops, stepOps_eq _ _ _ x4 x5 x6 hr, ref_attn2, ref_kill]

theorem ref_mem3 (x0 x1 x2 : T64.Idx → BitVec 32) (x3 : TAttn3.Idx → EReal) (x4 x5 x6 : TE.Idx → BitVec 32) (x7 : TE.Idx → EReal)
    (hr : InRange x4 x5 x6) :
    ReadP.val_main_v184 (F := Ideal) x0 x1 x2 x3 x4 x5 x6 x7 = memR3 x0 x1 x2 x3 x4 x5 x6 x7 := by
  rw [ref_step2 x0 x1 x2 x3 x4 x5 x6 x7 hr, ref_step1 x0 x1 x2 x3 x4 x5 x6 x7 hr, ref_step0 x0 x1 x2 x3 x4 x5 x6 x7 hr]
  rfl

end AtIdeal

section Tail
variable {F : FTy → Type} [FloatOps F]

theorem ref_tail_mem (x0 x1 x2 : (⟨S64, .i32⟩ : BufTy).Contents (Elt F)) (x3 : (⟨S64x3x48, .f32⟩ : BufTy).Contents (Elt F))
    (x4 x5 x6 : (⟨S300000, .i32⟩ : BufTy).Contents (Elt F)) (x7 : (⟨S300000, .f32⟩ : BufTy).Contents (Elt F)) :
    ReadP.val_main_v190 (F := F) x0 x1 x2 x3 x4 x5 x6 x7 = tailMemR (ReadP.val_main_v184 (F := F) x0 x1 x2 x3 x4 x5 x6 x7) := rfl

theorem ref_tail_loss (x0 x1 x2 : (⟨S64, .i32⟩ : BufTy).Contents (Elt F)) (x3 : (⟨S64x3x48, .f32⟩ : BufTy).Contents (Elt F))
    (x4 x5 x6 : (⟨S300000, .i32⟩ : BufTy).Contents (Elt F)) (x7 : (⟨S300000, .f32⟩ : BufTy).Contents (Elt F)) :
    ReadP.val_main_v211 (F := F) x0 x1 x2 x3 x4 x5 x6 x7 = tailLossR (ReadP.val_main_v184 (F := F) x0 x1 x2 x3 x4 x5 x6 x7) x2 := rfl

end Tail

end Cert.ReferenceIdeal.RefValue

end
-- ==== Proof.RefRun.lean ====
/-
  The reference program's run, read stretch by stretch. After a stretch its live-out buffer holds its stage as a function of
  the stages the stretch reads, and a buffer the stretch does not write holds what it held. The eight stretches compose to
  the two results as stages of the arguments.
-/
import proofs.«408331_j31499290149149_3_alg».proof.Proof.RunRI
import proofs.«408331_j31499290149149_3_alg».proof.Proof.ReadRI
import Idealize.ShloMosaic.Lib.StableHlo.Run
import Idealize.ShloMosaic.Lib.Pipeline.Frame

noncomputable section

namespace Cert.ReferenceIdeal.RefRun

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

theorem ops_split : (ValueP.ops : List (HloOp τ sig (Elt F)))
    = S0a ++ (S0b ++ (S0c ++ (S1 ++ (S2 ++ (S3 ++ (S4a ++ S4b)))))) := rfl

abbrev S0aw : List (Ref sig .tc) :=
  [main_v0, main_v1, main_v2, main_v3, main_v4, main_v5, main_v6, main_v7, main_v8, main_v9, main_v10, main_v11, main_v12, main_v13, main_v14, main_v15, main_v16, main_c, main_v17]

theorem S0a_writes : (S0a : List (HloOp τ sig (Elt F))).Forall
    fun op => op.writes ⊆ ((S0aw).map (Proc.devRef (τ := τ) .tc)).toFinset := by
  simp only [S0a, List.Forall, TRef.nullary, TRef.unary, TRef.binary, TRef.ternary, TRef.of, nullary_writes, unary_writes,
    binary_writes, ternary_writes, reshape_writes, Finset.singleton_subset_iff]
  repeat' apply And.intro
  all_goals exact List.mem_toFinset.2 (List.mem_map_of_mem (by decide))

theorem S0a_keep (V : Valuation τ sig (Elt F)) (r : Ref sig .tc) (hr : r ∉ S0aw) :
    after S0a V (Proc.devRef .tc r) = V (Proc.devRef .tc r) :=
  after_of_writes_sub S0a V S0a_writes hr

abbrev S0bw : List (Ref sig .tc) :=
  [main_cst, main_call0_v0, main_call0_v1, main_v18]

theorem S0b_writes : (S0b : List (HloOp τ sig (Elt F))).Forall
    fun op => op.writes ⊆ ((S0bw).map (Proc.devRef (τ := τ) .tc)).toFinset := by
  simp only [S0b, List.Forall, TRef.nullary, TRef.unary, TRef.binary, TRef.ternary, TRef.of, nullary_writes, unary_writes,
    binary_writes, ternary_writes, reshape_writes, Finset.singleton_subset_iff]
  repeat' apply And.intro
  all_goals exact List.mem_toFinset.2 (List.mem_map_of_mem (by decide))

theorem S0b_keep (V : Valuation τ sig (Elt F)) (r : Ref sig .tc) (hr : r ∉ S0bw) :
    after S0b V (Proc.devRef .tc r) = V (Proc.devRef .tc r) :=
  after_of_writes_sub S0b V S0b_writes hr

abbrev S0cw : List (Ref sig .tc) :=
  [main_call1_v0, main_call1_v1, main_call1_v2, main_call1_v3, main_call1_v4, main_v19]

theorem S0c_writes : (S0c : List (HloOp τ sig (Elt F))).Forall
    fun op => op.writes ⊆ ((S0cw).map (Proc.devRef (τ := τ) .tc)).toFinset := by
  simp only [S0c, List.Forall, TRef.nullary, TRef.unary, TRef.binary, TRef.ternary, TRef.of, nullary_writes, unary_writes,
    binary_writes, ternary_writes, reshape_writes, Finset.singleton_subset_iff]
  repeat' apply And.intro
  all_goals exact List.mem_toFinset.2 (List.mem_map_of_mem (by decide))

theorem S0c_keep (V : Valuation τ sig (Elt F)) (r : Ref sig .tc) (hr : r ∉ S0cw) :
    after S0c V (Proc.devRef .tc r) = V (Proc.devRef .tc r) :=
  after_of_writes_sub S0c V S0c_writes hr

abbrev S1w : List (Ref sig .tc) :=
  [main_v20, main_v21, main_c_0, main_v22, main_v23, main_c_1, main_v24, main_v25, main_v26, main_v27, main_v28, main_c_2, main_v29, main_v30, main_c_3, main_v31, main_v32, main_c_4, main_v33, main_v34, main_v35, main_v36, main_v37, main_c_5, main_v38, main_v39, main_c_6, main_v40, main_v41, main_v42, main_v43, main_v44, main_v45, main_v46, main_v47, main_c_7, main_v48, main_v49, main_c_8, main_v50, main_v51, main_v52, main_v53, main_v54, main_v55, main_v56, main_v57, main_v58, main_v59, main_cst_9, main_v60, main_v61, main_v62, main_v63, main_v64, main_v65, main_cst_10, main_v66, main_v67, main_v68, main_v69, main_v70, main_v71, main_v72, main_v73, main_v74]

theorem S1_writes : (S1 : List (HloOp τ sig (Elt F))).Forall
    fun op => op.writes ⊆ ((S1w).map (Proc.devRef (τ := τ) .tc)).toFinset := by
  simp only [S1, List.Forall, TRef.nullary, TRef.unary, TRef.binary, TRef.ternary, TRef.of, nullary_writes, unary_writes,
    binary_writes, ternary_writes, reshape_writes, Finset.singleton_subset_iff]
  repeat' apply And.intro
  all_goals exact List.mem_toFinset.2 (List.mem_map_of_mem (by decide))

theorem S1_keep (V : Valuation τ sig (Elt F)) (r : Ref sig .tc) (hr : r ∉ S1w) :
    after S1 V (Proc.devRef .tc r) = V (Proc.devRef .tc r) :=
  after_of_writes_sub S1 V S1_writes hr

abbrev S2w : List (Ref sig .tc) :=
  [main_v75, main_v76, main_c_11, main_v77, main_v78, main_c_12, main_v79, main_v80, main_v81, main_v82, main_v83, main_c_13, main_v84, main_v85, main_c_14, main_v86, main_v87, main_c_15, main_v88, main_v89, main_v90, main_v91, main_v92, main_c_16, main_v93, main_v94, main_c_17, main_v95, main_v96, main_v97, main_v98, main_v99, main_v100, main_v101, main_v102, main_c_18, main_v103, main_v104, main_c_19, main_v105, main_v106, main_v107, main_v108, main_v109, main_v110, main_v111, main_v112, main_v113, main_v114, main_cst_20, main_v115, main_v116, main_v117, main_v118, main_v119, main_v120, main_cst_21, main_v121, main_v122, main_v123, main_v124, main_v125, main_v126, main_v127, main_v128, main_v129]

theorem S2_writes : (S2 : List (HloOp τ sig (Elt F))).Forall
    fun op => op.writes ⊆ ((S2w).map (Proc.devRef (τ := τ) .tc)).toFinset := by
  simp only [S2, List.Forall, TRef.nullary, TRef.unary, TRef.binary, TRef.ternary, TRef.of, nullary_writes, unary_writes,
    binary_writes, ternary_writes, reshape_writes, Finset.singleton_subset_iff]
  repeat' apply And.intro
  all_goals exact List.mem_toFinset.2 (List.mem_map_of_mem (by decide))

theorem S2_keep (V : Valuation τ sig (Elt F)) (r : Ref sig .tc) (hr : r ∉ S2w) :
    after S2 V (Proc.devRef .tc r) = V (Proc.devRef .tc r) :=
  after_of_writes_sub S2 V S2_writes hr

abbrev S3w : List (Ref sig .tc) :=
  [main_v130, main_v131, main_c_22, main_v132, main_v133, main_c_23, main_v134, main_v135, main_v136, main_v137, main_v138, main_c_24, main_v139, main_v140, main_c_25, main_v141, main_v142, main_c_26, main_v143, main_v144, main_v145, main_v146, main_v147, main_c_27, main_v148, main_v149, main_c_28, main_v150, main_v151, main_v152, main_v153, main_v154, main_v155, main_v156, main_v157, main_c_29, main_v158, main_v159, main_c_30, main_v160, main_v161, main_v162, main_v163, main_v164, main_v165, main_v166, main_v167, main_v168, main_v169, main_cst_31, main_v170, main_v171, main_v172, main_v173, main_v174, main_v175, main_cst_32, main_v176, main_v177, main_v178, main_v179, main_v180, main_v181, main_v182, main_v183, main_v184]

theorem S3_writes : (S3 : List (HloOp τ sig (Elt F))).Forall
    fun op => op.writes ⊆ ((S3w).map (Proc.devRef (τ := τ) .tc)).toFinset := by
  simp only [S3, List.Forall, TRef.nullary, TRef.unary, TRef.binary, TRef.ternary, TRef.of, nullary_writes, unary_writes,
    binary_writes, ternary_writes, reshape_writes, Finset.singleton_subset_iff]
  repeat' apply And.intro
  all_goals exact List.mem_toFinset.2 (List.mem_map_of_mem (by decide))

theorem S3_keep (V : Valuation τ sig (Elt F)) (r : Ref sig .tc) (hr : r ∉ S3w) :
    after S3 V (Proc.devRef .tc r) = V (Proc.devRef .tc r) :=
  after_of_writes_sub S3 V S3_writes hr

abbrev S4aw : List (Ref sig .tc) :=
  [main_cst_33, main_v185, main_v186, main_cst_34, main_v187, main_v188, main_v189, main_v190, main_v191, main_c_35, main_v192, main_v193, main_c_36, main_v194, main_v195, main_v196, main_c_37, main_v197, main_v198, main_c_38, main_v199, main_v200, main_v201, main_v202, main_v203]

theorem S4a_writes : (S4a : List (HloOp τ sig (Elt F))).Forall
    fun op => op.writes ⊆ ((S4aw).map (Proc.devRef (τ := τ) .tc)).toFinset := by
  simp only [S4a, List.Forall, TRef.nullary, TRef.unary, TRef.binary, TRef.ternary, TRef.of, nullary_writes, unary_writes,
    binary_writes, ternary_writes, reshape_writes, Finset.singleton_subset_iff]
  repeat' apply And.intro
  all_goals exact List.mem_toFinset.2 (List.mem_map_of_mem (by decide))

theorem S4a_keep (V : Valuation τ sig (Elt F)) (r : Ref sig .tc) (hr : r ∉ S4aw) :
    after S4a V (Proc.devRef .tc r) = V (Proc.devRef .tc r) :=
  after_of_writes_sub S4a V S4a_writes hr

abbrev S4bw : List (Ref sig .tc) :=
  [main_v204, main_v205, main_cst_39, main_v206, main_v207, main_v208, main_cst_40, main_v209, main_cst_41, main_v210, main_v211]

theorem S4b_writes : (S4b : List (HloOp τ sig (Elt F))).Forall
    fun op => op.writes ⊆ ((S4bw).map (Proc.devRef (τ := τ) .tc)).toFinset := by
  simp only [S4b, List.Forall, TRef.nullary, TRef.unary, TRef.binary, TRef.ternary, TRef.of, nullary_writes, unary_writes,
    binary_writes, ternary_writes, reshape_writes, Finset.singleton_subset_iff]
  repeat' apply And.intro
  all_goals exact List.mem_toFinset.2 (List.mem_map_of_mem (by decide))

theorem S4b_keep (V : Valuation τ sig (Elt F)) (r : Ref sig .tc) (hr : r ∉ S4bw) :
    after S4b V (Proc.devRef .tc r) = V (Proc.devRef .tc r) :=
  after_of_writes_sub S4b V S4b_writes hr

section Stretch
variable (V : Valuation τ sig (Elt F))

theorem S0a_v17 : after S0a V (Proc.devRef .tc main_v17) = ReadP.val_main_v17 (F := F) (V (Proc.devRef .tc main_arg0)) (V (Proc.devRef .tc main_arg1)) (V (Proc.devRef .tc main_arg2)) (V (Proc.devRef .tc main_arg4)) (V (Proc.devRef .tc main_arg5)) (V (Proc.devRef .tc main_arg6)) := by
  after_results_simp
  rfl

theorem S0b_v18 (c : (⟨S300000, .i1⟩ : BufTy).Contents (Elt F)) (x7 : (⟨S300000, .f32⟩ : BufTy).Contents (Elt F))
    (h17 : V (Proc.devRef .tc main_v17) = c) (h7 : V (Proc.devRef .tc main_arg7) = x7) :
    after S0b V (Proc.devRef .tc main_v18) = select c (ReadP.val_main_call0_v1 (F := F)) x7 := by
  after_results_simp
  rw [h17, h7]
  simp only [TRef.ofBuf, TRef.toBuf, cast_eq]
  rfl

theorem S0c_v19 (x0 : (⟨S64, .i32⟩ : BufTy).Contents (Elt F)) (h0 : V (Proc.devRef .tc main_arg0) = x0) :
    after S0c V (Proc.devRef .tc main_v19) = ReadP.val_main_v19 (F := F) x0 := by
  after_results_simp
  rw [h0]
  simp only [TRef.ofBuf, TRef.toBuf, cast_eq]
  rfl

theorem S1_v74 (x0 x1 x2 : (⟨S64, .i32⟩ : BufTy).Contents (Elt F)) (x3 : (⟨S64x3x48, .f32⟩ : BufTy).Contents (Elt F))
    (x4 x5 x6 : (⟨S300000, .i32⟩ : BufTy).Contents (Elt F)) (x7 : (⟨S300000, .f32⟩ : BufTy).Contents (Elt F))
    (h18 : V (Proc.devRef .tc main_v18) = ReadP.val_main_v18 (F := F) x0 x1 x2 x4 x5 x6 x7)
    (h19 : V (Proc.devRef .tc main_v19) = ReadP.val_main_v19 (F := F) x0)
    (h3 : V (Proc.devRef .tc main_arg3) = x3) (h4 : V (Proc.devRef .tc main_arg4) = x4)
    (h5 : V (Proc.devRef .tc main_arg5) = x5) (h6 : V (Proc.devRef .tc main_arg6) = x6) :
    after S1 V (Proc.devRef .tc main_v74) = ReadP.val_main_v74 (F := F) x0 x1 x2 x3 x4 x5 x6 x7 := by
  after_results_simp
  rw [h18, h19, h3, h4, h5, h6]
  rfl

theorem S2_v129 (x0 x1 x2 : (⟨S64, .i32⟩ : BufTy).Contents (Elt F)) (x3 : (⟨S64x3x48, .f32⟩ : BufTy).Contents (Elt F))
    (x4 x5 x6 : (⟨S300000, .i32⟩ : BufTy).Contents (Elt F)) (x7 : (⟨S300000, .f32⟩ : BufTy).Contents (Elt F))
    (h18 : V (Proc.devRef .tc main_v18) = ReadP.val_main_v18 (F := F) x0 x1 x2 x4 x5 x6 x7)
    (h74 : V (Proc.devRef .tc main_v74) = ReadP.val_main_v74 (F := F) x0 x1 x2 x3 x4 x5 x6 x7)
    (h3 : V (Proc.devRef .tc main_arg3) = x3) (h4 : V (Proc.devRef .tc main_arg4) = x4)
    (h5 : V (Proc.devRef .tc main_arg5) = x5) (h6 : V (Proc.devRef .tc main_arg6) = x6) :
    after S2 V (Proc.devRef .tc main_v129) = ReadP.val_main_v129 (F := F) x0 x1 x2 x3 x4 x5 x6 x7 := by
  after_results_simp
  rw [h18, h74, h3, h4, h5, h6]
  rfl

theorem S3_v184 (x0 x1 x2 : (⟨S64, .i32⟩ : BufTy).Contents (Elt F)) (x3 : (⟨S64x3x48, .f32⟩ : BufTy).Contents (Elt F))
    (x4 x5 x6 : (⟨S300000, .i32⟩ : BufTy).Contents (Elt F)) (x7 : (⟨S300000, .f32⟩ : BufTy).Contents (Elt F))
    (h18 : V (Proc.devRef .tc main_v18) = ReadP.val_main_v18 (F := F) x0 x1 x2 x4 x5 x6 x7)
    (h129 : V (Proc.devRef .tc main_v129) = ReadP.val_main_v129 (F := F) x0 x1 x2 x3 x4 x5 x6 x7)
    (h3 : V (Proc.devRef .tc main_arg3) = x3) (h4 : V (Proc.devRef .tc main_arg4) = x4)
    (h5 : V (Proc.devRef .tc main_arg5) = x5) (h6 : V (Proc.devRef .tc main_arg6) = x6) :
    after S3 V (Proc.devRef .tc main_v184) = ReadP.val_main_v184 (F := F) x0 x1 x2 x3 x4 x5 x6 x7 := by
  after_results_simp
  rw [h18, h129, h3, h4, h5, h6]
  rfl

theorem S4a_v190 (x0 x1 x2 : (⟨S64, .i32⟩ : BufTy).Contents (Elt F)) (x3 : (⟨S64x3x48, .f32⟩ : BufTy).Contents (Elt F))
    (x4 x5 x6 : (⟨S300000, .i32⟩ : BufTy).Contents (Elt F)) (x7 : (⟨S300000, .f32⟩ : BufTy).Contents (Elt F))
    (h184 : V (Proc.devRef .tc main_v184) = ReadP.val_main_v184 (F := F) x0 x1 x2 x3 x4 x5 x6 x7) :
    after S4a V (Proc.devRef .tc main_v190) = ReadP.val_main_v190 (F := F) x0 x1 x2 x3 x4 x5 x6 x7 := by
  after_results_simp
  rw [h184]
  rfl

theorem S4a_v202 : after S4a V (Proc.devRef .tc main_v202) = ReadP.val_main_v202 (F := F) := by
  after_results_simp
  rfl

theorem S4a_v203 (x2 : (⟨S64, .i32⟩ : BufTy).Contents (Elt F)) (h2 : V (Proc.devRef .tc main_arg2) = x2) :
    after S4a V (Proc.devRef .tc main_v203) = ReadP.val_main_v203 (F := F) x2 := by
  after_results_simp
  rw [h2]
  rfl

theorem S4b_v211 (x0 x1 x2 : (⟨S64, .i32⟩ : BufTy).Contents (Elt F)) (x3 : (⟨S64x3x48, .f32⟩ : BufTy).Contents (Elt F))
    (x4 x5 x6 : (⟨S300000, .i32⟩ : BufTy).Contents (Elt F)) (x7 : (⟨S300000, .f32⟩ : BufTy).Contents (Elt F))
    (h190 : V (Proc.devRef .tc main_v190) = ReadP.val_main_v190 (F := F) x0 x1 x2 x3 x4 x5 x6 x7)
    (h202 : V (Proc.devRef .tc main_v202) = ReadP.val_main_v202 (F := F))
    (h203 : V (Proc.devRef .tc main_v203) = ReadP.val_main_v203 (F := F) x2) :
    after S4b V (Proc.devRef .tc main_v211) = ReadP.val_main_v211 (F := F) x0 x1 x2 x3 x4 x5 x6 x7 := by
  after_results_simp
  rw [h190, h202, h203]
  rfl

end Stretch

section Compose
variable (W : Valuation τ sig (Elt F))

abbrev E1 : Valuation τ sig (Elt F) := after S0a W
abbrev E2 : Valuation τ sig (Elt F) := after S0b (E1 W)
abbrev E3 : Valuation τ sig (Elt F) := after S0c (E2 W)
abbrev E4 : Valuation τ sig (Elt F) := after S1 (E3 W)
abbrev E5 : Valuation τ sig (Elt F) := after S2 (E4 W)
abbrev E6 : Valuation τ sig (Elt F) := after S3 (E5 W)
abbrev E7 : Valuation τ sig (Elt F) := after S4a (E6 W)
abbrev E8 : Valuation τ sig (Elt F) := after S4b (E7 W)

theorem after_ops : after ValueP.ops W = E8 W := by
  rw [ops_split, after_append, after_append, after_append, after_append, after_append, after_append, after_append]

theorem keep3 (r : Ref sig .tc) (ha : r ∉ S0aw) (hb : r ∉ S0bw) (hc : r ∉ S0cw) :
    E3 W (Proc.devRef .tc r) = W (Proc.devRef .tc r) :=
  (S0c_keep _ r hc).trans ((S0b_keep _ r hb).trans (S0a_keep W r ha))
theorem keep4 (r : Ref sig .tc) (ha : r ∉ S0aw) (hb : r ∉ S0bw) (hc : r ∉ S0cw) (h1 : r ∉ S1w) :
    E4 W (Proc.devRef .tc r) = W (Proc.devRef .tc r) :=
  (S1_keep _ r h1).trans (keep3 W r ha hb hc)
theorem keep5 (r : Ref sig .tc) (ha : r ∉ S0aw) (hb : r ∉ S0bw) (hc : r ∉ S0cw) (h1 : r ∉ S1w) (h2 : r ∉ S2w) :
    E5 W (Proc.devRef .tc r) = W (Proc.devRef .tc r) :=
  (S2_keep _ r h2).trans (keep4 W r ha hb hc h1)
theorem keep6 (r : Ref sig .tc) (ha : r ∉ S0aw) (hb : r ∉ S0bw) (hc : r ∉ S0cw) (h1 : r ∉ S1w) (h2 : r ∉ S2w)
    (h3 : r ∉ S3w) : E6 W (Proc.devRef .tc r) = W (Proc.devRef .tc r) :=
  (S3_keep _ r h3).trans (keep5 W r ha hb hc h1 h2)
theorem keep8 (r : Ref sig .tc) (ha : r ∉ S0aw) (hb : r ∉ S0bw) (hc : r ∉ S0cw) (h1 : r ∉ S1w) (h2 : r ∉ S2w)
    (h3 : r ∉ S3w) (h4 : r ∉ S4aw) (h5 : r ∉ S4bw) : E8 W (Proc.devRef .tc r) = W (Proc.devRef .tc r) :=
  (S4b_keep _ r h5).trans ((S4a_keep _ r h4).trans (keep6 W r ha hb hc h1 h2 h3))

theorem E2_v18 : E2 W (Proc.devRef .tc main_v18) = ReadP.val_main_v18 (F := F) (W (Proc.devRef .tc main_arg0)) (W (Proc.devRef .tc main_arg1)) (W (Proc.devRef .tc main_arg2)) (W (Proc.devRef .tc main_arg4)) (W (Proc.devRef .tc main_arg5)) (W (Proc.devRef .tc main_arg6)) (W (Proc.devRef .tc main_arg7)) :=
  S0b_v18 (E1 W) _ _ (S0a_v17 W) (S0a_keep W main_arg7 (by decide))
theorem E3_v18 : E3 W (Proc.devRef .tc main_v18) = ReadP.val_main_v18 (F := F) (W (Proc.devRef .tc main_arg0)) (W (Proc.devRef .tc main_arg1)) (W (Proc.devRef .tc main_arg2)) (W (Proc.devRef .tc main_arg4)) (W (Proc.devRef .tc main_arg5)) (W (Proc.devRef .tc main_arg6)) (W (Proc.devRef .tc main_arg7)) :=
  (S0c_keep _ main_v18 (by decide)).trans (E2_v18 W)
theorem E3_v19 : E3 W (Proc.devRef .tc main_v19) = ReadP.val_main_v19 (F := F) (W (Proc.devRef .tc main_arg0)) :=
  S0c_v19 (E2 W) _ ((S0b_keep _ main_arg0 (by decide)).trans (S0a_keep W main_arg0 (by decide)))
theorem E4_v74 : E4 W (Proc.devRef .tc main_v74) = ReadP.val_main_v74 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) :=
  S1_v74 (E3 W) _ _ _ _ _ _ _ _ (E3_v18 W) (E3_v19 W) (keep3 W main_arg3 (by decide) (by decide) (by decide)) (keep3 W main_arg4 (by decide) (by decide) (by decide))
    (keep3 W main_arg5 (by decide) (by decide) (by decide)) (keep3 W main_arg6 (by decide) (by decide) (by decide))
theorem E4_v18 : E4 W (Proc.devRef .tc main_v18) = ReadP.val_main_v18 (F := F) (W (Proc.devRef .tc main_arg0)) (W (Proc.devRef .tc main_arg1)) (W (Proc.devRef .tc main_arg2)) (W (Proc.devRef .tc main_arg4)) (W (Proc.devRef .tc main_arg5)) (W (Proc.devRef .tc main_arg6)) (W (Proc.devRef .tc main_arg7)) :=
  (S1_keep _ main_v18 (by decide)).trans (E3_v18 W)
theorem E5_v129 : E5 W (Proc.devRef .tc main_v129) = ReadP.val_main_v129 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) :=
  S2_v129 (E4 W) _ _ _ _ _ _ _ _ (E4_v18 W) (E4_v74 W) (keep4 W main_arg3 (by decide) (by decide) (by decide) (by decide))
    (keep4 W main_arg4 (by decide) (by decide) (by decide) (by decide)) (keep4 W main_arg5 (by decide) (by decide) (by decide) (by decide)) (keep4 W main_arg6 (by decide) (by decide) (by decide) (by decide))
theorem E5_v18 : E5 W (Proc.devRef .tc main_v18) = ReadP.val_main_v18 (F := F) (W (Proc.devRef .tc main_arg0)) (W (Proc.devRef .tc main_arg1)) (W (Proc.devRef .tc main_arg2)) (W (Proc.devRef .tc main_arg4)) (W (Proc.devRef .tc main_arg5)) (W (Proc.devRef .tc main_arg6)) (W (Proc.devRef .tc main_arg7)) :=
  (S2_keep _ main_v18 (by decide)).trans (E4_v18 W)
theorem E6_v184 : E6 W (Proc.devRef .tc main_v184) = ReadP.val_main_v184 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) :=
  S3_v184 (E5 W) _ _ _ _ _ _ _ _ (E5_v18 W) (E5_v129 W) (keep5 W main_arg3 (by decide) (by decide) (by decide) (by decide) (by decide))
    (keep5 W main_arg4 (by decide) (by decide) (by decide) (by decide) (by decide)) (keep5 W main_arg5 (by decide) (by decide) (by decide) (by decide) (by decide))
    (keep5 W main_arg6 (by decide) (by decide) (by decide) (by decide) (by decide))
theorem E7_v190 : E7 W (Proc.devRef .tc main_v190) = ReadP.val_main_v190 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) :=
  S4a_v190 (E6 W) _ _ _ _ _ _ _ _ (E6_v184 W)
theorem E7_v203 : E7 W (Proc.devRef .tc main_v203) = ReadP.val_main_v203 (F := F) (W (Proc.devRef .tc main_arg2)) :=
  S4a_v203 (E6 W) _ (keep6 W main_arg2 (by decide) (by decide) (by decide) (by decide) (by decide) (by decide))

theorem after_v190 : after ValueP.ops W (Proc.devRef .tc main_v190) = ReadP.val_main_v190 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  rw [after_ops]
  exact (S4b_keep _ main_v190 (by decide)).trans (E7_v190 W)

theorem after_v211 : after ValueP.ops W (Proc.devRef .tc main_v211) = ReadP.val_main_v211 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  rw [after_ops]
  exact S4b_v211 (E7 W) _ _ _ _ _ _ _ _ (E7_v190 W) (S4a_v202 (E6 W)) (E7_v203 W)

theorem after_arg0 : after ValueP.ops W (Proc.devRef .tc main_arg0) = W (Proc.devRef .tc main_arg0) := by
  rw [after_ops]
  exact keep8 W main_arg0 (by decide) (by decide) (by decide) (by decide) (by decide) (by decide) (by decide) (by decide)
theorem after_arg1 : after ValueP.ops W (Proc.devRef .tc main_arg1) = W (Proc.devRef .tc main_arg1) := by
  rw [after_ops]
  exact keep8 W main_arg1 (by decide) (by decide) (by decide) (by decide) (by decide) (by decide) (by decide) (by decide)
theorem after_arg2 : after ValueP.ops W (Proc.devRef .tc main_arg2) = W (Proc.devRef .tc main_arg2) := by
  rw [after_ops]
  exact keep8 W main_arg2 (by decide) (by decide) (by decide) (by decide) (by decide) (by decide) (by decide) (by decide)
theorem after_arg3 : after ValueP.ops W (Proc.devRef .tc main_arg3) = W (Proc.devRef .tc main_arg3) := by
  rw [after_ops]
  exact keep8 W main_arg3 (by decide) (by decide) (by decide) (by decide) (by decide) (by decide) (by decide) (by decide)
theorem after_arg4 : after ValueP.ops W (Proc.devRef .tc main_arg4) = W (Proc.devRef .tc main_arg4) := by
  rw [after_ops]
  exact keep8 W main_arg4 (by decide) (by decide) (by decide) (by decide) (by decide) (by decide) (by decide) (by decide)
theorem after_arg5 : after ValueP.ops W (Proc.devRef .tc main_arg5) = W (Proc.devRef .tc main_arg5) := by
  rw [after_ops]
  exact keep8 W main_arg5 (by decide) (by decide) (by decide) (by decide) (by decide) (by decide) (by decide) (by decide)
theorem after_arg6 : after ValueP.ops W (Proc.devRef .tc main_arg6) = W (Proc.devRef .tc main_arg6) := by
  rw [after_ops]
  exact keep8 W main_arg6 (by decide) (by decide) (by decide) (by decide) (by decide) (by decide) (by decide) (by decide)
theorem after_arg7 : after ValueP.ops W (Proc.devRef .tc main_arg7) = W (Proc.devRef .tc main_arg7) := by
  rw [after_ops]
  exact keep8 W main_arg7 (by decide) (by decide) (by decide) (by decide) (by decide) (by decide) (by decide) (by decide)

end Compose

theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v211) = ReadP.val_main_v211 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v190) = ReadP.val_main_v190 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v211).trans (after_v211 (launchContents m c)),
      (h c main_v190).trans (after_v190 (launchContents m c)),
      (h c main_arg0).trans (after_arg0 (launchContents m c)),
      (h c main_arg1).trans (after_arg1 (launchContents m c)),
      (h c main_arg2).trans (after_arg2 (launchContents m c)),
      (h c main_arg3).trans (after_arg3 (launchContents m c)),
      (h c main_arg4).trans (after_arg4 (launchContents m c)),
      (h c main_arg5).trans (after_arg5 (launchContents m c)),
      (h c main_arg6).trans (after_arg6 (launchContents m c)),
      (h c main_arg7).trans (after_arg7 (launchContents m c))⟩)
    (ValueP.run_after m ρ)

end Cert.ReferenceIdeal.RefRun

end
-- ==== Proof.Bridge.lean ====
/-
  The tiled spelling of three steps, cut to its first 40000 columns, is the direct spelling. An indicator sum with one hit
  is the term at the hit; the 293 tiles of 1024 positions are the 300032 padded positions; the last 32 are pad edges, whose
  messages carry the factor 0; on a real edge in range each tiled term is the direct term with its factors commuted.
-/
import proofs.«408331_j31499290149149_3_alg».proof.Proof.Spec
import Mathlib.Algebra.BigOperators.Group.Finset.Basic
import Mathlib.Algebra.BigOperators.Fin
import Mathlib.Data.Fintype.BigOperators
import Mathlib.Logic.Equiv.Fin.Basic

noncomputable section

namespace Cert.MsgSpec

open Idealize.ShloMosaic Idealize.ShloMosaic.ValueIdx
open scoped BigOperators

theorem ind_congr {p q : Prop} [Decidable p] [Decidable q] (h : p ↔ q) : ind p = ind q := by
  unfold ind; exact if_congr h rfl rfl

theorem ofNat_eq_iff (n : ℕ) (hn : n < 2 ^ 32) (w : BitVec 32) : BitVec.ofNat 32 n = w ↔ n = w.toNat := by
  constructor
  · intro h; rw [← h, BitVec.toNat_ofNat]; exact (Nat.mod_eq_of_lt hn).symm
  · intro h; apply BitVec.eq_of_toNat_eq; rw [BitVec.toNat_ofNat, ← h]; exact Nat.mod_eq_of_lt hn

theorem indsum_eq (N : ℕ) (hN : N ≤ 2 ^ 32) (f : Fin N → EReal) (w : BitVec 32) :
    ∑ n : Fin N, f n * ind (BitVec.ofNat 32 n.val = w) = if h : w.toNat < N then f ⟨w.toNat, h⟩ else 0 := by
  by_cases h : w.toNat < N
  · rw [dif_pos h, Finset.sum_eq_single (⟨w.toNat, h⟩ : Fin N)]
    · rw [ind_true ((ofNat_eq_iff w.toNat (by omega) w).2 rfl), mul_one]
    · intro n _ hn
      rw [ind_false, mul_zero]
      intro heq
      exact hn (Fin.ext ((ofNat_eq_iff n.val (by have := n.isLt; omega) w).1 heq))
    · intro hne; exact absurd (Finset.mem_univ _) hne
  · rw [dif_neg h]
    apply Finset.sum_eq_zero
    intro n _
    rw [ind_false, mul_zero]
    intro heq
    have h1 := (ofNat_eq_iff n.val (by have := n.isLt; omega) w).1 heq
    have h2 := n.isLt
    omega

theorem gath_eq (mem : TMp.Idx → EReal) (b : Fin 64) (id : BitVec 32) :
    gath mem b id = if h : id.toNat < 40960 then mem (ix2 b ⟨id.toNat, h⟩) else 0 :=
  indsum_eq 40960 (by omega) (fun n => mem (ix2 b n)) id

theorem att_eq (a : TA.Idx → EReal) (b : Fin 64) (r : BitVec 32) :
    att a b r = if h : r.toNat < 24 then a (ix2 b ⟨r.toNat, h⟩) else 0 :=
  indsum_eq 24 (by omega) (fun n => a (ix2 b n)) r

theorem gath_pad (mem : TMp.Idx → EReal) (b : Fin 64) : gath mem b (-1#32) = 0 := by
  rw [gath_eq, dif_neg (by decide)]

theorem stepAcc_eq_range (eh et er : TEp.Idx → BitVec 32) (vals : TEp.Idx → EReal) (afwd arev : TA.Idx → EReal)
    (mem : TMp.Idx → EReal) (i : TMp.Idx) (n : ℕ) :
    stepAcc eh et er vals afwd arev mem n i
      = ∑ k ∈ Finset.range n, (if h : k < 293 then
          tileContrib (blkE eh ⟨k, h⟩) (blkE et ⟨k, h⟩) (blkE er ⟨k, h⟩) (blkE vals ⟨k, h⟩) afwd arev mem i else 0) := by
  induction n with
  | zero => rfl
  | succ n ih => rw [Finset.sum_range_succ, ← ih]; rfl

theorem stepAcc_all (eh et er : TEp.Idx → BitVec 32) (vals : TEp.Idx → EReal) (afwd arev : TA.Idx → EReal)
    (mem : TMp.Idx → EReal) (i : TMp.Idx) :
    stepAcc eh et er vals afwd arev mem 293 i
      = ∑ t : Fin 293, tileContrib (blkE eh t) (blkE et t) (blkE er t) (blkE vals t) afwd arev mem i := by
  rw [stepAcc_eq_range, ← Fin.sum_univ_eq_sum_range]
  apply Finset.sum_congr rfl
  intro t _
  rw [dif_pos t.isLt]

def termR (ehp etp erp : TEp.Idx → BitVec 32) (vals : TEp.Idx → EReal) (arev : TA.Idx → EReal) (mem : TMp.Idx → EReal)
    (b : Fin 64) (n : Fin 40960) (e : Fin 300032) : EReal :=
  gath mem b (etp (ix1 e)) * vals (ix1 e) * att arev b (erp (ix1 e)) * ind (BitVec.ofNat 32 n.val = ehp (ix1 e))

def termF (ehp etp erp : TEp.Idx → BitVec 32) (vals : TEp.Idx → EReal) (afwd : TA.Idx → EReal) (mem : TMp.Idx → EReal)
    (b : Fin 64) (n : Fin 40960) (e : Fin 300032) : EReal :=
  gath mem b (ehp (ix1 e)) * vals (ix1 e) * att afwd b (erp (ix1 e)) * ind (BitVec.ofNat 32 n.val = etp (ix1 e))

theorem tileContrib_blk (ehp etp erp : TEp.Idx → BitVec 32) (vals : TEp.Idx → EReal) (afwd arev : TA.Idx → EReal)
    (mem : TMp.Idx → EReal) (t : Fin 293) (b : Fin 64) (n : Fin 40960) :
    tileContrib (blkE ehp t) (blkE etp t) (blkE erp t) (blkE vals t) afwd arev mem (ix2 b n)
      = (∑ e : Fin 1024, termR ehp etp erp vals arev mem b n
            ⟨t.val * 1024 + e.val, by have := t.isLt; have := e.isLt; omega⟩)
        + (∑ e : Fin 1024, termF ehp etp erp vals afwd mem b n
            ⟨t.val * 1024 + e.val, by have := t.isLt; have := e.isLt; omega⟩) := rfl

theorem sum_tiles (f : Fin 300032 → EReal) :
    ∑ t : Fin 293, ∑ e : Fin 1024, f ⟨t.val * 1024 + e.val, by have := t.isLt; have := e.isLt; omega⟩
      = ∑ e : Fin 300032, f e := by
  have h0 : 293 * 1024 = 300032 := by norm_num
  rw [← Equiv.sum_comp (finCongr h0) f, ← Equiv.sum_comp (finProdFinEquiv (m := 293) (n := 1024)), Fintype.sum_prod_type]
  apply Finset.sum_congr rfl; intro t _
  apply Finset.sum_congr rfl; intro e _
  apply congrArg f
  apply Fin.ext
  show t.val * 1024 + e.val = e.val + 1024 * t.val
  omega

theorem sum_pad (f : Fin 300032 → EReal) (hpad : ∀ e : Fin 300032, 300000 ≤ e.val → f e = 0) :
    ∑ e : Fin 300032, f e = ∑ e : Fin 300000, f ⟨e.val, by have := e.isLt; omega⟩ := by
  have h0 : 300000 + 32 = 300032 := by norm_num
  rw [← Equiv.sum_comp (finCongr h0) f, Fin.sum_univ_add]
  have hz : ∑ i : Fin 32, f (finCongr h0 (Fin.natAdd 300000 i)) = 0 :=
    Finset.sum_eq_zero (fun i _ => hpad _ (by show 300000 ≤ 300000 + i.val; omega))
  rw [hz, add_zero]
  rfl

theorem stepAcc_full (ehp etp erp : TEp.Idx → BitVec 32) (vals : TEp.Idx → EReal) (afwd arev : TA.Idx → EReal)
    (mem : TMp.Idx → EReal) (b : Fin 64) (n : Fin 40960) :
    stepAcc ehp etp erp vals afwd arev mem 293 (ix2 b n)
      = (∑ e : Fin 300032, termR ehp etp erp vals arev mem b n e)
        + (∑ e : Fin 300032, termF ehp etp erp vals afwd mem b n e) := by
  rw [stepAcc_all, Finset.sum_congr rfl (fun t _ => tileContrib_blk ehp etp erp vals afwd arev mem t b n),
    Finset.sum_add_distrib, sum_tiles (termR ehp etp erp vals arev mem b n),
    sum_tiles (termF ehp etp erp vals afwd mem b n)]

theorem padE_real {α : Type} (a : TE.Idx → α) (fill : α) (e : Fin 300000) :
    padE a fill (ix1 (⟨e.val, by have := e.isLt; omega⟩ : Fin 300032)) = a (ix1 e) := by
  unfold padE
  exact dif_pos e.isLt

theorem padE_pad {α : Type} (a : TE.Idx → α) (fill : α) (e : Fin 300032) (h : 300000 ≤ e.val) :
    padE a fill (ix1 e) = fill := by
  unfold padE
  exact dif_neg (by show ¬ e.val < 300000; omega)

theorem killK_real (qh qr tt : T64.Idx → BitVec 32) (eh et er : TE.Idx → BitVec 32) (ev : TE.Idx → EReal)
    (f1 f2 f3 : BitVec 32) (f4 : EReal) (e : Fin 300000) :
    killK qh tt qr (padE eh f1) (padE et f2) (padE er f3) (padE ev f4) (ix1 (⟨e.val, by have := e.isLt; omega⟩ : Fin 300032))
      = killR qh qr tt eh et er ev (ix1 e) := by
  unfold killK killR
  rw [padE_real, padE_real, padE_real, padE_real]
  exact if_congr (exists_congr fun b => and_assoc.symm) rfl rfl

theorem gath_real (mem : TMp.Idx → EReal) (b : Fin 64) (w : BitVec 32) (h : w.toNat < 40000) :
    gath mem b w = memAt (cutM mem) b w := by
  rw [gath_eq, dif_pos (by omega)]
  unfold memAt
  rw [dif_pos h]
  rfl

theorem att_fwd (a : TAttn.Idx → EReal) (b : Fin 64) (r : BitVec 32) (h : r.toNat < 24) :
    att (sliceFwd a) b r = attAt a b r.toNat := by
  rw [att_eq, dif_pos h]
  unfold attAt
  rw [dif_pos (by omega)]
  rfl

theorem att_rev (a : TAttn.Idx → EReal) (b : Fin 64) (r : BitVec 32) (h : r.toNat < 24) :
    att (sliceRev a) b r = attAt a b (r.toNat + 24) := by
  rw [att_eq, dif_pos h]
  unfold attAt
  rw [dif_pos (by omega)]
  exact congrArg (fun k : Fin 48 => a (ix2 b k)) (Fin.ext (Nat.add_comm 24 r.toNat))

theorem termR_pad (eh et er : TE.Idx → BitVec 32) (vals : TEp.Idx → EReal) (arev : TA.Idx → EReal) (mem : TMp.Idx → EReal)
    (b : Fin 64) (n : Fin 40960) (e : Fin 300032) (h : 300000 ≤ e.val) :
    termR (padE eh (-1#32)) (padE et (-1#32)) (padE er 0#32) vals arev mem b n e = 0 := by
  unfold termR
  rw [padE_pad et _ e h, gath_pad, zero_mul, zero_mul, zero_mul]

theorem termF_pad (eh et er : TE.Idx → BitVec 32) (vals : TEp.Idx → EReal) (afwd : TA.Idx → EReal) (mem : TMp.Idx → EReal)
    (b : Fin 64) (n : Fin 40960) (e : Fin 300032) (h : 300000 ≤ e.val) :
    termF (padE eh (-1#32)) (padE et (-1#32)) (padE er 0#32) vals afwd mem b n e = 0 := by
  unfold termF
  rw [padE_pad eh _ e h, gath_pad, zero_mul, zero_mul, zero_mul]

theorem termR_real (qh qr tt : T64.Idx → BitVec 32) (a : TAttn.Idx → EReal) (eh et er : TE.Idx → BitVec 32)
    (ev : TE.Idx → EReal) (hr : InRange eh et er) (mem : TMp.Idx → EReal) (b : Fin 64) (n : Fin 40960) (e : Fin 300000) :
    termR (padE eh (-1#32)) (padE et (-1#32)) (padE er 0#32)
        (killK qh tt qr (padE eh (-1#32)) (padE et (-1#32)) (padE er 0#32) (padE ev 0)) (sliceRev a) mem b n
        (⟨e.val, by have := e.isLt; omega⟩ : Fin 300032)
      = ind (eh (ix1 e) = BitVec.ofNat 32 n.val)
        * (memAt (cutM mem) b (et (ix1 e)) * killR qh qr tt eh et er ev (ix1 e) * attAt a b ((er (ix1 e)).toNat + 24)) := by
  unfold termR
  rw [padE_real, padE_real, padE_real, killK_real, gath_real mem b _ (hr e).2.1, att_rev a b _ (hr e).2.2,
    ind_congr (eq_comm (a := BitVec.ofNat 32 n.val) (b := eh (ix1 e))), mul_comm]

theorem termF_real (qh qr tt : T64.Idx → BitVec 32) (a : TAttn.Idx → EReal) (eh et er : TE.Idx → BitVec 32)
    (ev : TE.Idx → EReal) (hr : InRange eh et er) (mem : TMp.Idx → EReal) (b : Fin 64) (n : Fin 40960) (e : Fin 300000) :
    termF (padE eh (-1#32)) (padE et (-1#32)) (padE er 0#32)
        (killK qh tt qr (padE eh (-1#32)) (padE et (-1#32)) (padE er 0#32) (padE ev 0)) (sliceFwd a) mem b n
        (⟨e.val, by have := e.isLt; omega⟩ : Fin 300032)
      = ind (et (ix1 e) = BitVec.ofNat 32 n.val)
        * (memAt (cutM mem) b (eh (ix1 e)) * killR qh qr tt eh et er ev (ix1 e) * attAt a b (er (ix1 e)).toNat) := by
  unfold termF
  rw [padE_real, padE_real, padE_real, killK_real, gath_real mem b _ (hr e).1, att_fwd a b _ (hr e).2.2,
    ind_congr (eq_comm (a := BitVec.ofNat 32 n.val) (b := et (ix1 e))), mul_comm]

theorem cutM_at (mem : TMp.Idx → EReal) (b : Fin 64) (n : Fin 40000) :
    cutM mem (ix2 b n) = mem (ix2 b (⟨n.val, by have := n.isLt; omega⟩ : Fin 40960)) := rfl

theorem stepK_at (ehp etp erp : TEp.Idx → BitVec 32) (vals : TEp.Idx → EReal) (afwd arev : TA.Idx → EReal)
    (aself : TS.Idx → EReal) (mem : TMp.Idx → EReal) (b : Fin 64) (n : Fin 40960) :
    stepK ehp etp erp vals afwd arev aself mem (ix2 b n)
      = stepAcc ehp etp erp vals afwd arev mem 293 (ix2 b n) + mem (ix2 b n) * aself (ix2 b 0) := rfl

theorem stepR_at (attn : TAttn.Idx → EReal) (eh et er : TE.Idx → BitVec 32) (vals : TE.Idx → EReal) (mem : TM.Idx → EReal)
    (b : Fin 64) (n : Fin 40000) :
    stepR attn eh et er vals mem (ix2 b n)
      = ((∑ e : Fin 300000, ind (et (ix1 e) = BitVec.ofNat 32 n.val)
            * (memAt mem b (eh (ix1 e)) * vals (ix1 e) * attAt attn b (er (ix1 e)).toNat))
         + (∑ e : Fin 300000, ind (eh (ix1 e) = BitVec.ofNat 32 n.val)
            * (memAt mem b (et (ix1 e)) * vals (ix1 e) * attAt attn b ((er (ix1 e)).toNat + 24))))
        + mem (ix2 b n) * attn (ix2 b ⟨47, by decide⟩) := rfl

theorem cut_stepK (qh qr tt : T64.Idx → BitVec 32) (a : TAttn.Idx → EReal) (eh et er : TE.Idx → BitVec 32)
    (ev : TE.Idx → EReal) (hr : InRange eh et er) (mem : TMp.Idx → EReal) :
    cutM (stepK (padE eh (-1#32)) (padE et (-1#32)) (padE er 0#32)
        (killK qh tt qr (padE eh (-1#32)) (padE et (-1#32)) (padE er 0#32) (padE ev 0))
        (sliceFwd a) (sliceRev a) (sliceSelf a) mem)
      = stepR a eh et er (killR qh qr tt eh et er ev) (cutM mem) := by
  funext i
  obtain ⟨b, n, rfl⟩ : ∃ (b : Fin 64) (n : Fin 40000), i = ix2 b n := ⟨i 0, i 1, eq_ix2 i⟩
  rw [cutM_at, stepK_at, stepR_at, stepAcc_full,
    sum_pad _ (fun e he => termR_pad eh et er _ _ mem b _ e he),
    sum_pad _ (fun e he => termF_pad eh et er _ _ mem b _ e he),
    Finset.sum_congr rfl (fun e _ => termR_real qh qr tt a eh et er ev hr mem b _ e),
    Finset.sum_congr rfl (fun e _ => termF_real qh qr tt a eh et er ev hr mem b _ e),
    add_comm (∑ e : Fin 300000, ind (eh (ix1 e) = BitVec.ofNat 32 n.val) * _)]
  rfl

theorem cut_onehot (qh : T64.Idx → BitVec 32) : cutM (onehotK qh) = onehotR qh := rfl

theorem memK3_cut_eq_memR3 (qh qr tt : T64.Idx → BitVec 32) (attention : TAttn3.Idx → EReal) (eh et er : TE.Idx → BitVec 32)
    (ev : TE.Idx → EReal) (hr : InRange eh et er) :
    cutM (memK3 qh qr tt attention eh et er ev) = memR3 qh qr tt attention eh et er ev := by
  unfold memK3 memR3
  simp only []
  rw [cut_stepK qh qr tt _ eh et er ev hr, cut_stepK qh qr tt _ eh et er ev hr, cut_stepK qh qr tt _ eh et er ev hr,
    cut_onehot]

end Cert.MsgSpec

end
-- ==== Proof.PreRange.lean ====
/-
  The precondition read back as index ranges: every edge's head and tail lie below 40000 and its relation below 24. Each
  conjunct is a conjunction over all entries of two signed comparisons; a non-negative signed reading is the unsigned one.
-/
import proofs.«408331_j31499290149149_3_alg».proof.Pre_finite_inputs
import proofs.«408331_j31499290149149_3_alg».proof.Proof.Spec
import Idealize.ShloMosaic.Lib.ReduceAll
import Idealize.ShloMosaic.Lib.StableHlo.Predicate
import Idealize.ShloMosaic.Lib.ValueIdx

noncomputable section

namespace Cert.PreRange

open Idealize.ShloMosaic Idealize.ShloMosaic.ValueIdx
open Cert.Pre_finite_inputs

instance : Subsingleton S_.Idx := ⟨fun a b => funext fun d => d.elim0⟩

theorem toNat_lt_of_signed (w : BitVec 32) (n : Nat) (hn : n < 2 ^ 31) (h0 : IntOp.cmpi .sge w 0#32 = 1#1)
    (h1 : IntOp.cmpi .slt w (BitVec.ofNat 32 n) = 1#1) : w.toNat < n := by
  rw [IntOp.cmpi_sge, show (0#32 : BitVec 32).toInt = 0 from by decide] at h0
  rw [IntOp.cmpi_slt, StableHlo.Predicate.toInt_ofNat_small n hn] at h1
  have hw : 2 * w.toNat < 2 ^ 32 := BitVec.toInt_pos_iff.1 h0
  rw [BitVec.toInt_eq_toNat_of_lt hw] at h1
  exact_mod_cast h1

theorem elem_lt [Facts] (x : IVec S300000 32) (n : Nat) (hn : n < 2 ^ 31) (init : IVec S_ 1)
    (h : Host.reduce IntOp.andi
        (andi (cmpi .sge x (broadcastInDim S300000 ![] Facts.bcast_S_S300000 (constantI S_ 32 0#32)))
          (cmpi .slt x (broadcastInDim S300000 ![] Facts.bcast_S_S300000 (constantI S_ 32 (BitVec.ofNat 32 n)))))
        init Facts.reducesTo_S300000_S_d0 Facts.h_S_ ix0 = 1#1) (e : Fin 300000) : (x (ix1 e)).toNat < n := by
  have he := Host.reduce_andi_all _ _ _ _ _ h (ix1 e)
  obtain ⟨ha, hb⟩ := IntOp.andi_eq_one.1 he
  exact toNat_lt_of_signed _ n hn ha hb

theorem andi_split {a b : IVec S_ 1} {i : S_.Idx} (h : andi a b i = 1#1) : a i = 1#1 ∧ b i = 1#1 :=
  IntOp.andi_eq_one.1 h

theorem inRange_of_pre [Cert.Pre_finite_inputs.Facts] (x0 x1 x2 : IVec Cert.Pre_finite_inputs.S64 32)
    (x3 : FVec Ideal Cert.Pre_finite_inputs.S64x3x48 .f32) (x4 x5 x6 : IVec Cert.Pre_finite_inputs.S300000 32)
    (x7 : FVec Ideal Cert.Pre_finite_inputs.S300000 .f32)
    (h : Cert.Pre_finite_inputs.fn (F := Ideal) x0 x1 x2 x3 x4 x5 x6 x7 = fun _ => 1#1) :
    Cert.MsgSpec.InRange x4 x5 x6 := by
  have h0 := congrFun h ix0
  dsimp only [fn, fn_part1] at h0

  obtain ⟨h22, h28⟩ := andi_split h0
  obtain ⟨h15, h21⟩ := andi_split h22
  obtain ⟨-, h14⟩ := andi_split h15
  exact fun e => ⟨elem_lt x4 40000 (by norm_num) _ h14 e, elem_lt x5 40000 (by norm_num) _ h21 e,
    elem_lt x6 24 (by norm_num) _ h28 e⟩

end Cert.PreRange

end
-- ==== Proof.lean ====
/-
  Three rounds of attention-weighted message passing over a knowledge graph. The kernel program works on the edge list padded
  and cut into tiles, reading and accumulating through indicator sums; the reference reads the memory at each edge's own
  indices and sums the messages that arrive at a column. Both end with the same closing operations, so the claim reduces
  to the memory after the three steps: the kernel program's is the tiled spelling cut to its first 40000 columns, the
  reference's the direct spelling, and the two agree when every edge's head and tail are entity ids and its relation a
  forward relation, which the precondition says. Only commutativity and associativity of + and ·, x·0 = 0 and x·1 = x
  are used, so the finiteness of the float inputs is not.
-/
import proofs.«408331_j31499290149149_3_alg».proof.Defs
import proofs.«408331_j31499290149149_3_alg».proof.Proof.Gen.Kernel
import proofs.«408331_j31499290149149_3_alg».proof.Proof.Gen.Kernel.Skeleton
import proofs.«408331_j31499290149149_3_alg».proof.Proof.Gen.Kernel.Loops
import proofs.«408331_j31499290149149_3_alg».proof.Proof.Gen.Kernel.Launch
import proofs.«408331_j31499290149149_3_alg».proof.Proof.Gen.Kernel.Points
import proofs.«408331_j31499290149149_3_alg».proof.Proof.FrameK
import proofs.«408331_j31499290149149_3_alg».proof.Proof.Gen.KernelIdeal
import proofs.«408331_j31499290149149_3_alg».proof.Proof.Gen.KernelIdeal.Skeleton
import proofs.«408331_j31499290149149_3_alg».proof.Proof.Gen.KernelIdeal.Loops
import proofs.«408331_j31499290149149_3_alg».proof.Proof.Gen.KernelIdeal.Launch
import proofs.«408331_j31499290149149_3_alg».proof.Proof.Gen.KernelIdeal.Points
import proofs.«408331_j31499290149149_3_alg».proof.Proof.FrameKI
import proofs.«408331_j31499290149149_3_alg».proof.Proof.Gen.ReferenceIdeal
import proofs.«408331_j31499290149149_3_alg».proof.Proof.Gen.Pre_finite_inputs
import proofs.«408331_j31499290149149_3_alg».proof.Proof.KernelValue
import proofs.«408331_j31499290149149_3_alg».proof.Proof.RefValue
import proofs.«408331_j31499290149149_3_alg».proof.Proof.RefRun
import proofs.«408331_j31499290149149_3_alg».proof.Proof.Bridge
import proofs.«408331_j31499290149149_3_alg».proof.Proof.PreRange
import Idealize.ShloMosaic.Adequacy
import Idealize.ShloMosaic.Init

noncomputable section

namespace Cert.Proof

open Idealize.ShloMosaic Idealize.SL.Sem

theorem tailMem_eq {F : FTy → Type} [FloatOps F] (y : FVec F Cert.ReferenceIdeal.S64x40000 .f32) :
    Cert.ReferenceIdeal.RefValue.tailMemR (F := F) y = Cert.KernelIdeal.Tail.tailMem (F := F) y := rfl

theorem tailLoss_eq {F : FTy → Type} [FloatOps F] (y : FVec F Cert.ReferenceIdeal.S64x40000 .f32) (t : IVec Cert.ReferenceIdeal.S64 32) :
    Cert.ReferenceIdeal.RefValue.tailLossR (F := F) y t = Cert.KernelIdeal.Tail.tailLoss (F := F) y t := rfl

theorem frame_p : Cert.frame_Kernel := fun m ρ _ => Cert.Kernel.GenP.frame m ρ

theorem frame_pi : Cert.frame_KernelIdeal := fun m ρ _ => Cert.KernelIdeal.GenP.frame m ρ

-- The reference has no kernel: its frame is its run with the results dropped.
theorem frame_ri : Cert.frame_ReferenceIdeal := fun m ρ _ =>
  (θ_run Cert.ReferenceIdeal.defs _ _).mono (fun _ h c => (h c).2.2) (Cert.ReferenceIdeal.RefRun.ref_run (F := Ideal) m ρ)

theorem preserves : Cert.preserves_Kernel_KernelIdeal := trivial

-- Both runs end at the closing operations of one memory.
theorem algebraic : Cert.algebraic_KernelIdeal_ReferenceIdeal := by
  intro m ρ m' ρ' hpre hagree
  refine ⟨_, _, Cert.KernelIdeal.KValue.run_value m ρ, ?_⟩
  refine (θ_run Cert.ReferenceIdeal.defs _ _).mono (fun r h c => ?_) (Cert.ReferenceIdeal.RefRun.ref_run (F := Ideal) m' ρ')
  have hr : Cert.MsgSpec.InRange (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) :=
    Cert.PreRange.inRange_of_pre _ _ _ _ _ _ _ _ (hpre c)
  obtain ⟨h0, h1, h2, h3, h4, h5, h6, h7⟩ := hagree c
  have hmem := Cert.MsgSpec.memK3_cut_eq_memR3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) hr
  refine ⟨(h c).1.trans ?_, (h c).2.1.trans ?_, (h c).2.2⟩
  · rw [Cert.ReferenceIdeal.RefValue.ref_tail_loss, h0, h1, h2, h3, h4, h5, h6, h7,
      Cert.ReferenceIdeal.RefValue.ref_mem3 _ _ _ _ _ _ _ _ hr, ← hmem]
    exact tailLoss_eq _ _
  · rw [Cert.ReferenceIdeal.RefValue.ref_tail_mem, h0, h1, h2, h3, h4, h5, h6, h7,
      Cert.ReferenceIdeal.RefValue.ref_mem3 _ _ _ _ _ _ _ _ hr, ← hmem]
    exact tailMem_eq _

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
